-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S2400000 : Shape := ⟨1, ![2400000]⟩
abbrev S100000x64 : Shape := ⟨2, ![100000, 64]⟩
abbrev S50000x64 : Shape := ⟨2, ![50000, 64]⟩
abbrev S64x64 : Shape := ⟨2, ![64, 64]⟩
abbrev S1x64 : Shape := ⟨2, ![1, 64]⟩
abbrev S_ : Shape := ⟨0, ![]⟩

class Facts : Prop where
  bcast_S_S2400000 : S_.BroadcastsInDim S2400000 (![] : Fin 0 → Fin S2400000.rank)
  reducesTo_S2400000_S_d0 : S2400000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S4096 : S_.BroadcastsInDim S4096 (![] : Fin 0 → Fin S4096.rank)
  reducesTo_S4096_S_d0 : S4096.ReducesTo [0] S_

variable [Facts]

def fn_part5 {F : FTy → Type} [FloatOps F] (main_arg1 : IVec S4096 32) (main_arg2 : IVec S4096 32) (main_v81 : IVec S_ 1) (main_v83 : IVec S4096 1) (main_c_33 : IVec S_ 1) : IVec S_ 1 :=
  let main_v84 : IVec S_ 1 := (fun x v => Host.reduce IntOp.andi x v reducesTo_S4096_S_d0 h_S_) main_v83 main_c_33
  let main_v85 : IVec S_ 1 := andi main_v81 main_v84
  let main_c_34 : IVec S_ 32 := constantI S_ 32 50000#32
  let main_v86 : IVec S4096 32 := broadcastInDim S4096 ![] bcast_S_S4096 main_c_34
  let main_v87 : IVec S4096 1 := cmpi .slt main_arg1 main_v86
  let main_c_35 : IVec S_ 1 := constantI S_ 1 1#1
  let main_v88 : IVec S_ 1 := (fun x v => Host.reduce IntOp.andi x v reducesTo_S4096_S_d0 h_S_) main_v87 main_c_35
  let main_v89 : IVec S_ 1 := andi main_v85 main_v88
  let main_c_36 : IVec S_ 32 := constantI S_ 32 0#32
  let main_v90 : IVec S4096 32 := broadcastInDim S4096 ![] bcast_S_S4096 main_c_36
  let main_v91 : IVec S4096 1 := cmpi .sge main_arg2 main_v90
  let main_c_37 : IVec S_ 1 := constantI S_ 1 1#1
  let main_v92 : IVec S_ 1 := (fun x v => Host.reduce IntOp.andi x v reducesTo_S4096_S_d0 h_S_) main_v91 main_c_37
  let main_v93 : IVec S_ 1 := andi main_v89 main_v92
  let main_c_38 : IVec S_ 32 := constantI S_ 32 50000#32
  let main_v94 : IVec S4096 32 := broadcastInDim S4096 ![] bcast_S_S4096 main_c_38
  let main_v95 : IVec S4096 1 := cmpi .slt main_arg2 main_v94
  let main_c_39 : IVec S_ 1 := constantI S_ 1 1#1
  let main_v96 : IVec S_ 1 := (fun x v => Host.reduce IntOp.andi x v reducesTo_S4096_S_d0 h_S_) main_v95 main_c_39
  let main_v97 : IVec S_ 1 := andi main_v93 main_v96
  main_v97

def fn_part4 {F : FTy → Type} [FloatOps F] (main_arg0 : IVec S4096 32) (main_arg1 : IVec S4096 32) (main_arg2 : IVec S4096 32) (main_arg19 : FVec F S1x64 .f32) (main_v63 : IVec S_ 1) (main_v67 : IVec S_ 1) : IVec S_ 1 :=
  let main_v68 : IVec S_ 1 := andi main_v63 main_v67
  let main_v69 : FVec F S1x64 .f32 := Host.absf main_arg19
  let main_cst_26 : FVec F S_ .f32 := constant S_ .f32 0x7F800000#32
  let main_v70 : FVec F S1x64 .f32 := broadcastInDim S1x64 ![] bcast_S_S1x64 main_cst_26
  let main_v71 : IVec S1x64 1 := cmpf .olt main_v69 main_v70
  let main_c_27 : IVec S_ 1 := constantI S_ 1 1#1
  let main_v72 : IVec S_ 1 := (fun x v => Host.reduce IntOp.andi x v reducesTo_S1x64_S_d0_1 h_S_) main_v71 main_c_27
  let main_v73 : IVec S_ 1 := andi main_v68 main_v72
  let main_c_28 : IVec S_ 32 := constantI S_ 32 0#32
  let main_v74 : IVec S4096 32 := broadcastInDim S4096 ![] bcast_S_S4096 main_c_28
  let main_v75 : IVec S4096 1 := cmpi .sge main_arg0 main_v74
  let main_c_29 : IVec S_ 1 := constantI S_ 1 1#1
  let main_v76 : IVec S_ 1 := (fun x v => Host.reduce IntOp.andi x v reducesTo_S4096_S_d0 h_S_) main_v75 main_c_29
  let main_v77 : IVec S_ 1 := andi main_v73 main_v76
  let main_c_30 : IVec S_ 32 := constantI S_ 32 100000#32
  let main_v78 : IVec S4096 32 := broadcastInDim S4096 ![] bcast_S_S4096 main_c_30
  let main_v79 : IVec S4096 1 := cmpi .slt main_arg0 main_v78
  let main_c_31 : IVec S_ 1 := constantI S_ 1 1#1
  let main_v80 : IVec S_ 1 := (fun x v => Host.reduce IntOp.andi x v reducesTo_S4096_S_d0 h_S_) main_v79 main_c_31
  let main_v81 : IVec S_ 1 := andi main_v77 main_v80
  let main_c_32 : IVec S_ 32 := constantI S_ 32 0#32
  let main_v82 : IVec S4096 32 := broadcastInDim S4096 ![] bcast_S_S4096 main_c_32
  let main_v83 : IVec S4096 1 := cmpi .sge main_arg1 main_v82
  let main_c_33 : IVec S_ 1 := constantI S_ 1 1#1
  fn_part5 (F := F) main_arg1 main_arg2 main_v81 main_v83 main_c_33

def fn_part3 {F : FTy → Type} [FloatOps F] (main_arg0 : IVec S4096 32) (main_arg1 : IVec S4096 32) (main_arg2 : IVec S4096 32) (main_arg16 : FVec F S64x64 .f32) (main_arg17 : FVec F S1x64 .f32) (main_arg18 : FVec F S1x64 .f32) (main_arg19 : FVec F S1x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg16
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S1x64 .f32 := Host.absf main_arg17
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  let main_v64 : FVec F S1x64 .f32 := Host.absf main_arg18
  let main_cst_24 : FVec F S_ .f32 := constant S_ .f32 0x7F800000#32
  let main_v65 : FVec F S1x64 .f32 := broadcastInDim S1x64 ![] bcast_S_S1x64 main_cst_24
  let main_v66 : IVec S1x64 1 := cmpf .olt main_v64 main_v65
  let main_c_25 : IVec S_ 1 := constantI S_ 1 1#1
  let main_v67 : IVec S_ 1 := (fun x v => Host.reduce IntOp.andi x v reducesTo_S1x64_S_d0_1 h_S_) main_v66 main_c_25
  fn_part4 (F := F) main_arg0 main_arg1 main_arg2 main_arg19 main_v63 main_v67

def fn_part2 {F : FTy → Type} [FloatOps F] (main_arg0 : IVec S4096 32) (main_arg1 : IVec S4096 32) (main_arg2 : IVec S4096 32) (main_arg12 : FVec F S1x64 .f32) (main_arg13 : FVec F S1x64 .f32) (main_arg14 : FVec F S64x64 .f32) (main_arg15 : FVec F S64x64 .f32) (main_arg16 : FVec F S64x64 .f32) (main_arg17 : FVec F S1x64 .f32) (main_arg18 : FVec F S1x64 .f32) (main_arg19 : FVec F S1x64 .f32) (main_v33 : IVec S_ 1) : IVec S_ 1 :=
  let main_v34 : FVec F S1x64 .f32 := Host.absf main_arg12
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1x64 .f32 := Host.absf main_arg13
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S64x64 .f32 := Host.absf main_arg14
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg15
  let main_cst_18 : FVec F S_ .f32 := constant S_ .f32 0x7F800000#32
  let main_v50 : FVec F S64x64 .f32 := broadcastInDim S64x64 ![] bcast_S_S64x64 main_cst_18
  fn_part3 (F := F) main_arg0 main_arg1 main_arg2 main_arg16 main_arg17 main_arg18 main_arg19 main_v48 main_v49 main_v50

def fn_part1 {F : FTy → Type} [FloatOps F] (main_arg0 : IVec S4096 32) (main_arg1 : IVec S4096 32) (main_arg2 : IVec S4096 32) (main_arg9 : FVec F S64x64 .f32) (main_arg10 : FVec F S64x64 .f32) (main_arg11 : FVec F S1x64 .f32) (main_arg12 : FVec F S1x64 .f32) (main_arg13 : FVec F S1x64 .f32) (main_arg14 : FVec F S64x64 .f32) (main_arg15 : FVec F S64x64 .f32) (main_arg16 : FVec F S64x64 .f32) (main_arg17 : FVec F S1x64 .f32) (main_arg18 : FVec F S1x64 .f32) (main_arg19 : FVec F S1x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg9
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg10
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S1x64 .f32 := Host.absf main_arg11
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg0 main_arg1 main_arg2 main_arg12 main_arg13 main_arg14 main_arg15 main_arg16 main_arg17 main_arg18 main_arg19 main_v33

def fn {F : FTy → Type} [FloatOps F] (main_arg0 : IVec S4096 32) (main_arg1 : IVec S4096 32) (main_arg2 : IVec S4096 32) (main_arg3 : IVec S2400000 32) (main_arg4 : IVec S2400000 32) (main_arg5 : FVec F S2400000 .f32) (main_arg6 : FVec F S100000x64 .f32) (main_arg7 : FVec F S50000x64 .f32) (main_arg8 : FVec F S64x64 .f32) (main_arg9 : FVec F S64x64 .f32) (main_arg10 : FVec F S64x64 .f32) (main_arg11 : FVec F S1x64 .f32) (main_arg12 : FVec F S1x64 .f32) (main_arg13 : FVec F S1x64 .f32) (main_arg14 : FVec F S64x64 .f32) (main_arg15 : FVec F S64x64 .f32) (main_arg16 : FVec F S64x64 .f32) (main_arg17 : FVec F S1x64 .f32) (main_arg18 : FVec F S1x64 .f32) (main_arg19 : FVec F S1x64 .f32) : IVec S_ 1 :=
  let main_v0 : FVec F S2400000 .f32 := Host.absf main_arg5
  let main_cst : FVec F S_ .f32 := constant S_ .f32 0x7F800000#32
  let main_v1 : FVec F S2400000 .f32 := broadcastInDim S2400000 ![] bcast_S_S2400000 main_cst
  let main_v2 : IVec S2400000 1 := cmpf .olt main_v0 main_v1
  let main_c : IVec S_ 1 := constantI S_ 1 1#1
  let main_v3 : IVec S_ 1 := (fun x v => Host.reduce IntOp.andi x v reducesTo_S2400000_S_d0 h_S_) main_v2 main_c
  let main_v4 : FVec F S100000x64 .f32 := Host.absf main_arg6
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg7
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x64 .f32 := Host.absf main_arg8
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg1 main_arg2 main_arg9 main_arg10 main_arg11 main_arg12 main_arg13 main_arg14 main_arg15 main_arg16 main_arg17 main_arg18 main_arg19 main_v13 main_v16
-- ==== Kernel.lean ====
abbrev S4096 : Shape := ⟨1, ![4096]⟩
abbrev S2400000 : Shape := ⟨1, ![2400000]⟩
abbrev S100000x64 : Shape := ⟨2, ![100000, 64]⟩
abbrev S50000x64 : Shape := ⟨2, ![50000, 64]⟩
abbrev S64x64 : Shape := ⟨2, ![64, 64]⟩
abbrev S1x64 : Shape := ⟨2, ![1, 64]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩
abbrev S3000x64 : Shape := ⟨2, ![3000, 64]⟩
abbrev S3000 : Shape := ⟨1, ![3000]⟩
abbrev S3000x1 : Shape := ⟨2, ![3000, 1]⟩
abbrev S150000x256 : Shape := ⟨2, ![150000, 256]⟩
abbrev S100000x256 : Shape := ⟨2, ![100000, 256]⟩
abbrev S50000x256 : Shape := ⟨2, ![50000, 256]⟩
abbrev S100000x1x256 : Shape := ⟨3, ![100000, 1, 256]⟩
abbrev S50000x1x256 : Shape := ⟨3, ![50000, 1, 256]⟩
abbrev S4096x1x256 : Shape := ⟨3, ![4096, 1, 256]⟩
abbrev S1x1x256 : Shape := ⟨3, ![1, 1, 256]⟩
abbrev S1 : Shape := ⟨1, ![1]⟩
abbrev S4096x256 : Shape := ⟨2, ![4096, 256]⟩

abbrev nBuf : Space → Nat
  | .hbm => 83
  | .vmem => 48
  | .smem => 3
  | _ => 0

abbrev bufTy : (tb : Table) → Fin (tcTables nBuf tb) → BufTy
  | .hbm, ⟨0, _⟩ => ⟨S2400000, .i32⟩
  | .hbm, ⟨1, _⟩ => ⟨S2400000, .i32⟩
  | .hbm, ⟨2, _⟩ => ⟨S2400000, .f32⟩
  | .hbm, ⟨3, _⟩ => ⟨S100000x64, .f32⟩
  | .hbm, ⟨4, _⟩ => ⟨S50000x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S150000x64, .f32⟩
  | .hbm, ⟨18, _⟩ => ⟨S2400000x1, .f32⟩
  | .hbm, ⟨19, _⟩ => ⟨S_, .i32⟩
  | .hbm, ⟨20, _⟩ => ⟨S2400000, .i32⟩
  | .hbm, ⟨21, _⟩ => ⟨S2400000, .i1⟩
  | .hbm, ⟨22, _⟩ => ⟨S_, .i32⟩
  | .hbm, ⟨23, _⟩ => ⟨S2400000, .i32⟩
  | .hbm, ⟨24, _⟩ => ⟨S2400000, .i32⟩
  | .hbm, ⟨25, _⟩ => ⟨S2400000, .i32⟩
  | .hbm, ⟨26, _⟩ => ⟨S2400000x1, .i32⟩
  | .hbm, ⟨27, _⟩ => ⟨S2400000x64, .f32⟩
  | .hbm, ⟨28, _⟩ => ⟨S2400000x64, .f32⟩
  | .hbm, ⟨29, _⟩ => ⟨S2400000x64, .f32⟩
  | .hbm, ⟨30, _⟩ => ⟨S_, .f32⟩
  | .hbm, ⟨31, _⟩ => ⟨S150000x64, .f32⟩
  | .hbm, ⟨32, _⟩ => ⟨S2400000x1, .i32⟩
  | .hbm, ⟨33, _⟩ => ⟨S150000x64, .f32⟩
  | .hbm, ⟨34, _⟩ => ⟨S150000x64, .f32⟩
  | .hbm, ⟨35, _⟩ => ⟨S150000x64, .f32⟩
  | .hbm, ⟨36, _⟩ => ⟨S2400000x1, .f32⟩
  | .hbm, ⟨37, _⟩ => ⟨S_, .i32⟩
  | .hbm, ⟨38, _⟩ => ⟨S2400000, .i32⟩
  | .hbm, ⟨39, _⟩ => ⟨S2400000, .i1⟩
  | .hbm, ⟨40, _⟩ => ⟨S_, .i32⟩
  | .hbm, ⟨41, _⟩ => ⟨S2400000, .i32⟩
  | .hbm, ⟨42, _⟩ => ⟨S2400000, .i32⟩
  | .hbm, ⟨43, _⟩ => ⟨S2400000, .i32⟩
  | .hbm, ⟨44, _⟩ => ⟨S2400000x1, .i32⟩
  | .hbm, ⟨45, _⟩ => ⟨S2400000x64, .f32⟩
  | .hbm, ⟨46, _⟩ => ⟨S2400000x64, .f32⟩
  | .hbm, ⟨47, _⟩ => ⟨S2400000x64, .f32⟩
  | .hbm, ⟨48, _⟩ => ⟨S_, .f32⟩
  | .hbm, ⟨49, _⟩ => ⟨S150000x64, .f32⟩
  | .hbm, ⟨50, _⟩ => ⟨S2400000x1, .i32⟩
  | .hbm, ⟨51, _⟩ => ⟨S150000x64, .f32⟩
  | .hbm, ⟨52, _⟩ => ⟨S150000x64, .f32⟩
  | .hbm, ⟨53, _⟩ => ⟨S150000x64, .f32⟩
  | .hbm, ⟨54, _⟩ => ⟨S2400000x1, .f32⟩
  | .hbm, ⟨55, _⟩ => ⟨S_, .i32⟩
  | .hbm, ⟨56, _⟩ => ⟨S2400000, .i32⟩
  | .hbm, ⟨57, _⟩ => ⟨S2400000, .i1⟩
  | .hbm, ⟨58, _⟩ => ⟨S_, .i32⟩
  | .hbm, ⟨59, _⟩ => ⟨S2400000, .i32⟩
  | .hbm, ⟨60, _⟩ => ⟨S2400000, .i32⟩
  | .hbm, ⟨61, _⟩ => ⟨S2400000, .i32⟩
  | .hbm, ⟨62, _⟩ => ⟨S2400000x1, .i32⟩
  | .hbm, ⟨63, _⟩ => ⟨S2400000x64, .f32⟩
  | .hbm, ⟨64, _⟩ => ⟨S2400000x64, .f32⟩
  | .hbm, ⟨65, _⟩ => ⟨S2400000x64, .f32⟩
  | .hbm, ⟨66, _⟩ => ⟨S_, .f32⟩
  | .hbm, ⟨67, _⟩ => ⟨S150000x64, .f32⟩
  | .hbm, ⟨68, _⟩ => ⟨S2400000x1, .i32⟩
  | .hbm, ⟨69, _⟩ => ⟨S150000x64, .f32⟩
  | .hbm, ⟨70, _⟩ => ⟨S150000x64, .f32⟩
  | .hbm, ⟨71, _⟩ => ⟨S150000x64, .f32⟩
  | .hbm, ⟨72, _⟩ => ⟨S150000x256, .f32⟩
  | .hbm, ⟨73, _⟩ => ⟨S100000x256, .f32⟩
  | .hbm, ⟨74, _⟩ => ⟨S50000x256, .f32⟩
  | .hbm, ⟨75, _⟩ => ⟨S100000x1x256, .f32⟩
  | .hbm, ⟨76, _⟩ => ⟨S50000x1x256, .f32⟩
  | .hbm, ⟨77, _⟩ => ⟨S4096x1x256, .f32⟩
  | .hbm, ⟨78, _⟩ => ⟨S4096x1x256, .f32⟩
  | .hbm, ⟨79, _⟩ => ⟨S4096x1x256, .f32⟩
  | .hbm, ⟨80, _⟩ => ⟨S4096x256, .f32⟩
  | .hbm, ⟨81, _⟩ => ⟨S4096x256, .f32⟩
  | .hbm, ⟨82, _⟩ => ⟨S4096x256, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S3000x64, .f32⟩
  | .local _ .vmem, ⟨9, _⟩ => ⟨S3000x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S3000x64, .f32⟩
  | .local _ .vmem, ⟨21, _⟩ => ⟨S3000x64, .f32⟩
  | .local _ .vmem, ⟨22, _⟩ => ⟨S3000x64, .f32⟩
  | .local _ .vmem, ⟨23, _⟩ => ⟨S3000x64, .f32⟩
  | .local _ .vmem, ⟨24, _⟩ => ⟨S3000x64, .f32⟩
  | .local _ .vmem, ⟨25, _⟩ => ⟨S3000x64, .f32⟩
  | .local _ .vmem, ⟨26, _⟩ => ⟨S3000x64, .f32⟩
  | .local _ .vmem, ⟨27, _⟩ => ⟨S3000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S3000x64, .f32⟩
  | .local _ .vmem, ⟨33, _⟩ => ⟨S3000x64, .f32⟩
  | .local _ .vmem, ⟨34, _⟩ => ⟨S3000x64, .f32⟩
  | .local _ .vmem, ⟨35, _⟩ => ⟨S3000x64, .f32⟩
  | .local _ .vmem, ⟨36, _⟩ => ⟨S1x1x256, .f32⟩
  | .local _ .vmem, ⟨37, _⟩ => ⟨S1x1x256, .f32⟩
  | .local _ .vmem, ⟨38, _⟩ => ⟨S1x1x256, .f32⟩
  | .local _ .vmem, ⟨39, _⟩ => ⟨S1x1x256, .f32⟩
  | .local _ .vmem, ⟨40, _⟩ => ⟨S1x1x256, .f32⟩
  | .local _ .vmem, ⟨41, _⟩ => ⟨S1x1x256, .f32⟩
  | .local _ .vmem, ⟨42, _⟩ => ⟨S1x1x256, .f32⟩
  | .local _ .vmem, ⟨43, _⟩ => ⟨S1x1x256, .f32⟩
  | .local _ .vmem, ⟨44, _⟩ => ⟨S1x1x256, .f32⟩
  | .local _ .vmem, ⟨45, _⟩ => ⟨S1x1x256, .f32⟩
  | .local _ .vmem, ⟨46, _⟩ => ⟨S1x1x256, .f32⟩
  | .local _ .vmem, ⟨47, _⟩ => ⟨S1x1x256, .f32⟩
  | .local _ .smem, ⟨0, _⟩ => ⟨S4096, .i32⟩
  | .local _ .smem, ⟨1, _⟩ => ⟨S4096, .i32⟩
  | .local _ .smem, ⟨2, _⟩ => ⟨S4096, .i32⟩
  | _, _ => ⟨S2400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_arg11 : Ref sig .tc := ⟨.hbm, 8, rfl⟩
abbrev main_arg12 : Ref sig .tc := ⟨.hbm, 9, rfl⟩
abbrev main_arg13 : Ref sig .tc := ⟨.hbm, 10, rfl⟩
abbrev main_arg14 : Ref sig .tc := ⟨.hbm, 11, rfl⟩
abbrev main_arg15 : Ref sig .tc := ⟨.hbm, 12, rfl⟩
abbrev main_arg16 : Ref sig .tc := ⟨.hbm, 13, rfl⟩
abbrev main_arg17 : Ref sig .tc := ⟨.hbm, 14, rfl⟩
abbrev main_arg18 : Ref sig .tc := ⟨.hbm, 15, rfl⟩
abbrev main_arg19 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v15 : Ref sig .tc := ⟨.hbm, 36, rfl⟩
abbrev main_c_1 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42_0 : Ref sig .tc := ⟨.hbm, 70, rfl⟩
abbrev main_v42_1 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48_0 : Ref sig .tc := ⟨.hbm, 77, rfl⟩
abbrev main_v48_1 : Ref sig .tc := ⟨.hbm, 78, rfl⟩
abbrev main_v48_2 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S3000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4096], ![false]⟩

abbrev pre3 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S4096.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S4096.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S4096) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (k3_off1_inb : ∀ i : grid3.Coords, ∀ a, (k3_off1 i) a + S1.size a ≤ S4096.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 2 (Rect.unit (s := S4096) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  concatenates_S100000x64_S50000x64_S150000x64_d0 : Shape.Concatenates [S100000x64, S50000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  broadcasts_S1x64_S3000x64 : S1x64.Broadcasts S3000x64
  reduces_S3000x64_S3000 : S3000x64.Reduces [1] S3000
  shapeCasts_S3000_S3000x1 : S3000.ShapeCasts S3000x1
  broadcasts_S3000x1_S3000x64 : S3000x1.Broadcasts S3000x64
  concatenates_S150000x64_S150000x64_S150000x64_S150000x64_S150000x256_d1 : Shape.Concatenates [S150000x64, S150000x64, S150000x64, S150000x64] S150000x256 1
  slices_S150000x256_S100000x256_0_0 : S150000x256.Slices ![0, 0] S100000x256
  slices_S150000x256_S50000x256_100000_0 : S150000x256.Slices ![100000, 0] S50000x256
  shapeCasts_S100000x256_S100000x1x256 : S100000x256.ShapeCasts S100000x1x256
  shapeCasts_S50000x256_S50000x1x256 : S50000x256.ShapeCasts S50000x1x256
  numel1_S1 : S1.numel = 1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S4096x1x256_S4096x256 : S4096x1x256.ShapeCasts S4096x256
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S3000x64_S64x64_S3000x64_1_0_0_1_n_n_wf : DotDims.WF S3000x64 S64x64 S3000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x64.size a ≤ S150000x64.size a
  hwx0_6 : ∀ i : grid0.Coords, EltTy.bits .f32 = 32 ∨ (Rect.block (s := S150000x64) S3000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3000x64.size a ≤ S150000x64.size a
  hwx0_7 : ∀ i : grid0.Coords, EltTy.bits .f32 = 32 ∨ (Rect.block (s := S150000x64) S3000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S150000x64.size a
  hwx1_1 : ∀ i : grid1.Coords, EltTy.bits .f32 = 32 ∨ (Rect.block (s := S150000x64) S3000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3000x64.size a ≤ S150000x64.size a
  hwx1_6 : ∀ i : grid1.Coords, EltTy.bits .f32 = 32 ∨ (Rect.block (s := S150000x64) S3000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3000x64.size a ≤ S150000x64.size a
  hwx1_7 : ∀ i : grid1.Coords, EltTy.bits .f32 = 32 ∨ (Rect.block (s := S150000x64) S3000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S150000x64.size a
  hwx2_0 : ∀ i : grid2.Coords, EltTy.bits .f32 = 32 ∨ (Rect.block (s := S150000x64) S3000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x64.size a ≤ S150000x64.size a
  hwx2_1 : ∀ i : grid2.Coords, EltTy.bits .f32 = 32 ∨ (Rect.block (s := S150000x64) S3000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3000x64.size a ≤ S150000x64.size a
  hwx2_6 : ∀ i : grid2.Coords, EltTy.bits .f32 = 32 ∨ (Rect.block (s := S150000x64) S3000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x64.size a ≤ S150000x64.size a
  hwx2_7 : ∀ i : grid2.Coords, EltTy.bits .f32 = 32 ∨ (Rect.block (s := S150000x64) S3000x64.size (cc2_transform_7 i) (hinb2_7 i)).WholeWords (EltTy.packing .f32)
  hrank3 : 0 < grid3.rank
  k3_off1_inb : ∀ i : grid3.Coords, ∀ a, (k3_off1 i) a + S1.size a ≤ S4096.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 false = 2
  hreads3_2 : ∀ {F : FTy → Type} [FloatOps F] (pf : pre3.Contents (Elt F)) (i i' : grid3.Coords), (∀ a, reads3_2 a = true → i a = i' a) → cc3_transform_2 k3_off1_inb numel1_S1 pf i = cc3_transform_2 k3_off1_inb numel1_S1 pf i'
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x256.size a ≤ S4096x1x256.size a
  hwx3_3 : ∀ i : grid3.Coords, EltTy.bits .f32 = 32 ∨ (Rect.block (s := S4096x1x256) S1x1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x256.size a ≤ S4096x1x256.size a
  hwx3_4 : ∀ i : grid3.Coords, EltTy.bits .f32 = 32 ∨ (Rect.block (s := S4096x1x256) S1x1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x256.size a ≤ S4096x1x256.size a
  hwx3_5 : ∀ i : grid3.Coords, EltTy.bits .f32 = 32 ∨ (Rect.block (s := S4096x1x256) S1x1x256.size (cc3_transform_5 i) (hinb3_5 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf

abbrev win0_0 : Pipeline.Window sig grid0 :=
  Pipeline.Window.ofSpec (Memref.whole main_v0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg14) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S3000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S3000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14_0) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg18) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28_0) S3000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v28_1) S3000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v28_0) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S3000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_0) S3000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_1) S3000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev spec3_0 : Pipeline.WinSpec sig grid3.rank :=
  Pipeline.WinSpec.ofSpec (Memref.whole main_v46) S1x1x256.size reads3_0 false false 2 stage3_0 sem3_0 nbuf3_0 hstage3_0

abbrev spec3_1 : Pipeline.WinSpec sig grid3.rank :=
  Pipeline.WinSpec.ofSpec (Memref.whole main_v47) S1x1x256.size reads3_1 false false 2 stage3_1 sem3_1 nbuf3_1 hstage3_1

abbrev spec3_2 : Pipeline.WinSpec sig grid3.rank :=
  Pipeline.WinSpec.ofSpec (Memref.whole main_v47) S1x1x256.size reads3_2 false false 2 stage3_2 sem3_2 nbuf3_2 hstage3_2

abbrev spec3_3 : Pipeline.WinSpec sig grid3.rank :=
  Pipeline.WinSpec.ofSpec (Memref.whole main_v48_0) S1x1x256.size reads3_3 true false 2 stage3_3 sem3_3 nbuf3_3 hstage3_3

abbrev spec3_4 : Pipeline.WinSpec sig grid3.rank :=
  Pipeline.WinSpec.ofSpec (Memref.whole main_v48_1) S1x1x256.size reads3_4 true false 2 stage3_4 sem3_4 nbuf3_4 hstage3_4

abbrev spec3_5 : Pipeline.WinSpec sig grid3.rank :=
  Pipeline.WinSpec.ofSpec (Memref.whole main_v48_2) S1x1x256.size reads3_5 true false 2 stage3_5 sem3_5 nbuf3_5 hstage3_5

abbrev spec3 : Fin 6 → Pipeline.WinSpec sig grid3.rank := fun | 0 => spec3_0 | 1 => spec3_1 | 2 => spec3_2 | 3 => spec3_3 | 4 => spec3_4 | 5 => spec3_5 | ⟨_ + 6, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | 4 => nbuf3_4 | 5 => nbuf3_5 | ⟨_ + 6, h⟩ => absurd h (Nat.not_lt.2 (Nat.le_add_left _ _))
abbrev ix3 (pf : pre3.Contents (Elt F)) : (w : Fin 6) → grid3.Coords → Fin (spec3 w).shape.rank → Nat := fun | 0 => cc3_transform_0 k3_off1_inb numel1_S1 pf | 1 => cc3_transform_1 k3_off1_inb numel1_S1 pf | 2 => cc3_transform_2 k3_off1_inb numel1_S1 pf | 3 => cc3_transform_3 | 4 => cc3_transform_4 | 5 => cc3_transform_5 | ⟨_ + 6, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 pf | 3 => hreads3_3 | 4 => hreads3_4 | 5 => hreads3_5 | ⟨_ + 6, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x256.size a ≤ S100000x1x256.size a), EltTy.bits .f32 = 32 ∨ (Rect.block (s := S100000x1x256) S1x1x256.size (cc3_transform_0 k3_off1_inb numel1_S1 pf i) h).WholeWords (EltTy.packing .f32)) ∧
  (∀ i : grid3.Coords, ∃ h : (∀ a, (cc3_transform_1 k3_off1_inb numel1_S1 pf i a + 1) * S1x1x256.size a ≤ S50000x1x256.size a), EltTy.bits .f32 = 32 ∨ (Rect.block (s := S50000x1x256) S1x1x256.size (cc3_transform_1 k3_off1_inb numel1_S1 pf i) h).WholeWords (EltTy.packing .f32)) ∧
  (∀ i : grid3.Coords, ∃ h : (∀ a, (cc3_transform_2 k3_off1_inb numel1_S1 pf i a + 1) * S1x1x256.size a ≤ S50000x1x256.size a), EltTy.bits .f32 = 32 ∨ (Rect.block (s := S50000x1x256) S1x1x256.size (cc3_transform_2 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2.1 i).elim fun h _ => h a | 2 => fun i a => (hok.2.2 i).elim fun h _ => h a | 3 => hinb3_3 | 4 => hinb3_4 | 5 => hinb3_5 | ⟨_ + 6, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2.1 i).elim fun _ h => h | 2 => fun i => (hok.2.2 i).elim fun _ h => h | 3 => hwx3_3 | 4 => hwx3_4 | 5 => hwx3_5 | ⟨_ + 6, h⟩ => absurd h (Nat.not_lt.2 (Nat.le_add_left _ _))

class Facts : Prop extends Facts₀ where
  harr3 : ∀ w, (spec3 w).arr.IsWhole

variable [Facts]
-- ==== ReferenceIdeal.lean ====
abbrev S4096 : Shape := ⟨1, ![4096]⟩
abbrev S2400000 : Shape := ⟨1, ![2400000]⟩
abbrev S100000x64 : Shape := ⟨2, ![100000, 64]⟩
abbrev S50000x64 : Shape := ⟨2, ![50000, 64]⟩
abbrev S64x64 : Shape := ⟨2, ![64, 64]⟩
abbrev S1x64 : Shape := ⟨2, ![1, 64]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩
abbrev S150000 : Shape := ⟨1, ![150000]⟩
abbrev S150000x1 : Shape := ⟨2, ![150000, 1]⟩
abbrev S150000x256 : Shape := ⟨2, ![150000, 256]⟩
abbrev S100000x256 : Shape := ⟨2, ![100000, 256]⟩
abbrev S4096x1 : Shape := ⟨2, ![4096, 1]⟩
abbrev S4096x256 : Shape := ⟨2, ![4096, 256]⟩
abbrev S50000x256 : Shape := ⟨2, ![50000, 256]⟩

abbrev nBuf : Space → Nat
  | .hbm => 177
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S2400000, .i32⟩
  | 4 => ⟨S2400000, .i32⟩
  | 5 => ⟨S2400000, .f32⟩
  | 6 => ⟨S100000x64, .f32⟩
  | 7 => ⟨S50000x64, .f32⟩
  | 8 => ⟨S64x64, .f32⟩
  | 9 => ⟨S64x64, .f32⟩
  | 10 => ⟨S64x64, .f32⟩
  | 11 => ⟨S1x64, .f32⟩
  | 12 => ⟨S1x64, .f32⟩
  | 13 => ⟨S1x64, .f32⟩
  | 14 => ⟨S64x64, .f32⟩
  | 15 => ⟨S64x64, .f32⟩
  | 16 => ⟨S64x64, .f32⟩
  | 17 => ⟨S1x64, .f32⟩
  | 18 => ⟨S1x64, .f32⟩
  | 19 => ⟨S1x64, .f32⟩
  | 20 => ⟨S150000x64, .f32⟩
  | 21 => ⟨S2400000x1, .f32⟩
  | 22 => ⟨S_, .i32⟩
  | 23 => ⟨S2400000, .i32⟩
  | 24 => ⟨S2400000, .i1⟩
  | 25 => ⟨S_, .i32⟩
  | 26 => ⟨S2400000, .i32⟩
  | 27 => ⟨S2400000, .i32⟩
  | 28 => ⟨S2400000, .i32⟩
  | 29 => ⟨S2400000x1, .i32⟩
  | 30 => ⟨S2400000x64, .f32⟩
  | 31 => ⟨S2400000x64, .f32⟩
  | 32 => ⟨S2400000x64, .f32⟩
  | 33 => ⟨S_, .f32⟩
  | 34 => ⟨S150000x64, .f32⟩
  | 35 => ⟨S2400000x1, .i32⟩
  | 36 => ⟨S150000x64, .f32⟩
  | 37 => ⟨S150000x64, .f32⟩
  | 38 => ⟨S150000x64, .f32⟩
  | 39 => ⟨S150000x64, .f32⟩
  | 40 => ⟨S150000x64, .f32⟩
  | 41 => ⟨S150000x64, .f32⟩
  | 42 => ⟨S150000x64, .f32⟩
  | 43 => ⟨S150000x64, .f32⟩
  | 44 => ⟨S150000x64, .f32⟩
  | 45 => ⟨S_, .f32⟩
  | 46 => ⟨S_, .f32⟩
  | 47 => ⟨S150000x64, .f32⟩
  | 48 => ⟨S150000x64, .i1⟩
  | 49 => ⟨S_, .f32⟩
  | 50 => ⟨S150000x64, .f32⟩
  | 51 => ⟨S150000x64, .f32⟩
  | 52 => ⟨S150000x64, .f32⟩
  | 53 => ⟨S150000x64, .f32⟩
  | 54 => ⟨S_, .f32⟩
  | 55 => ⟨S150000, .f32⟩
  | 56 => ⟨S150000x1, .f32⟩
  | 57 => ⟨S150000x1, .f32⟩
  | 58 => ⟨S_, .f32⟩
  | 59 => ⟨S150000x1, .f32⟩
  | 60 => ⟨S150000x1, .f32⟩
  | 61 => ⟨S150000x64, .f32⟩
  | 62 => ⟨S150000x64, .f32⟩
  | 63 => ⟨S2400000x1, .f32⟩
  | 64 => ⟨S_, .i32⟩
  | 65 => ⟨S2400000, .i32⟩
  | 66 => ⟨S2400000, .i1⟩
  | 67 => ⟨S_, .i32⟩
  | 68 => ⟨S2400000, .i32⟩
  | 69 => ⟨S2400000, .i32⟩
  | 70 => ⟨S2400000, .i32⟩
  | 71 => ⟨S2400000x1, .i32⟩
  | 72 => ⟨S2400000x64, .f32⟩
  | 73 => ⟨S2400000x64, .f32⟩
  | 74 => ⟨S2400000x64, .f32⟩
  | 75 => ⟨S_, .f32⟩
  | 76 => ⟨S150000x64, .f32⟩
  | 77 => ⟨S2400000x1, .i32⟩
  | 78 => ⟨S150000x64, .f32⟩
  | 79 => ⟨S150000x64, .f32⟩
  | 80 => ⟨S150000x64, .f32⟩
  | 81 => ⟨S150000x64, .f32⟩
  | 82 => ⟨S150000x64, .f32⟩
  | 83 => ⟨S150000x64, .f32⟩
  | 84 => ⟨S150000x64, .f32⟩
  | 85 => ⟨S150000x64, .f32⟩
  | 86 => ⟨S150000x64, .f32⟩
  | 87 => ⟨S_, .f32⟩
  | 88 => ⟨S_, .f32⟩
  | 89 => ⟨S150000x64, .f32⟩
  | 90 => ⟨S150000x64, .i1⟩
  | 91 => ⟨S_, .f32⟩
  | 92 => ⟨S150000x64, .f32⟩
  | 93 => ⟨S150000x64, .f32⟩
  | 94 => ⟨S150000x64, .f32⟩
  | 95 => ⟨S150000x64, .f32⟩
  | 96 => ⟨S_, .f32⟩
  | 97 => ⟨S150000, .f32⟩
  | 98 => ⟨S150000x1, .f32⟩
  | 99 => ⟨S150000x1, .f32⟩
  | 100 => ⟨S_, .f32⟩
  | 101 => ⟨S150000x1, .f32⟩
  | 102 => ⟨S150000x1, .f32⟩
  | 103 => ⟨S150000x64, .f32⟩
  | 104 => ⟨S150000x64, .f32⟩
  | 105 => ⟨S2400000x1, .f32⟩
  | 106 => ⟨S_, .i32⟩
  | 107 => ⟨S2400000, .i32⟩
  | 108 => ⟨S2400000, .i1⟩
  | 109 => ⟨S_, .i32⟩
  | 110 => ⟨S2400000, .i32⟩
  | 111 => ⟨S2400000, .i32⟩
  | 112 => ⟨S2400000, .i32⟩
  | 113 => ⟨S2400000x1, .i32⟩
  | 114 => ⟨S2400000x64, .f32⟩
  | 115 => ⟨S2400000x64, .f32⟩
  | 116 => ⟨S2400000x64, .f32⟩
  | 117 => ⟨S_, .f32⟩
  | 118 => ⟨S150000x64, .f32⟩
  | 119 => ⟨S2400000x1, .i32⟩
  | 120 => ⟨S150000x64, .f32⟩
  | 121 => ⟨S150000x64, .f32⟩
  | 122 => ⟨S150000x64, .f32⟩
  | 123 => ⟨S150000x64, .f32⟩
  | 124 => ⟨S150000x64, .f32⟩
  | 125 => ⟨S150000x64, .f32⟩
  | 126 => ⟨S150000x64, .f32⟩
  | 127 => ⟨S150000x64, .f32⟩
  | _ => ⟨S4096, .i32⟩

abbrev hbmTy0_1 (i : Nat) : BufTy := match i % 128 with
  | 0 => ⟨S150000x64, .f32⟩
  | 1 => ⟨S_, .f32⟩
  | 2 => ⟨S_, .f32⟩
  | 3 => ⟨S150000x64, .f32⟩
  | 4 => ⟨S150000x64, .i1⟩
  | 5 => ⟨S_, .f32⟩
  | 6 => ⟨S150000x64, .f32⟩
  | 7 => ⟨S150000x64, .f32⟩
  | 8 => ⟨S150000x64, .f32⟩
  | 9 => ⟨S150000x64, .f32⟩
  | 10 => ⟨S_, .f32⟩
  | 11 => ⟨S150000, .f32⟩
  | 12 => ⟨S150000x1, .f32⟩
  | 13 => ⟨S150000x1, .f32⟩
  | 14 => ⟨S_, .f32⟩
  | 15 => ⟨S150000x1, .f32⟩
  | 16 => ⟨S150000x1, .f32⟩
  | 17 => ⟨S150000x64, .f32⟩
  | 18 => ⟨S150000x64, .f32⟩
  | 19 => ⟨S150000x256, .f32⟩
  | 20 => ⟨S100000x256, .f32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x256, .f32⟩
  | 30 => ⟨S50000x256, .f32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S4096x256, .f32⟩
  | 40 => ⟨S_, .i32⟩
  | 41 => ⟨S4096, .i32⟩
  | 42 => ⟨S4096, .i1⟩
  | 43 => ⟨S_, .i32⟩
  | 44 => ⟨S4096, .i32⟩
  | 45 => ⟨S4096, .i32⟩
  | 46 => ⟨S4096, .i32⟩
  | 47 => ⟨S4096x1, .i32⟩
  | 48 => ⟨S4096x256, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v22 : Ref sig .tc := ⟨.hbm, 52, rfl⟩
abbrev main_v23 : Ref sig .tc := ⟨.hbm, 53, rfl⟩
abbrev main_cst_2 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_3 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_4 : Ref sig .tc := ⟨.hbm, 64, rfl⟩
abbrev main_v32 : Ref sig .tc := ⟨.hbm, 65, rfl⟩
abbrev main_v33 : Ref sig .tc := ⟨.hbm, 66, rfl⟩
abbrev main_c_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_6 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_7 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_v52 : Ref sig .tc := ⟨.hbm, 94, rfl⟩
abbrev main_v53 : Ref sig .tc := ⟨.hbm, 95, rfl⟩
abbrev main_cst_8 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_9 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_10 : Ref sig .tc := ⟨.hbm, 106, rfl⟩
abbrev main_v62 : Ref sig .tc := ⟨.hbm, 107, rfl⟩
abbrev main_v63 : Ref sig .tc := ⟨.hbm, 108, rfl⟩
abbrev main_c_11 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_12 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_13 : Ref sig .tc := ⟨.hbm, 129, rfl⟩
abbrev main_call2_cst : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_v82 : Ref sig .tc := ⟨.hbm, 136, rfl⟩
abbrev main_v83 : Ref sig .tc := ⟨.hbm, 137, rfl⟩
abbrev main_cst_14 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_15 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_16 : Ref sig .tc := ⟨.hbm, 149, rfl⟩
abbrev main_v93 : Ref sig .tc := ⟨.hbm, 150, rfl⟩
abbrev main_v94 : Ref sig .tc := ⟨.hbm, 151, rfl⟩
abbrev main_c_17 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_c_18 : Ref sig .tc := ⟨.hbm, 159, rfl⟩
abbrev main_v101 : Ref sig .tc := ⟨.hbm, 160, rfl⟩
abbrev main_v102 : Ref sig .tc := ⟨.hbm, 161, rfl⟩
abbrev main_c_19 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_c_20 : Ref sig .tc := ⟨.hbm, 168, rfl⟩
abbrev main_v108 : Ref sig .tc := ⟨.hbm, 169, rfl⟩
abbrev main_v109 : Ref sig .tc := ⟨.hbm, 170, rfl⟩
abbrev main_c_21 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  concatenates_S150000x64_S150000x64_S150000x64_S150000x64_S150000x256_d1 : Shape.Concatenates [S150000x64, S150000x64, S150000x64, S150000x64] S150000x256 1
  slices_S150000x256_S100000x256_0_0 : S150000x256.Slices ![0, 0] S100000x256
  bcast_S_S4096 : S_.BroadcastsInDim S4096 (![] : Fin 0 → Fin S4096.rank)
  bcast_S4096_S4096x1_0 : S4096.BroadcastsInDim S4096x1 (![0] : Fin 1 → Fin S4096x1.rank)
  slices_S150000x256_S50000x256_100000_0 : S150000x256.Slices ![100000, 0] S50000x256
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []
  gather_S100000x256_S4096x1_S4096x256_1_0_n_n_0_1_1256_wf : GatherDims.WF S100000x256 S4096x1 S4096x256 [1] [0] [] [0] [] 1 ![1, 256]
  gather_S50000x256_S4096x1_S4096x256_1_0_n_n_0_1_1256_wf : GatherDims.WF S50000x256 S4096x1 S4096x256 [1] [0] [] [0] [] 1 ![1, 256]

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf

class Facts : Prop extends Facts₀ where

variable [Facts]
-- ==== Proof.PreRange.lean ====
import proofs.«404336_j13099650253234_2_alg».proof.Pre_finite_inputs
import proofs.«404336_j13099650253234_2_alg».proof.Proof.Gen.Pre_finite_inputs
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Idealize.ShloMosaic.StableHlo.Predicate
open Cert.Pre_finite_inputs

instance : Subsingleton S_.Idx := ⟨fun a b => funext fun d => d.elim0⟩

theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  have z : (0#32 : BitVec 32).toInt = 0 := by decide
  have a0 : (0 : Int) ≤ w.toInt := by
    have := IntOp.cmpi_sge.1 h0
    rwa [z] at this
  have a1 : w.toInt < (n : Int) := by
    have := IntOp.cmpi_slt.1 h1
    rwa [toInt_ofNat_small n hn] at this

  have hlt := w.isLt
  rw [BitVec.toInt_eq_toNat_cond] at a0 a1
  split at a0 <;> omega

theorem and_split {x y : IVec S_ 1} (h : andi x y ix0 = 1#1) : x ix0 = 1#1 ∧ y ix0 = 1#1 :=
  IntOp.andi_eq_one.1 (show IntOp.andi (x ix0) (y ix0) = 1#1 from h)

theorem all_one {s : Shape} {axes : List (Fin s.rank)} (p : IVec s 1) (c : IVec S_ 1) (r : s.ReducesTo axes S_)
    (hu : 0 < S_.numel) (h : Host.reduce IntOp.andi p c r hu ix0 = 1#1) (i : s.Idx) : p i = 1#1 :=
  Host.reduce_andi_all p c r hu ix0 h i

variable {F : FTy → Type} [FloatOps F]
variable [Facts]

theorem part5_split (a1 a2 : IVec S4096 32) (v81 : IVec S_ 1) (v83 : IVec S4096 1) (c33 : IVec S_ 1)
    (h : fn_part5 (F := F) a1 a2 v81 v83 c33 ix0 = 1#1) :
    v81 ix0 = 1#1 ∧ (∀ i, v83 i = 1#1) ∧ (∀ i, IntOp.cmpi .slt (a1 i) 50000#32 = 1#1)
      ∧ (∀ i, IntOp.cmpi .sge (a2 i) 0#32 = 1#1) ∧ (∀ i, IntOp.cmpi .slt (a2 i) 50000#32 = 1#1) := by
  dsimp only [fn_part5] at h
  obtain ⟨h93, h96⟩ := and_split h
  obtain ⟨h89, h92⟩ := and_split h93
  obtain ⟨h85, h88⟩ := and_split h89
  obtain ⟨h81, h84⟩ := and_split h85
  exact ⟨h81, fun i => all_one _ _ _ _ h84 i, fun i => all_one _ _ _ _ h88 i, fun i => all_one _ _ _ _ h92 i,
    fun i => all_one _ _ _ _ h96 i⟩

theorem part4_split (a0 a1 a2 : IVec S4096 32) (a19 : FVec F S1x64 .f32) (v63 v67 : IVec S_ 1)
    (h : fn_part4 (F := F) a0 a1 a2 a19 v63 v67 ix0 = 1#1) :
    (∀ i, IntOp.cmpi .sge (a0 i) 0#32 = 1#1) ∧ (∀ i, IntOp.cmpi .slt (a0 i) 100000#32 = 1#1)
      ∧ (∀ i, IntOp.cmpi .sge (a1 i) 0#32 = 1#1) ∧ (∀ i, IntOp.cmpi .slt (a1 i) 50000#32 = 1#1)
      ∧ (∀ i, IntOp.cmpi .sge (a2 i) 0#32 = 1#1) ∧ (∀ i, IntOp.cmpi .slt (a2 i) 50000#32 = 1#1) := by
  dsimp only [fn_part4] at h
  obtain ⟨h81, h83, h88, h92, h96⟩ := part5_split a1 a2 _ _ _ h
  obtain ⟨h77, h80⟩ := and_split h81
  obtain ⟨h73, h76⟩ := and_split h77
  exact ⟨fun i => all_one _ _ _ _ h76 i, fun i => all_one _ _ _ _ h80 i, h83, h88, h92, h96⟩

theorem fn_eq_part4 (a0 a1 a2 : IVec S4096 32) (a3 a4 : IVec S2400000 32) (a5 : FVec F S2400000 .f32)
    (a6 : FVec F S100000x64 .f32) (a7 : FVec F S50000x64 .f32) (a8 a9 a10 : FVec F S64x64 .f32)
    (a11 a12 a13 : FVec F S1x64 .f32) (a14 a15 a16 : FVec F S64x64 .f32) (a17 a18 a19 : FVec F S1x64 .f32) :
    ∃ v63 v67 : IVec S_ 1, fn (F := F) a0 a1 a2 a3 a4 a5 a6 a7 a8 a9 a10 a11 a12 a13 a14 a15 a16 a17 a18 a19
      = fn_part4 (F := F) a0 a1 a2 a19 v63 v67 :=
  ⟨_, _, rfl⟩

theorem idx_ranges (a0 a1 a2 : IVec S4096 32) (a3 a4 : IVec S2400000 32) (a5 : FVec F S2400000 .f32)
    (a6 : FVec F S100000x64 .f32) (a7 : FVec F S50000x64 .f32) (a8 a9 a10 : FVec F S64x64 .f32)
    (a11 a12 a13 : FVec F S1x64 .f32) (a14 a15 a16 : FVec F S64x64 .f32) (a17 a18 a19 : FVec F S1x64 .f32)
    (h : fn (F := F) a0 a1 a2 a3 a4 a5 a6 a7 a8 a9 a10 a11 a12 a13 a14 a15 a16 a17 a18 a19 = fun _ => 1#1) :
    (∀ i : S4096.Idx, (a0 i).toNat < 100000) ∧ (∀ i : S4096.Idx, (a1 i).toNat < 50000)
      ∧ (∀ i : S4096.Idx, (a2 i).toNat < 50000) := by
  obtain ⟨v63, v67, e⟩ := fn_eq_part4 (F := F) a0 a1 a2 a3 a4 a5 a6 a7 a8 a9 a10 a11 a12 a13 a14 a15 a16 a17 a18 a19
  rw [e] at h
  obtain ⟨u0, u1, p0, p1, n0, n1⟩ := part4_split a0 a1 a2 a19 v63 v67 (congrFun h ix0)
  exact ⟨fun i => toNat_lt_of_signed _ 100000 (by decide) (u0 i) (u1 i),
    fun i => toNat_lt_of_signed _ 50000 (by decide) (p0 i) (p1 i),
    fun i => toNat_lt_of_signed _ 50000 (by decide) (n0 i) (n1 i)⟩

end Cert.PreRange

end
-- ==== Proof.KIRegions.lean ====
import proofs.«404336_j13099650253234_2_alg».proof.Proof.KILaunch
import Idealize.ShloMosaic.Lib.Pipeline.Frame
import Idealize.ShloMosaic.Lib.Pipeline.Regions

set_option maxRecDepth 1048

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := Function.update (Function.update (V1 m c) main_v14_0 (outs 2 main_v14_0 c)) main_v14_1 (outs 2 main_v14_1 c)

abbrev V3 (c : Dev nD) : Valuation τ sig (Elt F) := StableHlo.after hostOps1 (V2 m outs c)

abbrev V4 (c : Dev nD) : Valuation τ sig (Elt F) := Function.update (Function.update (V3 m outs c) main_v28_0 (outs 4 main_v28_0 c)) main_v28_1 (outs 4 main_v28_1 c)

abbrev V5 (c : Dev nD) : Valuation τ sig (Elt F) := StableHlo.after hostOps2 (V4 m outs c)

abbrev V6 (c : Dev nD) : Valuation τ sig (Elt F) := Function.update (Function.update (V5 m outs c) main_v42_0 (outs 6 main_v42_0 c)) main_v42_1 (outs 6 main_v42_1 c)

abbrev V7 (c : Dev nD) : Valuation τ sig (Elt F) := StableHlo.after hostOps3 (V6 m outs c)

abbrev V8 (c : Dev nD) : Valuation τ sig (Elt F) := Function.update (Function.update (Function.update (V7 m outs c) main_v48_0 (outs 8 main_v48_0 c)) main_v48_1 (outs 8 main_v48_1 c)) main_v48_2 (outs 8 main_v48_2 c)

abbrev V9 (c : Dev nD) : Valuation τ sig (Elt F) := StableHlo.after hostOps4 (V8 m outs c)

theorem hostOps0_fresh : (hostOps0 : List (HloOp τ sig (Elt F))).Forall fun op => op.fresh = ∅ := by
  simp only [List.Forall]; repeat' constructor

abbrev hostOps0_W : List (Ref sig .tc) := [main_v0, main_v1, main_c, main_v2, main_v3, main_c_0, main_v4, main_v5, main_v6, main_v7, main_v8, main_v9, main_v10, main_cst, main_v11, main_v12, main_v13]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_fresh : (hostOps1 : List (HloOp τ sig (Elt F))).Forall fun op => op.fresh = ∅ := by
  simp only [List.Forall]; repeat' constructor

abbrev hostOps1_W : List (Ref sig .tc) := [main_v15, main_c_1, main_v16, main_v17, main_c_2, main_v18, main_v19, main_v20, main_v21, main_v22, main_v23, main_v24, main_cst_3, main_v25, main_v26, main_v27]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps2_fresh : (hostOps2 : List (HloOp τ sig (Elt F))).Forall fun op => op.fresh = ∅ := by
  simp only [List.Forall]; repeat' constructor

abbrev hostOps2_W : List (Ref sig .tc) := [main_v29, main_c_4, main_v30, main_v31, main_c_5, main_v32, main_v33, main_v34, main_v35, main_v36, main_v37, main_v38, main_cst_6, main_v39, main_v40, main_v41]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps3_fresh : (hostOps3 : List (HloOp τ sig (Elt F))).Forall fun op => op.fresh = ∅ := by
  simp only [List.Forall]; repeat' constructor

abbrev hostOps3_W : List (Ref sig .tc) := [main_v43, main_v44, main_v45, main_v46, main_v47]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps4_fresh : (hostOps4 : List (HloOp τ sig (Elt F))).Forall fun op => op.fresh = ∅ := by
  simp only [List.Forall]; repeat' constructor

abbrev hostOps4_W : List (Ref sig .tc) := [main_v49, main_v50, main_v51]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v14_0, main_v14_1] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v14_0), Function.update_of_ne (StableHlo.devRef_ne_of_ne (List.ne_of_not_mem_cons (List.not_mem_of_not_mem_cons h)) : (Proc.devRef .tc r : DevRef τ sig) ≠ Proc.devRef .tc main_v14_1)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v28_0, main_v28_1] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v28_0), Function.update_of_ne (StableHlo.devRef_ne_of_ne (List.ne_of_not_mem_cons (List.not_mem_of_not_mem_cons h)) : (Proc.devRef .tc r : DevRef τ sig) ≠ Proc.devRef .tc main_v28_1)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v42_0, main_v42_1] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v42_0), Function.update_of_ne (StableHlo.devRef_ne_of_ne (List.ne_of_not_mem_cons (List.not_mem_of_not_mem_cons h)) : (Proc.devRef .tc r : DevRef τ sig) ≠ Proc.devRef .tc main_v42_1)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ ([main_v48_0, main_v48_1, main_v48_2] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v48_0), Function.update_of_ne (StableHlo.devRef_ne_of_ne (List.ne_of_not_mem_cons (List.not_mem_of_not_mem_cons h)) : (Proc.devRef .tc r : DevRef τ sig) ≠ Proc.devRef .tc main_v48_1), Function.update_of_ne (StableHlo.devRef_ne_of_ne (List.ne_of_not_mem_cons (List.not_mem_of_not_mem_cons (List.not_mem_of_not_mem_cons h))) : (Proc.devRef .tc r : DevRef τ sig) ≠ Proc.devRef .tc main_v48_2)]
theorem V9_of (c : Dev nD) (r : Ref sig .tc) (h : r ∉ hostOps4_W) : V9 m outs c r = V8 m outs c r :=
  StableHlo.after_of_writes_sub hostOps4 _ hostOps4_writes h

theorem V9_main_arg0 (c : Dev nD) : V9 m outs c main_arg0 = m ((c : Thread nD τ).loc main_arg0) :=
  (V9_of m outs c main_arg0 (by decide)).trans <| (V8_of m outs c main_arg0 (by decide)).trans <| (V7_of m outs c main_arg0 (by decide)).trans <| (V6_of m outs c main_arg0 (by decide)).trans <| (V5_of m outs c main_arg0 (by decide)).trans <| (V4_of m outs c main_arg0 (by decide)).trans <| (V3_of m outs c main_arg0 (by decide)).trans <| (V2_of m outs c main_arg0 (by decide)).trans <| (V1_of m c main_arg0 (by decide)).trans rfl

theorem V9_main_arg1 (c : Dev nD) : V9 m outs c main_arg1 = m ((c : Thread nD τ).loc main_arg1) :=
  (V9_of m outs c main_arg1 (by decide)).trans <| (V8_of m outs c main_arg1 (by decide)).trans <| (V7_of m outs c main_arg1 (by decide)).trans <| (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m c main_arg1 (by decide)).trans rfl

theorem V9_main_arg2 (c : Dev nD) : V9 m outs c main_arg2 = m ((c : Thread nD τ).loc main_arg2) :=
  (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide)).trans rfl

theorem V9_main_arg3 (c : Dev nD) : V9 m outs c main_arg3 = m ((c : Thread nD τ).loc main_arg3) :=
  (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide)).trans rfl

theorem V9_main_arg4 (c : Dev nD) : V9 m outs c main_arg4 = m ((c : Thread nD τ).loc main_arg4) :=
  (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide)).trans rfl

theorem V9_main_arg5 (c : Dev nD) : V9 m outs c main_arg5 = m ((c : Thread nD τ).loc main_arg5) :=
  (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide)).trans rfl

theorem V9_main_arg6 (c : Dev nD) : V9 m outs c main_arg6 = m ((c : Thread nD τ).loc main_arg6) :=
  (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide)).trans rfl

theorem V9_main_arg7 (c : Dev nD) : V9 m outs c main_arg7 = m ((c : Thread nD τ).loc main_arg7) :=
  (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide)).trans rfl

theorem V9_main_arg8 (c : Dev nD) : V9 m outs c main_arg8 = m ((c : Thread nD τ).loc main_arg8) :=
  (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide)).trans rfl

theorem V9_main_arg9 (c : Dev nD) : V9 m outs c main_arg9 = m ((c : Thread nD τ).loc main_arg9) :=
  (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide)).trans rfl

theorem V9_main_arg10 (c : Dev nD) : V9 m outs c main_arg10 = m ((c : Thread nD τ).loc main_arg10) :=
  (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide)).trans rfl

theorem V9_main_arg11 (c : Dev nD) : V9 m outs c main_arg11 = m ((c : Thread nD τ).loc main_arg11) :=
  (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide)).trans rfl

theorem V9_main_arg12 (c : Dev nD) : V9 m outs c main_arg12 = m ((c : Thread nD τ).loc main_arg12) :=
  (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m outs c main_arg12 (by decide)).trans <| (V2_of m outs c main_arg12 (by decide)).trans <| (V1_of m c main_arg12 (by decide)).trans rfl

theorem V9_main_arg13 (c : Dev nD) : V9 m outs c main_arg13 = m ((c : Thread nD τ).loc main_arg13) :=
  (V9_of m outs c main_arg13 (by decide)).trans <| (V8_of m outs c main_arg13 (by decide)).trans <| (V7_of m outs c main_arg13 (by decide)).trans <| (V6_of m outs c main_arg13 (by decide)).trans <| (V5_of m outs c main_arg13 (by decide)).trans <| (V4_of m outs c main_arg13 (by decide)).trans <| (V3_of m outs c main_arg13 (by decide)).trans <| (V2_of m outs c main_arg13 (by decide)).trans <| (V1_of m c main_arg13 (by decide)).trans rfl

theorem V9_main_arg14 (c : Dev nD) : V9 m outs c main_arg14 = m ((c : Thread nD τ).loc main_arg14) :=
  (V9_of m outs c main_arg14 (by decide)).trans <| (V8_of m outs c main_arg14 (by decide)).trans <| (V7_of m outs c main_arg14 (by decide)).trans <| (V6_of m outs c main_arg14 (by decide)).trans <| (V5_of m outs c main_arg14 (by decide)).trans <| (V4_of m outs c main_arg14 (by decide)).trans <| (V3_of m outs c main_arg14 (by decide)).trans <| (V2_of m outs c main_arg14 (by decide)).trans <| (V1_of m c main_arg14 (by decide)).trans rfl

theorem V9_main_arg15 (c : Dev nD) : V9 m outs c main_arg15 = m ((c : Thread nD τ).loc main_arg15) :=
  (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m outs c main_arg15 (by decide)).trans <| (V2_of m outs c main_arg15 (by decide)).trans <| (V1_of m c main_arg15 (by decide)).trans rfl

theorem V9_main_arg16 (c : Dev nD) : V9 m outs c main_arg16 = m ((c : Thread nD τ).loc main_arg16) :=
  (V9_of m outs c main_arg16 (by decide)).trans <| (V8_of m outs c main_arg16 (by decide)).trans <| (V7_of m outs c main_arg16 (by decide)).trans <| (V6_of m outs c main_arg16 (by decide)).trans <| (V5_of m outs c main_arg16 (by decide)).trans <| (V4_of m outs c main_arg16 (by decide)).trans <| (V3_of m outs c main_arg16 (by decide)).trans <| (V2_of m outs c main_arg16 (by decide)).trans <| (V1_of m c main_arg16 (by decide)).trans rfl

theorem V9_main_arg17 (c : Dev nD) : V9 m outs c main_arg17 = m ((c : Thread nD τ).loc main_arg17) :=
  (V9_of m outs c main_arg17 (by decide)).trans <| (V8_of m outs c main_arg17 (by decide)).trans <| (V7_of m outs c main_arg17 (by decide)).trans <| (V6_of m outs c main_arg17 (by decide)).trans <| (V5_of m outs c main_arg17 (by decide)).trans <| (V4_of m outs c main_arg17 (by decide)).trans <| (V3_of m outs c main_arg17 (by decide)).trans <| (V2_of m outs c main_arg17 (by decide)).trans <| (V1_of m c main_arg17 (by decide)).trans rfl

theorem V9_main_arg18 (c : Dev nD) : V9 m outs c main_arg18 = m ((c : Thread nD τ).loc main_arg18) :=
  (V9_of m outs c main_arg18 (by decide)).trans <| (V8_of m outs c main_arg18 (by decide)).trans <| (V7_of m outs c main_arg18 (by decide)).trans <| (V6_of m outs c main_arg18 (by decide)).trans <| (V5_of m outs c main_arg18 (by decide)).trans <| (V4_of m outs c main_arg18 (by decide)).trans <| (V3_of m outs c main_arg18 (by decide)).trans <| (V2_of m outs c main_arg18 (by decide)).trans <| (V1_of m c main_arg18 (by decide)).trans rfl

theorem V9_main_arg19 (c : Dev nD) : V9 m outs c main_arg19 = m ((c : Thread nD τ).loc main_arg19) :=
  (V9_of m outs c main_arg19 (by decide)).trans <| (V8_of m outs c main_arg19 (by decide)).trans <| (V7_of m outs c main_arg19 (by decide)).trans <| (V6_of m outs c main_arg19 (by decide)).trans <| (V5_of m outs c main_arg19 (by decide)).trans <| (V4_of m outs c main_arg19 (by decide)).trans <| (V3_of m outs c main_arg19 (by decide)).trans <| (V2_of m outs c main_arg19 (by decide)).trans <| (V1_of m c main_arg19 (by decide)).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 5 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)

def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)

def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)

def seg8 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V8 m outs) (E 4)

end Segs

section

variable {Ix : Type} [DecidableEq Ix] {U : Type} [URA U] {Lvl : Type} [Preorder Lvl]

abbrev segs (𝒱₀ : Variants) (L : GSem nD τ sig → Finset Ix) (lv : GSem nD τ sig → Ix → Lvl) (E : Fin 5 → Dev nD → sProp (MT nD τ sig Ix (Elt F) ℕ U Lvl)) (ι : Ix)
    (a : (p : Fin 4) → (pcfgs (F := F) p).Adm) (pdats : (p : Fin 4) → (c : Dev nD) → Dat τ (Elt F) Ix ℕ U Lvl (Pipeline.pin (pcfgs (F := F)) a p) c) (R0 : RegionSeg (pcfgs (F := F)) a pdats ι defs₀ 𝒱₀ L lv 0) (R1 : RegionSeg (pcfgs (F := F)) a pdats ι defs₀ 𝒱₀ L lv 1) (R2 : RegionSeg (pcfgs (F := F)) a pdats ι defs₀ 𝒱₀ L lv 2) (R3 : RegionSeg (pcfgs (F := F)) a pdats ι defs₀ 𝒱₀ L lv 3) (c : Dev nD) :
    List (Seg (pcfgs (F := F)) a pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .region R3, .host (seg8 m outs 𝒱₀ L lv E)]

end

end Cert.KernelIdeal.Gen

end
-- ==== Proof.KIRunVal.lean ====
import proofs.«404336_j13099650253234_2_alg».proof.Proof.KIRegions

set_option maxRecDepth 1048

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in

theorem frame_cond_val {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 4) → (pcfgs (F := F) p).Adm)
    (pdats : (p : Fin 4) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v49) = V9 m outs c main_v49
      ∧ r.2.mem ((c.tc : Thread nD τ).loc main_v50) = V9 m outs c main_v50
      ∧ r.2.mem ((c.tc : Thread nD τ).loc main_v51) = V9 m outs c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  refine Pipeline.θ_run_regions_kit_dev (pcfgs (F := F)) a pdats ι (cellOf_inj a) EP defs₀ 𝒱₀ L lv m ρ main
    (segs m outs 𝒱₀ L lv E ι a pdats R0 R1 R2 R3)
    (fun c Q => by
      rewrite [main_chain c, Seg.run_eq_chain,
        show (segs m outs 𝒱₀ L lv E ι a pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, hpre2 c, hpost2 c, hpre3 c, hpost3 c, sep_mono .rfl (hE4 c)⟩)
    (hinit := ?_) (QY := fun c s => s.mem ((c.tc : Thread nD τ).loc main_v49) = V9 m outs c main_v49 ∧ s.mem ((c.tc : Thread nD τ).loc main_v50) = V9 m outs c main_v50 ∧ s.mem ((c.tc : Thread nD τ).loc main_v51) = V9 m outs c main_v51 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v49) (Finset.mem_filter.mpr ⟨StableHlo.devRef_mem_tcRefs main_v49, by decide⟩),
        h (Proc.devRef .tc main_v50) (Finset.mem_filter.mpr ⟨StableHlo.devRef_mem_tcRefs main_v50, by decide⟩),
        h (Proc.devRef .tc main_v51) (Finset.mem_filter.mpr ⟨StableHlo.devRef_mem_tcRefs main_v51, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c),
        (h (Proc.devRef .tc main_arg7) (Finset.mem_filter.mpr ⟨StableHlo.devRef_mem_tcRefs main_arg7, by decide⟩)).trans (V9_main_arg7 m outs c),
        (h (Proc.devRef .tc main_arg8) (Finset.mem_filter.mpr ⟨StableHlo.devRef_mem_tcRefs main_arg8, by decide⟩)).trans (V9_main_arg8 m outs c),
        (h (Proc.devRef .tc main_arg9) (Finset.mem_filter.mpr ⟨StableHlo.devRef_mem_tcRefs main_arg9, by decide⟩)).trans (V9_main_arg9 m outs c),
        (h (Proc.devRef .tc main_arg10) (Finset.mem_filter.mpr ⟨StableHlo.devRef_mem_tcRefs main_arg10, by decide⟩)).trans (V9_main_arg10 m outs c),
        (h (Proc.devRef .tc main_arg11) (Finset.mem_filter.mpr ⟨StableHlo.devRef_mem_tcRefs main_arg11, by decide⟩)).trans (V9_main_arg11 m outs c),
        (h (Proc.devRef .tc main_arg12) (Finset.mem_filter.mpr ⟨StableHlo.devRef_mem_tcRefs main_arg12, by decide⟩)).trans (V9_main_arg12 m outs c),
        (h (Proc.devRef .tc main_arg13) (Finset.mem_filter.mpr ⟨StableHlo.devRef_mem_tcRefs main_arg13, by decide⟩)).trans (V9_main_arg13 m outs c),
        (h (Proc.devRef .tc main_arg14) (Finset.mem_filter.mpr ⟨StableHlo.devRef_mem_tcRefs main_arg14, by decide⟩)).trans (V9_main_arg14 m outs c),
        (h (Proc.devRef .tc main_arg15) (Finset.mem_filter.mpr ⟨StableHlo.devRef_mem_tcRefs main_arg15, by decide⟩)).trans (V9_main_arg15 m outs c),
        (h (Proc.devRef .tc main_arg16) (Finset.mem_filter.mpr ⟨StableHlo.devRef_mem_tcRefs main_arg16, by decide⟩)).trans (V9_main_arg16 m outs c),
        (h (Proc.devRef .tc main_arg17) (Finset.mem_filter.mpr ⟨StableHlo.devRef_mem_tcRefs main_arg17, by decide⟩)).trans (V9_main_arg17 m outs c),
        (h (Proc.devRef .tc main_arg18) (Finset.mem_filter.mpr ⟨StableHlo.devRef_mem_tcRefs main_arg18, by decide⟩)).trans (V9_main_arg18 m outs c),
        (h (Proc.devRef .tc main_arg19) (Finset.mem_filter.mpr ⟨StableHlo.devRef_mem_tcRefs main_arg19, by decide⟩)).trans (V9_main_arg19 m outs c)⟩
    · iexact HSI

end Cert.KernelIdeal.Gen

end
-- ==== Proof.KIDense0.lean ====
import proofs.«404336_j13099650253234_2_alg».proof.Proof.KILaunch
import proofs.«404336_j13099650253234_2_alg».proof.Proof.Gen.KernelIdeal.Skeleton
import proofs.«404336_j13099650253234_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S3000x64 := Rect.unit (s := S3000x64) ![0, 0] S3000x64.size inb_S3000x64_S3000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

def out0_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨r0_0, k0_pay1 (View.ld x0 r0_0) (View.ld x1 r0_0) (View.ld x2 r0_1) (View.ld x4 r0_1) (View.ld x3 r0_2) (View.ld x5 r0_2)⟩]

theorem cover0_6 (p0 : Vec F S3000x64 .f32) (y : S3000x64.Idx) :
    ∃ pc ∈ ([⟨r0_0, p0⟩] : List (View.Piece (Elt F) S3000x64 .f32)), y ∈ pc.1.set :=
  View.cover_of_tiled [⟨r0_0, p0⟩] S3000x64.size (by rfl) y

def out0_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨r0_0, k0_pay2 (View.ld x0 r0_0) (View.ld x1 r0_0) (View.ld x2 r0_1) (View.ld x4 r0_1) (View.ld x3 r0_2) (View.ld x5 r0_2)⟩]

theorem cover0_7 (p0 : Vec F S3000x64 .f32) (y : S3000x64.Idx) :
    ∃ pc ∈ ([⟨r0_0, p0⟩] : List (View.Piece (Elt F) S3000x64 .f32)), y ∈ pc.1.set :=
  View.cover_of_tiled [⟨r0_0, p0⟩] S3000x64.size (by rfl) y

set_option maxHeartbeats 1000000 in

theorem sound_kernel0 (c : Dev nD) (E : Set ℕ) (i : grid0.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__dense_layer_kernel i arg1 harg1 arg2 harg2 arg3 harg3 arg4 harg4 arg5 harg5 arg6 harg6 arg7 harg7 arg8 harg8) K := by
  simp only [cc0__dense_layer_kernel_eq_skeleton]; unfold cc0__dense_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_7 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIDense1.lean ====
import proofs.«404336_j13099650253234_2_alg».proof.Proof.KIDense0
import proofs.«404336_j13099650253234_2_alg».proof.Proof.KILaunch
import proofs.«404336_j13099650253234_2_alg».proof.Proof.Gen.KernelIdeal.Skeleton
import proofs.«404336_j13099650253234_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The dense layer's body is printed once per call; the copies are one function. -/
theorem cc1_eq : cc1__dense_layer_kernel (F := F) = cc0__dense_layer_kernel (F := F) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out0_6 (iblk1 V c 0 t) (iblk1 V c 1 t) (iblk1 V c 2 t) (iblk1 V c 3 t) (iblk1 V c 4 t) (iblk1 V c 5 t)
    | ⟨7, _⟩ => out0_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out0_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out0_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_eq]
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIDense2.lean ====
import proofs.«404336_j13099650253234_2_alg».proof.Proof.KIDense0
import proofs.«404336_j13099650253234_2_alg».proof.Proof.KILaunch
import proofs.«404336_j13099650253234_2_alg».proof.Proof.Gen.KernelIdeal.Skeleton
import proofs.«404336_j13099650253234_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The dense layer's body is printed once per call; the copies are one function. -/
theorem cc2_eq : cc2__dense_layer_kernel (F := F) = cc0__dense_layer_kernel (F := F) := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out0_6 (iblk2 V c 0 t) (iblk2 V c 1 t) (iblk2 V c 2 t) (iblk2 V c 3 t) (iblk2 V c 4 t) (iblk2 V c 5 t)
    | ⟨7, _⟩ => out0_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out0_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out0_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq]
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIGather3.lean ====
import proofs.«404336_j13099650253234_2_alg».proof.Proof.KILaunch
import proofs.«404336_j13099650253234_2_alg».proof.Proof.Gen.KernelIdeal.Skeleton
import proofs.«404336_j13099650253234_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg3 (F := F)).Adm)
variable (V : (c : Dev nD) → (b : Ref sig .tc) → Buf (Elt F) ((c : Thread nD τ).loc b))

def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

theorem before3_0_of {c : Dev nD} (dat : Dat τ (Elt F) Unit ℕ (UR sig nD τ) ℕ (cfg3 a) c) (hA : dat.A 0 = V c (Pipeline.arrRef spec3 0))
    (hafter : ∀ t, dat.after 0 t = iblk3 a V c 0 t) (t : Fin (cfg3 a).N) (d) : dat.before 0 t d = iblk3 a V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ (cfg3 a) c) (hA : dat.A 1 = V c (Pipeline.arrRef spec3 1))
    (hafter : ∀ t, dat.after 1 t = iblk3 a V c 1 t) (t : Fin (cfg3 a).N) (d) : dat.before 1 t d = iblk3 a V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ (cfg3 a) c) (hA : dat.A 2 = V c (Pipeline.arrRef spec3 2))
    (hafter : ∀ t, dat.after 2 t = iblk3 a V c 2 t) (t : Fin (cfg3 a).N) (d) : dat.before 2 t d = iblk3 a V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1x1x256 := Rect.unit (s := S1x1x256) ![0, 0, 0] S1x1x256.size inb_S1x1x256_S1x1x256_0_0_0

def out3_3 (x0 : Vec F S1x1x256 .f32) : Vec F S1x1x256 .f32 :=
  View.canon [⟨r3_0, k3_pay1 (View.ld x0 r3_0)⟩]

def out3_4 (x1 : Vec F S1x1x256 .f32) : Vec F S1x1x256 .f32 :=
  View.canon [⟨r3_0, k3_pay2 (View.ld x1 r3_0)⟩]

def out3_5 (x2 : Vec F S1x1x256 .f32) : Vec F S1x1x256 .f32 :=
  View.canon [⟨r3_0, k3_pay3 (View.ld x2 r3_0)⟩]

theorem cover3 (p0 : Vec F S1x1x256 .f32) (y : S1x1x256.Idx) :
    ∃ pc ∈ ([⟨r3_0, p0⟩] : List (View.Piece (Elt F) S1x1x256 .f32)), y ∈ pc.1.set :=
  View.cover_of_tiled [⟨r3_0, p0⟩] S1x1x256.size (by rfl) y

set_option maxHeartbeats 1000000 in

theorem sound_kernel3 (c : Dev nD) (E : Set ℕ) (i : grid3.Coords)
    (arg1 : Memref sig .tc .smem S4096 .i32) (harg1 : arg1.IsWhole) (arg2 : Memref sig .tc .smem S4096 .i32) (harg2 : arg2.IsWhole) (arg3 : Memref sig .tc .smem S4096 .i32) (harg3 : arg3.IsWhole)
    (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole)
    (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole)
    (x0 x1 x2 : Vec F S1x1x256 .f32) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg4 fullShare x0 ∗ owns (c : Thread nD τ) arg5 fullShare x1 ∗ owns (c : Thread nD τ) arg6 fullShare x2
            ∗ owns (c : Thread nD τ) arg7 fullShare (out3_3 x0) ∗ owns (c : Thread nD τ) arg8 fullShare (out3_4 x1) ∗ owns (c : Thread nD τ) arg9 fullShare (out3_5 x2)) -∗ K ⟨⟩))
      ⊢ wp frame (wpE (defs₀ (F := F)) Variants.none c none) E (cc3__gather3_kernel i arg1 harg1 arg2 harg2 arg3 harg3 arg4 harg4 arg5 harg5 arg6 harg6 arg7 harg7 arg8 harg8 arg9 harg9) K := by
  simp only [cc3__gather3_kernel_eq_skeleton]; unfold cc3__gather3_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _)
  isplitl [H4]
  · iexists _; isplitr
    swap; · iexact H4
    ipureintro
    exact View.read_writes_eq_canon _ _ _ (cover3 _)
  iexists _; isplitr
  swap; · iexact H5
  ipureintro
  exact View.read_writes_eq_canon _ _ _ (cover3 _)

def dat3 (c : Dev nD) : Dat τ (Elt F) Unit ℕ (UR sig nD τ) ℕ (cfg3 a) c where
  A w := V c (Pipeline.arrRef spec3 w)
  after w t := match w with
    | ⟨0, _⟩ => iblk3 a V c 0 t
    | ⟨1, _⟩ => iblk3 a V c 1 t
    | ⟨2, _⟩ => iblk3 a V c 2 t
    | ⟨3, _⟩ => out3_3 (iblk3 a V c 0 t)
    | ⟨4, _⟩ => out3_4 (iblk3 a V c 1 t)
    | ⟨5, _⟩ => out3_5 (iblk3 a V c 2 t)
  Φ _ := iprop(Pipeline.ΦA spec3 c ∗ Pipeline.prefHeld pre3 c (fun _ => fullShare) a.1)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq3 (c : Dev nD) (w : Fin (cfg3 a).W) : (dat3 a V c).A w = V c (Pipeline.arrRef spec3 w) := by
  dsimp only [dat3]

theorem share3_0 (c : Dev nD) : (dat3 a V c).share 0 = fullShare := rfl
theorem share3_1 (c : Dev nD) : (dat3 a V c).share 1 = fullShare.left := rfl
theorem share3_2 (c : Dev nD) : (dat3 a V c).share 2 = fullShare.right := rfl
theorem share3_3 (c : Dev nD) : (dat3 a V c).share 3 = fullShare := rfl
theorem share3_4 (c : Dev nD) : (dat3 a V c).share 4 = fullShare := rfl
theorem share3_5 (c : Dev nD) : (dat3 a V c).share 5 = fullShare := rfl

theorem Φ_eq3 (c : Dev nD) (t : Fin ((cfg3 a).N + 1)) :
    (dat3 a V c).Φ t = iprop(Pipeline.ΦA spec3 c ∗ Pipeline.prefHeld pre3 c (fun _ => fullShare) a.1) := by
  dsimp only [dat3]

theorem after3_0 (c : Dev nD) (t : Fin (cfg3 a).N) : (dat3 a V c).after 0 t = iblk3 a V c 0 t := by dsimp only [dat3]; rfl
theorem after3_1 (c : Dev nD) (t : Fin (cfg3 a).N) : (dat3 a V c).after 1 t = iblk3 a V c 1 t := by dsimp only [dat3]; rfl
theorem after3_2 (c : Dev nD) (t : Fin (cfg3 a).N) : (dat3 a V c).after 2 t = iblk3 a V c 2 t := by dsimp only [dat3]; rfl
theorem after3_3 (c : Dev nD) (t : Fin (cfg3 a).N) : (dat3 a V c).after 3 t = out3_3 (iblk3 a V c 0 t) := by dsimp only [dat3]; rfl
theorem after3_4 (c : Dev nD) (t : Fin (cfg3 a).N) : (dat3 a V c).after 4 t = out3_4 (iblk3 a V c 1 t) := by dsimp only [dat3]; rfl
theorem after3_5 (c : Dev nD) (t : Fin (cfg3 a).N) : (dat3 a V c).after 5 t = out3_5 (iblk3 a V c 2 t) := by dsimp only [dat3]; rfl

theorem before3_0 (c : Dev nD) (t : Fin (cfg3 a).N) (d) : (dat3 a V c).before 0 t d = iblk3 a V c 0 t :=
  before3_0_of a V (dat3 a V c) (A_eq3 a V c 0) (after3_0 a V c) t d
theorem before3_1 (c : Dev nD) (t : Fin (cfg3 a).N) (d) : (dat3 a V c).before 1 t d = iblk3 a V c 1 t :=
  before3_1_of a V (dat3 a V c) (A_eq3 a V c 1) (after3_1 a V c) t d
theorem before3_2 (c : Dev nD) (t : Fin (cfg3 a).N) (d) : (dat3 a V c).before 2 t d = iblk3 a V c 2 t :=
  before3_2_of a V (dat3 a V c) (A_eq3 a V c 2) (after3_2 a V c) t d

abbrev st3_0 (t : Fin (cfg3 a).N) := ((cfg3 a).win 0).stage ((cfg3 a).slots t 0)
abbrev st3_1 (t : Fin (cfg3 a).N) := ((cfg3 a).win 1).stage ((cfg3 a).slots t 1)
abbrev st3_2 (t : Fin (cfg3 a).N) := ((cfg3 a).win 2).stage ((cfg3 a).slots t 2)
abbrev st3_3 (t : Fin (cfg3 a).N) := ((cfg3 a).win 3).stage ((cfg3 a).slots t 3)
abbrev st3_4 (t : Fin (cfg3 a).N) := ((cfg3 a).win 4).stage ((cfg3 a).slots t 4)
abbrev st3_5 (t : Fin (cfg3 a).N) := ((cfg3 a).win 5).stage ((cfg3 a).slots t 5)

abbrev bodyAt3 (t : Fin (cfg3 a).N) : Prog (TpuEff nD τ sig (Elt F) Λ₀ .tc) PUnit :=
  cc3__gather3_kernel (grid3.coords t) (Memref.whole main_arg0) (Memref.isWhole_whole _) (Memref.whole main_arg1) (Memref.isWhole_whole _) (Memref.whole main_arg2) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3)) (spec3_4.stage ((cfg3 a).slots t 4)) (hstage3_4 (((cfg3 a).slots t 4).cast nbuf3_4)) (spec3_5.stage ((cfg3 a).slots t 5)) (hstage3_5 (((cfg3 a).slots t 5).cast nbuf3_5))

def bodyPre3 (c : Dev nD) (t : Fin (cfg3 a).N) : sProp 𝕄 :=
  iprop((dat3 a V c).Φ t.castSucc ∗ (dat3 a V c).owesAt () t.castSucc
    ∗ (∃ d, owns (c : Thread nD τ) (st3_0 a t) fullShare ((dat3 a V c).before 0 t d))
    ∗ (∃ d, owns (c : Thread nD τ) (st3_1 a t) fullShare ((dat3 a V c).before 1 t d))
    ∗ (∃ d, owns (c : Thread nD τ) (st3_2 a t) fullShare ((dat3 a V c).before 2 t d))
    ∗ (∃ d, owns (c : Thread nD τ) (st3_3 a t) fullShare ((dat3 a V c).before 3 t d))
    ∗ (∃ d, owns (c : Thread nD τ) (st3_4 a t) fullShare ((dat3 a V c).before 4 t d))
    ∗ (∃ d, owns (c : Thread nD τ) (st3_5 a t) fullShare ((dat3 a V c).before 5 t d)))

def bodyPost3 (c : Dev nD) (t : Fin (cfg3 a).N) : sProp 𝕄 :=
  iprop((dat3 a V c).Φ t.succ ∗ (dat3 a V c).owesAt () t.succ
    ∗ owns (c : Thread nD τ) (st3_0 a t) fullShare ((dat3 a V c).after 0 t)
    ∗ owns (c : Thread nD τ) (st3_1 a t) fullShare ((dat3 a V c).after 1 t)
    ∗ owns (c : Thread nD τ) (st3_2 a t) fullShare ((dat3 a V c).after 2 t)
    ∗ owns (c : Thread nD τ) (st3_3 a t) fullShare ((dat3 a V c).after 3 t)
    ∗ owns (c : Thread nD τ) (st3_4 a t) fullShare ((dat3 a V c).after 4 t)
    ∗ owns (c : Thread nD τ) (st3_5 a t) fullShare ((dat3 a V c).after 5 t))

theorem sound_body3 (c : Dev nD) (t : Fin (cfg3 a).N) :
    bodyPre3 a V c t ⊢ wp frame (wpE (defs₀ (F := F)) Variants.none c none) Set.univ (bodyAt3 a t) (fun _ => bodyPost3 a V c t) := by
  unfold bodyPre3 bodyPost3 bodyAt3
  simp only [before3_0, before3_1, before3_2]
  rw [show (dat3 a V c).Φ t.succ = (dat3 a V c).Φ t.castSucc from rfl,
    show (dat3 a V c).owesAt () t.succ = (dat3 a V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ _ _ _ _ _ _ (iblk3 a V c 0 t) (iblk3 a V c 1 t) (iblk3 a V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) a V c) (defs₀ (F := F)) Variants.none () Set.univ := fun t => by
  rw [bigSep_W3, bigSep_W3]
  exact sound_body3 a V c t

theorem ok3_of_ranges (pf : pre3.Contents (Elt F)) (h0 : ∀ i, BitVec.toNat (pf 0 i) < 100000)
    (h1 : ∀ i, BitVec.toNat (pf 1 i) < 50000) (h2 : ∀ i, BitVec.toNat (pf 2 i) < 50000) : ok3 pf := by
  refine ⟨fun i => ⟨?_, .inl rfl⟩, fun i => ⟨?_, .inl rfl⟩, fun i => ⟨?_, .inl rfl⟩⟩
  · intro b
    match b with
    | 0 =>
      show (BitVec.toNat (pf 0 _) + 1) * 1 ≤ 100000
      exact (Nat.mul_one _).le.trans (h0 _)
    | 1 => exact Nat.le_refl _
    | 2 => exact Nat.le_refl _
  · intro b
    match b with
    | 0 =>
      show (BitVec.toNat (pf 1 _) + 1) * 1 ≤ 50000
      exact (Nat.mul_one _).le.trans (h1 _)
    | 1 => exact Nat.le_refl _
    | 2 => exact Nat.le_refl _
  · intro b
    match b with
    | 0 =>
      show (BitVec.toNat (pf 2 _) + 1) * 1 ≤ 50000
      exact (Nat.mul_one _).le.trans (h2 _)
    | 1 => exact Nat.le_refl _
    | 2 => exact Nat.le_refl _

abbrev tix (n : Fin 4096) : S4096.Idx := ValueIdx.ix1 n

theorem wordPos (i : grid3.Coords) :
    (Rect.unit (s := S4096) ![(Scalar.indexCast (BitVec.ofNat 32 (i 0).val)).toNat] S1.size (k3_off1_inb i)).emb (Shape.Idx.first (numel1_S1.symm ▸ Nat.one_pos))
      = tix ⟨(i 0).val, (i 0).isLt⟩ := by
  funext b
  apply Fin.ext
  match b with
  | 0 =>
    have hi : (i 0).val < 4096 := (i 0).isLt
    show (BitVec.ofNat 32 (i 0).val).toNat + 1 * 0 = (i 0).val
    rw [BitVec.toNat_ofNat, Nat.mod_eq_of_lt (by omega)]; omega

theorem transform3_0_val (pf : pre3.Contents (Elt F)) (i : grid3.Coords) :
    cc3_transform_0 k3_off1_inb numel1_S1 pf i = ![BitVec.toNat (pf 0 (tix ⟨(i 0).val, (i 0).isLt⟩)), 0, 0] := by
  rw [← wordPos i]; rfl
theorem transform3_1_val (pf : pre3.Contents (Elt F)) (i : grid3.Coords) :
    cc3_transform_1 k3_off1_inb numel1_S1 pf i = ![BitVec.toNat (pf 1 (tix ⟨(i 0).val, (i 0).isLt⟩)), 0, 0] := by
  rw [← wordPos i]; rfl
theorem transform3_2_val (pf : pre3.Contents (Elt F)) (i : grid3.Coords) :
    cc3_transform_2 k3_off1_inb numel1_S1 pf i = ![BitVec.toNat (pf 2 (tix ⟨(i 0).val, (i 0).isLt⟩)), 0, 0] := by
  rw [← wordPos i]; rfl

theorem coords3_val (t : Fin grid3.N) : (grid3.coords t 0).val = t.val := by
  have ht : t.val < 4096 := N_3 ▸ t.isLt
  show t.val / 1 % 4096 = t.val
  rw [Nat.div_one, Nat.mod_eq_of_lt ht]

theorem ix3_val_0 (t : Fin (cfg3 a).N) : ((cfg3 a).win 0).index t =
    ![BitVec.toNat (a.1 0 (tix ⟨(grid3.coords t 0).val, (grid3.coords t 0).isLt⟩)), 0, 0] :=
  transform3_0_val a.1 (grid3.coords t)
theorem ix3_val_1 (t : Fin (cfg3 a).N) : ((cfg3 a).win 1).index t =
    ![BitVec.toNat (a.1 1 (tix ⟨(grid3.coords t 0).val, (grid3.coords t 0).isLt⟩)), 0, 0] :=
  transform3_1_val a.1 (grid3.coords t)
theorem ix3_val_2 (t : Fin (cfg3 a).N) : ((cfg3 a).win 2).index t =
    ![BitVec.toNat (a.1 2 (tix ⟨(grid3.coords t 0).val, (grid3.coords t 0).isLt⟩)), 0, 0] :=
  transform3_2_val a.1 (grid3.coords t)

theorem ix3_val_3 (t : Fin (cfg3 a).N) : ((cfg3 a).win 3).index t = ![(BitVec.ofNat 32 (grid3.coords t 0).val).toNat, 0, 0] := rfl
theorem ix3_val_4 (t : Fin (cfg3 a).N) : ((cfg3 a).win 4).index t = ![(BitVec.ofNat 32 (grid3.coords t 0).val).toNat, 0, 0] := rfl
theorem ix3_val_5 (t : Fin (cfg3 a).N) : ((cfg3 a).win 5).index t = ![(BitVec.ofNat 32 (grid3.coords t 0).val).toNat, 0, 0] := rfl

end Cert.KernelIdeal.Hand

end
-- ==== Proof.KIRunDefs.lean ====
import proofs.«404336_j13099650253234_2_alg».proof.Proof.KIRunVal
import proofs.«404336_j13099650253234_2_alg».proof.Proof.KIDense0
import proofs.«404336_j13099650253234_2_alg».proof.Proof.KIDense1
import proofs.«404336_j13099650253234_2_alg».proof.Proof.KIDense2
import proofs.«404336_j13099650253234_2_alg».proof.Proof.KIGather3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (a3 : (pcfg3 (F := F)).Adm)

abbrev T1 : (c : Dev nD) → (b : Ref sig .tc) → Buf (Elt F) ((c : Thread nD τ).loc b) := fun c b => V1 m c b

def W2 (c : Dev nD) : Valuation τ sig (Elt F) :=
  Pipeline.withArrays spec0 c (V1 m c) fun w => (dat0 (T1 m) c).arrAt w cfg0.N

def outsA : Outs (F := F) := fun _ r c => W2 m c r
abbrev T2 : (c : Dev nD) → (b : Ref sig .tc) → Buf (Elt F) ((c : Thread nD τ).loc b) := fun c b => V2 m (outsA m) c b
abbrev T3 : (c : Dev nD) → (b : Ref sig .tc) → Buf (Elt F) ((c : Thread nD τ).loc b) := fun c b => V3 m (outsA m) c b

def W4 (c : Dev nD) : Valuation τ sig (Elt F) :=
  Pipeline.withArrays spec1 c (V3 m (outsA m) c) fun w => (dat1 (T3 m) c).arrAt w cfg1.N
def outsB : Outs (F := F) := fun J r c => if J = 2 then W2 m c r else W4 m c r
abbrev T4 : (c : Dev nD) → (b : Ref sig .tc) → Buf (Elt F) ((c : Thread nD τ).loc b) := fun c b => V4 m (outsB m) c b
abbrev T5 : (c : Dev nD) → (b : Ref sig .tc) → Buf (Elt F) ((c : Thread nD τ).loc b) := fun c b => V5 m (outsB m) c b

def W6 (c : Dev nD) : Valuation τ sig (Elt F) :=
  Pipeline.withArrays spec2 c (V5 m (outsB m) c) fun w => (dat2 (T5 m) c).arrAt w cfg2.N
def outsC : Outs (F := F) := fun J r c => if J = 2 then W2 m c r else if J = 4 then W4 m c r else W6 m c r
abbrev T6 : (c : Dev nD) → (b : Ref sig .tc) → Buf (Elt F) ((c : Thread nD τ).loc b) := fun c b => V6 m (outsC m) c b
abbrev T7 : (c : Dev nD) → (b : Ref sig .tc) → Buf (Elt F) ((c : Thread nD τ).loc b) := fun c b => V7 m (outsC m) c b

def g3_0 (c : Dev nD) : Buf (Elt F) ((c : Thread nD τ).loc main_v48_0) := (dat3 a3 (T7 m) c).arrAt 3 (cfg3 a3).N
def g3_1 (c : Dev nD) : Buf (Elt F) ((c : Thread nD τ).loc main_v48_1) := (dat3 a3 (T7 m) c).arrAt 4 (cfg3 a3).N
def g3_2 (c : Dev nD) : Buf (Elt F) ((c : Thread nD τ).loc main_v48_2) := (dat3 a3 (T7 m) c).arrAt 5 (cfg3 a3).N

def W8 (c : Dev nD) : Valuation τ sig (Elt F) :=
  Function.update (Function.update (Function.update (V7 m (outsC m) c)
    main_v48_0 (g3_0 m a3 c)) main_v48_1 (g3_1 m a3 c)) main_v48_2 (g3_2 m a3 c)

def outs : Outs (F := F) := fun J r c =>
  if J = 2 then W2 m c r else if J = 4 then W4 m c r else if J = 6 then W6 m c r else W8 m a3 c r
abbrev T8 : (c : Dev nD) → (b : Ref sig .tc) → Buf (Elt F) ((c : Thread nD τ).loc b) := fun c b => V8 m (outs m a3) c b

theorem V2_outs (c : Dev nD) : V2 m (outs m a3) c = V2 m (outsA m) c := rfl
theorem V3_outs (c : Dev nD) : V3 m (outs m a3) c = V3 m (outsA m) c := rfl
theorem V4_outs (c : Dev nD) : V4 m (outs m a3) c = V4 m (outsB m) c := rfl
theorem V5_outs (c : Dev nD) : V5 m (outs m a3) c = V5 m (outsB m) c := rfl
theorem V6_outs (c : Dev nD) : V6 m (outs m a3) c = V6 m (outsC m) c := rfl
theorem V7_outs (c : Dev nD) : V7 m (outs m a3) c = V7 m (outsC m) c := rfl

theorem outsA_2 (r : Ref sig .tc) (c : Dev nD) : outsA m 2 r c = W2 m c r := rfl
theorem outsB_4 (r : Ref sig .tc) (c : Dev nD) : outsB m 4 r c = W4 m c r := by
  show (if (4 : ℕ) = 2 then W2 m c r else W4 m c r) = _
  rw [if_neg (show ¬ (4 : ℕ) = 2 by decide)]
theorem outsC_6 (r : Ref sig .tc) (c : Dev nD) : outsC m 6 r c = W6 m c r := by
  show (if (6 : ℕ) = 2 then W2 m c r else if (6 : ℕ) = 4 then W4 m c r else W6 m c r) = _
  rw [if_neg (show ¬ (6 : ℕ) = 2 by decide), if_neg (show ¬ (6 : ℕ) = 4 by decide)]
theorem outs_8 (r : Ref sig .tc) (c : Dev nD) : outs m a3 8 r c = W8 m a3 c r := by
  show (if (8 : ℕ) = 2 then W2 m c r else if (8 : ℕ) = 4 then W4 m c r else if (8 : ℕ) = 6 then W6 m c r else W8 m a3 c r) = _
  rw [if_neg (show ¬ (8 : ℕ) = 2 by decide), if_neg (show ¬ (8 : ℕ) = 4 by decide), if_neg (show ¬ (8 : ℕ) = 6 by decide)]

def adm : (p : Fin 4) → (pcfgs (F := F) p).Adm
  | ⟨0, _⟩ => cfg0.toPCfg_adm
  | ⟨1, _⟩ => cfg1.toPCfg_adm
  | ⟨2, _⟩ => cfg2.toPCfg_adm
  | ⟨3, _⟩ => a3

def pdats : (p : Fin 4) → (c : Dev nD) → Dat τ (Elt F) Unit ℕ (UR sig nD τ) ℕ (Pipeline.pin (pcfgs (F := F)) (adm a3) p) c
  | ⟨0, _⟩ => fun c => dat0 (T1 m) c
  | ⟨1, _⟩ => fun c => dat1 (T3 m) c
  | ⟨2, _⟩ => fun c => dat2 (T5 m) c
  | ⟨3, _⟩ => fun c => dat3 a3 (T7 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem out0_6_eq (c : Dev nD) : T2 m c main_v14_0 = (dat0 (T1 m) c).arrAt 6 cfg0.N := by
  have hne : (Proc.devRef .tc main_v14_0 : DevRef τ sig) ≠ Proc.devRef .tc main_v14_1 := StableHlo.devRef_ne_of_ne (by decide)
  show V2 m (outsA m) c (Proc.devRef .tc main_v14_0) = _
  simp only [V2, Function.update_of_ne hne, Function.update_self]
  rw [outsA_2 m main_v14_0 c]
  unfold W2
  exact Pipeline.withArrays_arr spec0 (launch0 (F := F)).win.arr_inj c (V1 m c) (fun w => (dat0 (T1 m) c).arrAt w cfg0.N) 6
theorem out0_7_eq (c : Dev nD) : T2 m c main_v14_1 = (dat0 (T1 m) c).arrAt 7 cfg0.N := by
  show V2 m (outsA m) c (Proc.devRef .tc main_v14_1) = _
  simp only [V2, Function.update_self]
  rw [outsA_2 m main_v14_1 c]
  unfold W2
  exact Pipeline.withArrays_arr spec0 (launch0 (F := F)).win.arr_inj c (V1 m c) (fun w => (dat0 (T1 m) c).arrAt w cfg0.N) 7
set_option maxHeartbeats 1000000 in

theorem hF0 (c : Dev nD) : ∀ w : Fin cfg0.W, (pdats m a3 0 c).arrAt w cfg0.N = T2 m c (Pipeline.arrRef spec0 w)
  | ⟨0, _⟩ => ((dat0 (T1 m) c).arrAt_in 0 rfl _).trans ((A_eq0 (T1 m) c 0).trans (V2_of m (outsA m) c main_v0 (by decide)).symm)
  | ⟨1, _⟩ => ((dat0 (T1 m) c).arrAt_in 1 rfl _).trans ((A_eq0 (T1 m) c 1).trans (V2_of m (outsA m) c main_v13 (by decide)).symm)
  | ⟨2, _⟩ => ((dat0 (T1 m) c).arrAt_in 2 rfl _).trans ((A_eq0 (T1 m) c 2).trans (V2_of m (outsA m) c main_arg8 (by decide)).symm)
  | ⟨3, _⟩ => ((dat0 (T1 m) c).arrAt_in 3 rfl _).trans ((A_eq0 (T1 m) c 3).trans (V2_of m (outsA m) c main_arg11 (by decide)).symm)
  | ⟨4, _⟩ => ((dat0 (T1 m) c).arrAt_in 4 rfl _).trans ((A_eq0 (T1 m) c 4).trans (V2_of m (outsA m) c main_arg14 (by decide)).symm)
  | ⟨5, _⟩ => ((dat0 (T1 m) c).arrAt_in 5 rfl _).trans ((A_eq0 (T1 m) c 5).trans (V2_of m (outsA m) c main_arg17 (by decide)).symm)
  | ⟨6, _⟩ => (out0_6_eq m c).symm
  | ⟨7, _⟩ => (out0_7_eq m c).symm

theorem hrest0 (c : Dev nD) : ∀ b, b ∉ Finset.univ.image (Pipeline.arrRef spec0) → T2 m c b = T1 m c b :=
  fun b hb => V2_of m (outsA m) c b (by
    intro h
    simp only [List.mem_cons, List.mem_nil_iff, or_false] at h
    rcases h with rfl | rfl
    · exact hb (Finset.mem_image.mpr ⟨6, Finset.mem_univ _, rfl⟩)
    · exact hb (Finset.mem_image.mpr ⟨7, Finset.mem_univ _, rfl⟩))

theorem out1_6_eq (c : Dev nD) : T4 m c main_v28_0 = (dat1 (T3 m) c).arrAt 6 cfg1.N := by
  have hne : (Proc.devRef .tc main_v28_0 : DevRef τ sig) ≠ Proc.devRef .tc main_v28_1 := StableHlo.devRef_ne_of_ne (by decide)
  show V4 m (outsB m) c (Proc.devRef .tc main_v28_0) = _
  simp only [V4, Function.update_of_ne hne, Function.update_self]
  rw [outsB_4 m main_v28_0 c]
  unfold W4
  exact Pipeline.withArrays_arr spec1 (launch1 (F := F)).win.arr_inj c (V3 m (outsA m) c) (fun w => (dat1 (T3 m) c).arrAt w cfg1.N) 6
theorem out1_7_eq (c : Dev nD) : T4 m c main_v28_1 = (dat1 (T3 m) c).arrAt 7 cfg1.N := by
  show V4 m (outsB m) c (Proc.devRef .tc main_v28_1) = _
  simp only [V4, Function.update_self]
  rw [outsB_4 m main_v28_1 c]
  unfold W4
  exact Pipeline.withArrays_arr spec1 (launch1 (F := F)).win.arr_inj c (V3 m (outsA m) c) (fun w => (dat1 (T3 m) c).arrAt w cfg1.N) 7
set_option maxHeartbeats 1000000 in

theorem hF1 (c : Dev nD) : ∀ w : Fin cfg1.W, (pdats m a3 1 c).arrAt w cfg1.N = T4 m c (Pipeline.arrRef spec1 w)
  | ⟨0, _⟩ => ((dat1 (T3 m) c).arrAt_in 0 rfl _).trans ((A_eq1 (T3 m) c 0).trans (V4_of m (outsB m) c main_v14_0 (by decide)).symm)
  | ⟨1, _⟩ => ((dat1 (T3 m) c).arrAt_in 1 rfl _).trans ((A_eq1 (T3 m) c 1).trans (V4_of m (outsB m) c main_v27 (by decide)).symm)
  | ⟨2, _⟩ => ((dat1 (T3 m) c).arrAt_in 2 rfl _).trans ((A_eq1 (T3 m) c 2).trans (V4_of m (outsB m) c main_arg9 (by decide)).symm)
  | ⟨3, _⟩ => ((dat1 (T3 m) c).arrAt_in 3 rfl _).trans ((A_eq1 (T3 m) c 3).trans (V4_of m (outsB m) c main_arg12 (by decide)).symm)
  | ⟨4, _⟩ => ((dat1 (T3 m) c).arrAt_in 4 rfl _).trans ((A_eq1 (T3 m) c 4).trans (V4_of m (outsB m) c main_arg15 (by decide)).symm)
  | ⟨5, _⟩ => ((dat1 (T3 m) c).arrAt_in 5 rfl _).trans ((A_eq1 (T3 m) c 5).trans (V4_of m (outsB m) c main_arg18 (by decide)).symm)
  | ⟨6, _⟩ => (out1_6_eq m c).symm
  | ⟨7, _⟩ => (out1_7_eq m c).symm

theorem hrest1 (c : Dev nD) : ∀ b, b ∉ Finset.univ.image (Pipeline.arrRef spec1) → T4 m c b = T3 m c b :=
  fun b hb => V4_of m (outsB m) c b (by
    intro h
    simp only [List.mem_cons, List.mem_nil_iff, or_false] at h
    rcases h with rfl | rfl
    · exact hb (Finset.mem_image.mpr ⟨6, Finset.mem_univ _, rfl⟩)
    · exact hb (Finset.mem_image.mpr ⟨7, Finset.mem_univ _, rfl⟩))

theorem out2_6_eq (c : Dev nD) : T6 m c main_v42_0 = (dat2 (T5 m) c).arrAt 6 cfg2.N := by
  have hne : (Proc.devRef .tc main_v42_0 : DevRef τ sig) ≠ Proc.devRef .tc main_v42_1 := StableHlo.devRef_ne_of_ne (by decide)
  show V6 m (outsC m) c (Proc.devRef .tc main_v42_0) = _
  simp only [V6, Function.update_of_ne hne, Function.update_self]
  rw [outsC_6 m main_v42_0 c]
  unfold W6
  exact Pipeline.withArrays_arr spec2 (launch2 (F := F)).win.arr_inj c (V5 m (outsB m) c) (fun w => (dat2 (T5 m) c).arrAt w cfg2.N) 6
theorem out2_7_eq (c : Dev nD) : T6 m c main_v42_1 = (dat2 (T5 m) c).arrAt 7 cfg2.N := by
  show V6 m (outsC m) c (Proc.devRef .tc main_v42_1) = _
  simp only [V6, Function.update_self]
  rw [outsC_6 m main_v42_1 c]
  unfold W6
  exact Pipeline.withArrays_arr spec2 (launch2 (F := F)).win.arr_inj c (V5 m (outsB m) c) (fun w => (dat2 (T5 m) c).arrAt w cfg2.N) 7
set_option maxHeartbeats 1000000 in

theorem hF2 (c : Dev nD) : ∀ w : Fin cfg2.W, (pdats m a3 2 c).arrAt w cfg2.N = T6 m c (Pipeline.arrRef spec2 w)
  | ⟨0, _⟩ => ((dat2 (T5 m) c).arrAt_in 0 rfl _).trans ((A_eq2 (T5 m) c 0).trans (V6_of m (outsC m) c main_v28_0 (by decide)).symm)
  | ⟨1, _⟩ => ((dat2 (T5 m) c).arrAt_in 1 rfl _).trans ((A_eq2 (T5 m) c 1).trans (V6_of m (outsC m) c main_v41 (by decide)).symm)
  | ⟨2, _⟩ => ((dat2 (T5 m) c).arrAt_in 2 rfl _).trans ((A_eq2 (T5 m) c 2).trans (V6_of m (outsC m) c main_arg10 (by decide)).symm)
  | ⟨3, _⟩ => ((dat2 (T5 m) c).arrAt_in 3 rfl _).trans ((A_eq2 (T5 m) c 3).trans (V6_of m (outsC m) c main_arg13 (by decide)).symm)
  | ⟨4, _⟩ => ((dat2 (T5 m) c).arrAt_in 4 rfl _).trans ((A_eq2 (T5 m) c 4).trans (V6_of m (outsC m) c main_arg16 (by decide)).symm)
  | ⟨5, _⟩ => ((dat2 (T5 m) c).arrAt_in 5 rfl _).trans ((A_eq2 (T5 m) c 5).trans (V6_of m (outsC m) c main_arg19 (by decide)).symm)
  | ⟨6, _⟩ => (out2_6_eq m c).symm
  | ⟨7, _⟩ => (out2_7_eq m c).symm

theorem hrest2 (c : Dev nD) : ∀ b, b ∉ Finset.univ.image (Pipeline.arrRef spec2) → T6 m c b = T5 m c b :=
  fun b hb => V6_of m (outsC m) c b (by
    intro h
    simp only [List.mem_cons, List.mem_nil_iff, or_false] at h
    rcases h with rfl | rfl
    · exact hb (Finset.mem_image.mpr ⟨6, Finset.mem_univ _, rfl⟩)
    · exact hb (Finset.mem_image.mpr ⟨7, Finset.mem_univ _, rfl⟩))

theorem ne48_01 : (Proc.devRef .tc main_v48_0 : DevRef τ sig) ≠ Proc.devRef .tc main_v48_1 := StableHlo.devRef_ne_of_ne (by decide)
theorem ne48_02 : (Proc.devRef .tc main_v48_0 : DevRef τ sig) ≠ Proc.devRef .tc main_v48_2 := StableHlo.devRef_ne_of_ne (by decide)
theorem ne48_12 : (Proc.devRef .tc main_v48_1 : DevRef τ sig) ≠ Proc.devRef .tc main_v48_2 := StableHlo.devRef_ne_of_ne (by decide)

theorem w8_3_eq (c : Dev nD) : T8 m a3 c main_v48_0 = (dat3 a3 (T7 m) c).arrAt 3 (cfg3 a3).N := by
  show V8 m (outs m a3) c (Proc.devRef .tc main_v48_0) = _
  simp only [V8, Function.update_of_ne ne48_02, Function.update_of_ne ne48_01, Function.update_self]
  rw [outs_8 m a3 main_v48_0 c]
  unfold W8
  exact (Function.update_of_ne ne48_02 _ _).trans ((Function.update_of_ne ne48_01 _ _).trans (Function.update_self _ _ _))
theorem w8_4_eq (c : Dev nD) : T8 m a3 c main_v48_1 = (dat3 a3 (T7 m) c).arrAt 4 (cfg3 a3).N := by
  show V8 m (outs m a3) c (Proc.devRef .tc main_v48_1) = _
  simp only [V8, Function.update_of_ne ne48_12, Function.update_self]
  rw [outs_8 m a3 main_v48_1 c]
  unfold W8
  exact (Function.update_of_ne ne48_12 _ _).trans (Function.update_self _ _ _)
theorem w8_5_eq (c : Dev nD) : T8 m a3 c main_v48_2 = (dat3 a3 (T7 m) c).arrAt 5 (cfg3 a3).N := by
  show V8 m (outs m a3) c (Proc.devRef .tc main_v48_2) = _
  simp only [V8, Function.update_self]
  rw [outs_8 m a3 main_v48_2 c]
  unfold W8
  exact Function.update_self _ _ _

set_option maxHeartbeats 1000000 in

theorem hF3 (c : Dev nD) : ∀ w : Fin (cfg3 a3).W, (dat3 a3 (T7 m) c).arrAt w (cfg3 a3).N = T8 m a3 c (Pipeline.arrRef spec3 w)
  | ⟨0, _⟩ => ((dat3 a3 (T7 m) c).arrAt_in 0 rfl _).trans ((A_eq3 a3 (T7 m) c 0).trans ((congrFun (V7_outs m a3 c) (Proc.devRef .tc main_v46)).symm.trans (V8_of m (outs m a3) c main_v46 (by decide)).symm))
  | ⟨1, _⟩ => ((dat3 a3 (T7 m) c).arrAt_in 1 rfl _).trans ((A_eq3 a3 (T7 m) c 1).trans ((congrFun (V7_outs m a3 c) (Proc.devRef .tc main_v47)).symm.trans (V8_of m (outs m a3) c main_v47 (by decide)).symm))
  | ⟨2, _⟩ => ((dat3 a3 (T7 m) c).arrAt_in 2 rfl _).trans ((A_eq3 a3 (T7 m) c 2).trans ((congrFun (V7_outs m a3 c) (Proc.devRef .tc main_v47)).symm.trans (V8_of m (outs m a3) c main_v47 (by decide)).symm))
  | ⟨3, _⟩ => (w8_3_eq m a3 c).symm
  | ⟨4, _⟩ => (w8_4_eq m a3 c).symm
  | ⟨5, _⟩ => (w8_5_eq m a3 c).symm

theorem hrest3 (c : Dev nD) : ∀ b, b ∉ Finset.univ.image (Pipeline.arrRef spec3) → T8 m a3 c b = T7 m c b :=
  fun b hb => (V8_of m (outs m a3) c b (by
    intro h
    simp only [List.mem_cons, List.mem_nil_iff, or_false] at h
    rcases h with rfl | rfl | rfl
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩))).trans (congrFun (V7_outs m a3 c) (Proc.devRef .tc b))

end Cert.KernelIdeal.Hand

end
-- ==== Proof.KIRun.lean ====
import proofs.«404336_j13099650253234_2_alg».proof.Proof.KIRunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (a3 : (pcfg3 (F := F)).Adm)

set_option backward.isDefEq.respectTransparency.types false in

def reg0 : Pipeline.RegionSeg (pcfgs (F := F)) (adm a3) (pdats m a3) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) (adm a3) (pdats m a3) (launch0 (F := F)).win (launch0 (F := F)).arr_whole c
      ((pdats m a3 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a3) (Ix := Unit) (Name := ℕ) (U := UR sig nD τ) (Lvl := ℕ)
      (launch0 (F := F)).win (launch0 (F := F)).arr_whole c (pdats m a3) ((pdats m a3 0 c).share_full fun _ => rfl)
      (T1 m c) (T2 m c) ((pdats m a3 0 c).arrAt · cfg0.N) (hF0 m a3 c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) (adm a3) (pdats m a3) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outsB m) c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) (adm a3) (pdats m a3) (launch1 (F := F)).win (launch1 (F := F)).arr_whole c
      ((pdats m a3 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a3) (Ix := Unit) (Name := ℕ) (U := UR sig nD τ) (Lvl := ℕ)
      (launch1 (F := F)).win (launch1 (F := F)).arr_whole c (pdats m a3) ((pdats m a3 1 c).share_full fun _ => rfl)
      (T3 m c) (T4 m c) ((pdats m a3 1 c).arrAt · cfg1.N) (hF1 m a3 c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) (adm a3) (pdats m a3) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (V5 m (outsB m) c) ∗ R c)
  post c := iprop(StableHlo.held (c : Thread nD τ) (Pipeline.ucRefs τ sig) (V6 m (outsC m) c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) (adm a3) (pdats m a3) (launch2 (F := F)).win (launch2 (F := F)).arr_whole c
      ((pdats m a3 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m a3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm a3) (Ix := Unit) (Name := ℕ) (U := UR sig nD τ) (Lvl := ℕ)
      (launch2 (F := F)).win (launch2 (F := F)).arr_whole c (pdats m a3) ((pdats m a3 2 c).share_full fun _ => rfl)
      (T5 m c) (T6 m c) ((pdats m a3 2 c).arrAt · cfg2.N) (hF2 m a3 c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIFrame.lean ====
import proofs.«404336_j13099650253234_2_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (a3 : (pcfg3 (F := F)).Adm)

abbrev u₀ : UR sig nD τ :=
  initOf (Pipeline.cells (Pipeline.pin (pcfgs (F := F)) (adm a3)) (cellOf_inj (adm a3)))
    (Pipeline.launchToks (Pipeline.pin (pcfgs (F := F)) (adm a3)) (cellOf_inj (adm a3)))

set_option backward.isDefEq.respectTransparency.types false in
set_option maxHeartbeats 4000000 in

theorem run_val_of (ρ : Dev nD → PrngReg)
    (R3 : RegionSeg (pcfgs (F := F)) (adm a3) (pdats m a3) () defs₀ 𝒱₀ L lv 3)
    (hpre3 : ∀ c : Dev nD, iprop(StableHlo.held (c : Thread nD τ) (Pipeline.ucRefs τ sig) (V7 m (outs m a3) c) ∗ R c) ⊢ R3.pre c)
    (hpost3 : ∀ c : Dev nD, R3.post c ⊢ iprop(StableHlo.held (c : Thread nD τ) (Pipeline.ucRefs τ sig) (V8 m (outs m a3) c) ∗ R c)) :
    θ_run defs (onTc (τ := τ) (main (F := F))) ⟨m, fun _ => 0, ρ⟩ (fun r => ∀ c : Dev nD,
      r.2.mem ((c.tc : Thread nD τ).loc main_v49) = V9 m (outs m a3) c main_v49
      ∧ r.2.mem ((c.tc : Thread nD τ).loc main_v50) = V9 m (outs m a3) c main_v50
      ∧ r.2.mem ((c.tc : Thread nD τ).loc main_v51) = V9 m (outs m a3) c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_cond_val m emb₁ () 𝒱₀ L lv (fun _ _ => rfl) ρ (outs m a3) (adm a3) (pdats m a3) (fun _ => 0) (fun _ => iprop(emp)) (u₀ a3)
    (by
      iintro Hu; imodintro
      isplitl [Hu]
      · iapply (show (ownU (u₀ a3) : sProp 𝕄) ⊢ BI.own (emb₁ (u₀ a3)) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m a3) (fun c => .rfl) (fun c => by rw [V2_outs m a3 c]; exact .rfl)
    (reg1 m a3) (fun c => by rw [V3_outs m a3 c]; exact .rfl) (fun c => by rw [V4_outs m a3 c]; exact .rfl)
    (reg2 m a3) (fun c => by rw [V5_outs m a3 c]; exact .rfl) (fun c => by rw [V6_outs m a3 c]; exact .rfl)
    R3 hpre3 hpost3

end Cert.KernelIdeal.Hand

end
-- ==== Proof.KIReg3.lean ====
import proofs.«404336_j13099650253234_2_alg».proof.Proof.KIGather3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem arr_whole3' (a : (pcfg3 (F := F)).Adm) (w : Fin (cfg3 a).W) : ((cfg3 a).spec w).arr.IsWhole := arr_whole3 w

theorem arrImage3 : Finset.univ.image (Pipeline.arrRef spec3)
    = [Pipeline.arrRef spec3 0, Pipeline.arrRef spec3 1, Pipeline.arrRef spec3 3, Pipeline.arrRef spec3 4, Pipeline.arrRef spec3 5].toFinset := by decide
theorem arrNodup3 : [Pipeline.arrRef spec3 0, Pipeline.arrRef spec3 1, Pipeline.arrRef spec3 3, Pipeline.arrRef spec3 4, Pipeline.arrRef spec3 5].Nodup := by decide

set_option maxHeartbeats 1000000 in

theorem arrPt3 (a : (pcfg3 (F := F)).Adm) (c : Dev nD) (Vb : (b : Ref sig .tc) → Buf (Elt F) ((c.tc : Thread nD τ).loc b))
    (w : Fin (cfg3 a).W) (q : PosShare TreeShare) :
    (((cfg3 a).win w).arr.view.loc (c.tc : Thread nD τ) ↦[((cfg3 a).win w).arr.view.set]{q} Vb (Pipeline.arrRef spec3 w) : sProp 𝕄)
      = ((c.tc : Thread nD τ).loc (Pipeline.arrRef spec3 w) ↦{q} Vb (Pipeline.arrRef spec3 w)) := by
  rw [(arr_whole3' a w).set_eq_univ]

set_option maxHeartbeats 1000000 in

theorem arrays3_equiv_of (a : (pcfg3 (F := F)).Adm) {c : Dev nD} (dat : Dat τ (Elt F) Unit ℕ (UR sig nD τ) ℕ (cfg3 a) c)
    (h0 : dat.share (0 : Fin 6) = fullShare) (h1 : dat.share (1 : Fin 6) = fullShare.left) (h2 : dat.share (2 : Fin 6) = fullShare.right)
    (h3 : dat.share (3 : Fin 6) = fullShare) (h4 : dat.share (4 : Fin 6) = fullShare) (h5 : dat.share (5 : Fin 6) = fullShare)
    (Vb : (b : Ref sig .tc) → Buf (Elt F) ((c.tc : Thread nD τ).loc b)) :
    (Pipeline.arrBufs spec3 c Vb : sProp 𝕄) ⊣⊢ dat.arrays fun w => Vb (Pipeline.arrRef spec3 w) := by
  have e0 := arrPt3 a c Vb (0 : Fin 6) (dat.share (0 : Fin 6))
  have e1 := arrPt3 a c Vb (1 : Fin 6) (dat.share (1 : Fin 6))
  have e2 := arrPt3 a c Vb (2 : Fin 6) (dat.share (2 : Fin 6))
  have e3 := arrPt3 a c Vb (3 : Fin 6) (dat.share (3 : Fin 6))
  have e4 := arrPt3 a c Vb (4 : Fin 6) (dat.share (4 : Fin 6))
  have e5 := arrPt3 a c Vb (5 : Fin 6) (dat.share (5 : Fin 6))
  have hL : (Pipeline.arrBufs spec3 c Vb : sProp 𝕄)
      = iprop(((c.tc : Thread nD τ).loc (Pipeline.arrRef spec3 0) ↦{fullShare} Vb (Pipeline.arrRef spec3 0))
          ∗ ((c.tc : Thread nD τ).loc (Pipeline.arrRef spec3 1) ↦{fullShare} Vb (Pipeline.arrRef spec3 1))
          ∗ ((c.tc : Thread nD τ).loc (Pipeline.arrRef spec3 3) ↦{fullShare} Vb (Pipeline.arrRef spec3 3))
          ∗ ((c.tc : Thread nD τ).loc (Pipeline.arrRef spec3 4) ↦{fullShare} Vb (Pipeline.arrRef spec3 4))
          ∗ ((c.tc : Thread nD τ).loc (Pipeline.arrRef spec3 5) ↦{fullShare} Vb (Pipeline.arrRef spec3 5))) := by
    unfold Pipeline.arrBufs
    rw [bigSep_eq_bigSepL_of_eq _ arrImage3 arrNodup3]
    rfl
  have hR : (dat.arrays fun w => Vb (Pipeline.arrRef spec3 w) : sProp 𝕄)
      = iprop(((c.tc : Thread nD τ).loc (Pipeline.arrRef spec3 0) ↦{fullShare} Vb (Pipeline.arrRef spec3 0))
          ∗ ((c.tc : Thread nD τ).loc (Pipeline.arrRef spec3 1) ↦{fullShare.left} Vb (Pipeline.arrRef spec3 1))
          ∗ ((c.tc : Thread nD τ).loc (Pipeline.arrRef spec3 2) ↦{fullShare.right} Vb (Pipeline.arrRef spec3 2))
          ∗ ((c.tc : Thread nD τ).loc (Pipeline.arrRef spec3 3) ↦{fullShare} Vb (Pipeline.arrRef spec3 3))
          ∗ ((c.tc : Thread nD τ).loc (Pipeline.arrRef spec3 4) ↦{fullShare} Vb (Pipeline.arrRef spec3 4))
          ∗ ((c.tc : Thread nD τ).loc (Pipeline.arrRef spec3 5) ↦{fullShare} Vb (Pipeline.arrRef spec3 5))) := by
    unfold Dat.arrays
    rw [bigSep_W3, e0, e1, e2, e3, e4, e5, h0, h1, h2, h3, h4, h5]
  rw [hL, hR]
  constructor
  · iintro ⟨H0, H1, H3, H4, H5⟩
    ihave H12 := (pointsTo_share (PosShare.mem_left_op_right fullShare)).1 $$ H1
    icases H12 with ⟨H1, H2⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    isplitl [H0]; · iexact H0
    isplitl [H1 H2]
    · iapply (pointsTo_share (PosShare.mem_left_op_right fullShare)).2
      isplitl [H1]; · iexact H1
      iexact H2
    isplitl [H3]; · iexact H3
    isplitl [H4]; · iexact H4
    iexact H5

theorem unscopedBufs3_split (a : (pcfg3 (F := F)).Adm) (c : Dev nD) (Vb : (b : Ref sig .tc) → Buf (Elt F) ((c.tc : Thread nD τ).loc b)) :
    (unscopedBufs c Vb : sProp 𝕄) = iprop(Pipeline.arrBufs spec3 c Vb ∗ Pipeline.unscopedRest spec3 c Vb) :=
  Pipeline.unscopedBufs_split₀ (fun _ : Unit => cfg3 a) () winFacts₀3.arr_unscoped c Vb

variable (a : (pcfg3 (F := F)).Adm)
variable (V : (c : Dev nD) → (b : Ref sig .tc) → Buf (Elt F) ((c : Thread nD τ).loc b))

theorem arrays3_equiv (c : Dev nD) (Vb : (b : Ref sig .tc) → Buf (Elt F) ((c.tc : Thread nD τ).loc b)) :
    (Pipeline.arrBufs spec3 c Vb : sProp 𝕄) ⊣⊢ (dat3 a V c).arrays fun w => Vb (Pipeline.arrRef spec3 w) :=
  arrays3_equiv_of a (dat3 a V c) (share3_0 a V c) (share3_1 a V c) (share3_2 a V c) (share3_3 a V c) (share3_4 a V c)
    (share3_5 a V c) Vb

theorem arrAt3_zero (c : Dev nD) : ((dat3 a V c).arrAt · 0) = fun w => V c (Pipeline.arrRef spec3 w) :=
  funext fun w => A_eq3 a V c w

theorem entry3 (c : Dev nD) (htbl : ∀ k, V c (pre3.ref k) = a.1 k) :
    (unscopedBufs c (V c) : sProp 𝕄)
      ⊢ iprop((dat3 a V c).arrays ((dat3 a V c).arrAt · 0) ∗ Pipeline.prefHeld pre3 c (fun _ => fullShare) a.1
          ∗ Pipeline.unscopedRestP pre3 spec3 c (V c)) := by
  have ht : (fun k => V c (pre3.ref k)) = a.1 := funext htbl
  rw [unscopedBufs3_split a c (V c), Pipeline.unscopedRest_split preFacts3 c (V c), ht, arrAt3_zero a V c]
  exact sep_mono (arrays3_equiv a V c (V c)).1 .rfl

theorem exit3 (c : Dev nD) (htbl : ∀ k, V c (pre3.ref k) = a.1 k)
    (V' : (b : Ref sig .tc) → Buf (Elt F) ((c.tc : Thread nD τ).loc b))
    (hF : ∀ w, (dat3 a V c).arrAt w (cfg3 a).N = V' (Pipeline.arrRef spec3 w))
    (hrest : ∀ b, b ∉ Finset.univ.image (Pipeline.arrRef spec3) → V' b = V c b) :
    iprop((dat3 a V c).arrays ((dat3 a V c).arrAt · (cfg3 a).N) ∗ Pipeline.prefHeld pre3 c (fun _ => fullShare) a.1
        ∗ Pipeline.unscopedRestP pre3 spec3 c (V c))
      ⊢ (unscopedBufs c V' : sProp 𝕄) := by
  have hrest' : (Pipeline.unscopedRest spec3 c V' : sProp 𝕄) = Pipeline.unscopedRest spec3 c (V c) := by
    unfold Pipeline.unscopedRest
    exact bigSep_congr fun b hb => by rw [hrest b (Finset.mem_sdiff.mp hb).2]
  have ht : (fun k => V c (pre3.ref k)) = a.1 := funext htbl
  have hN : ((dat3 a V c).arrAt · (cfg3 a).N) = fun w => V' (Pipeline.arrRef spec3 w) := funext hF
  rw [unscopedBufs3_split a c V', hrest', Pipeline.unscopedRest_split preFacts3 c (V c), ht, hN]
  exact sep_mono (arrays3_equiv a V c V').2 .rfl

abbrev Vof (W : Dev nD → Valuation τ sig (Elt F)) : (c : Dev nD) → (b : Ref sig .tc) → Buf (Elt F) ((c : Thread nD τ).loc b) :=
  fun c b => W c b

abbrev R3 (c : Dev nD) : sProp 𝕄 := iprop((∃ r, prngReg c r) ∗ ∃ W, owes (c : Thread nD τ) (0 : CellTallies nD τ sig Unit) W)

set_option backward.isDefEq.respectTransparency.types false in

def reg3_of (adm : (p : Fin 4) → (pcfgs (F := F) p).Adm)
    (pdats : (p : Fin 4) → (c : Dev nD) → Dat τ (Elt F) Unit ℕ (UR sig nD τ) ℕ (Pipeline.pin (pcfgs (F := F)) adm p) c)
    (Win Wout : Dev nD → Valuation τ sig (Elt F))
    (hp : ∀ c, pdats 3 c = dat3 (adm 3) (Vof Win) c)
    (htbl : ∀ c k, Vof Win c (pre3.ref k) = (adm 3).1 k)
    (hF : ∀ c w, (dat3 (adm 3) (Vof Win) c).arrAt w (cfg3 (adm 3)).N = Vof Wout c (Pipeline.arrRef spec3 w))
    (hrest : ∀ c (b : Ref sig .tc), b ∉ Finset.univ.image (Pipeline.arrRef spec3) → Vof Wout c b = Vof Win c b) :
    Pipeline.RegionSeg (pcfgs (F := F)) adm pdats () defs₀ Variants.none (fun _ => ∅) (fun _ _ => 0) 3 where
  win := winFacts₀3
  block_pos := block_pos3
  stage_whole := stage_whole3
  K := PEmpty
  osem k := k.elim
  ho := Pipeline.OwnSemFacts.none _
  hbody c := by rw [hp c]; exact (body_obligation3 (adm 3) (Vof Win) c).loose
  hwaits := Pipeline.hwaits_of_owed_zero _ _ _ _ _ _ 3 fun c t => by rw [hp c]; rfl
  pre c := iprop(StableHlo.held (c : Thread nD τ) (Pipeline.ucRefs τ sig) (Win c) ∗ R3 c)
  post c := iprop(StableHlo.held (c : Thread nD τ) (Pipeline.ucRefs τ sig) (Wout c) ∗ R3 c)
  X c := iprop(∃ r, prngReg c r)
  Y c := iprop((∃ r, prngReg c r) ∗ Pipeline.prefHeld pre3 c (fun _ => fullShare) (adm 3).1)
  Z c := Pipeline.unscopedRestP pre3 spec3 c (Vof Win c)
  hentry c := by
    rw [Pipeline.ownSems0_none, hp c]
    have hsplit := entry3 (adm 3) (Vof Win) c (htbl c)
    rw [Pipeline.unscopedBufs_held] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c, Φ_eq3]; unfold Pipeline.ΦA
    iintro ⟨Hp, Ht, Hr⟩
    isplitl [Hr Hp]
    · isplitl [Hr]; · iexact Hr
      iexact Hp
    iexact Ht
  hout c := by
    rw [Pipeline.ownSems0_none, hp c, Φ_eq3]; unfold Pipeline.ΦA
    iintro ⟨⟨Hr, Hp⟩, Ht⟩
    isplitl [Hp Ht]
    · isplitl [Hp]; · iexact Hp
      iexact Ht
    isplitr; · iempintro
    iexact Hr
  hexit c := by
    rw [hp c]
    have hjoin := exit3 (adm 3) (Vof Win) c (htbl c) (Vof Wout c) (hF c) (hrest c)
    rw [Pipeline.unscopedBufs_held] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

variable (adm : (p : Fin 4) → (pcfgs (F := F) p).Adm)
  (pdats : (p : Fin 4) → (c : Dev nD) → Dat τ (Elt F) Unit ℕ (UR sig nD τ) ℕ (Pipeline.pin (pcfgs (F := F)) adm p) c)
  (Win Wout : Dev nD → Valuation τ sig (Elt F))
  (hp : ∀ c, pdats 3 c = dat3 (adm 3) (Vof Win) c)
  (htbl : ∀ c k, Vof Win c (pre3.ref k) = (adm 3).1 k)
  (hF : ∀ c w, (dat3 (adm 3) (Vof Win) c).arrAt w (cfg3 (adm 3)).N = Vof Wout c (Pipeline.arrRef spec3 w))
  (hrest : ∀ c (b : Ref sig .tc), b ∉ Finset.univ.image (Pipeline.arrRef spec3) → Vof Wout c b = Vof Win c b)

theorem reg3_of_pre (c : Dev nD) : (reg3_of adm pdats Win Wout hp htbl hF hrest).pre c
    = iprop(StableHlo.held (c : Thread nD τ) (Pipeline.ucRefs τ sig) (Win c) ∗ R3 c) := rfl

theorem reg3_of_post (c : Dev nD) : (reg3_of adm pdats Win Wout hp htbl hF hrest).post c
    = iprop(StableHlo.held (c : Thread nD τ) (Pipeline.ucRefs τ sig) (Wout c) ∗ R3 c) := rfl

end Cert.KernelIdeal.Hand

end
-- ==== Proof.KIFrame3.lean ====
import proofs.«404336_j13099650253234_2_alg».proof.Proof.KIFrame
import proofs.«404336_j13099650253234_2_alg».proof.Proof.KIReg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ) (a3 : (pcfg3 (F := F)).Adm)

def reg3 (htbl : ∀ c k, V7 m (outsC m) c (pre3.ref k) = a3.1 k) :
    Pipeline.RegionSeg (pcfgs (F := F)) (adm a3) (pdats m a3) () defs₀ 𝒱₀ L lv 3 :=
  reg3_of (adm a3) (pdats m a3) (V7 m (outsC m)) (V8 m (outs m a3)) (fun _ => rfl) htbl (hF3 m a3) (hrest3 m a3)

theorem run_val (ρ : Dev nD → PrngReg) (htbl : ∀ c k, V7 m (outsC m) c (pre3.ref k) = a3.1 k) :
    θ_run defs (onTc (τ := τ) (main (F := F))) ⟨m, fun _ => 0, ρ⟩ (fun r => ∀ c : Dev nD,
      r.2.mem ((c.tc : Thread nD τ).loc main_v49) = V9 m (outs m a3) c main_v49
      ∧ r.2.mem ((c.tc : Thread nD τ).loc main_v50) = V9 m (outs m a3) c main_v50
      ∧ r.2.mem ((c.tc : Thread nD τ).loc main_v51) = V9 m (outs m a3) c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  run_val_of m a3 ρ (reg3 m a3 htbl)
    (fun c => by
      rw [V7_outs m a3 c, show (reg3 m a3 htbl).pre c = _ from reg3_of_pre _ _ _ _ _ _ _ _ c])
    (fun c => by
      rw [show (reg3 m a3 htbl).post c = _ from reg3_of_post _ _ _ _ _ _ _ _ c])

end Cert.KernelIdeal.Hand

end
-- ==== Proof.KITables.lean ====
import proofs.«404336_j13099650253234_2_alg».proof.Proof.KIGather3
import proofs.«404336_j13099650253234_2_alg».proof.Proof.KIRegions

set_option maxRecDepth 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

def adm3
    (h0 : ∀ i : S4096.Idx, ((m (((0 : Dev nD) : Thread nD τ).loc main_arg0) : IVec S4096 32) i).toNat < 100000)
    (h1 : ∀ i : S4096.Idx, ((m (((0 : Dev nD) : Thread nD τ).loc main_arg1) : IVec S4096 32) i).toNat < 50000)
    (h2 : ∀ i : S4096.Idx, ((m (((0 : Dev nD) : Thread nD τ).loc main_arg2) : IVec S4096 32) i).toNat < 50000) :
    (pcfg3 (F := F)).Adm :=
  ⟨fun k => m (((0 : Dev nD) : Thread nD τ).loc (pre3.ref k)), ok3_of_ranges _ h0 h1 h2⟩

theorem adm3_tbl
    (h0 : ∀ i : S4096.Idx, ((m (((0 : Dev nD) : Thread nD τ).loc main_arg0) : IVec S4096 32) i).toNat < 100000)
    (h1 : ∀ i : S4096.Idx, ((m (((0 : Dev nD) : Thread nD τ).loc main_arg1) : IVec S4096 32) i).toNat < 50000)
    (h2 : ∀ i : S4096.Idx, ((m (((0 : Dev nD) : Thread nD τ).loc main_arg2) : IVec S4096 32) i).toNat < 50000)
    (outs : Outs (F := F)) (c : Dev nD) (k : Fin 3) :
    V7 m outs c (pre3.ref k) = (adm3 m h0 h1 h2).1 k := by
  obtain rfl : c = (0 : Dev nD) := Subsingleton.elim _ _
  match k with
  | 0 =>
    exact (V7_of m outs 0 main_arg0 (by decide)).trans <| (V6_of m outs 0 main_arg0 (by decide)).trans <|
      (V5_of m outs 0 main_arg0 (by decide)).trans <| (V4_of m outs 0 main_arg0 (by decide)).trans <|
      (V3_of m outs 0 main_arg0 (by decide)).trans <| (V2_of m outs 0 main_arg0 (by decide)).trans <|
      (V1_of m 0 main_arg0 (by decide)).trans rfl
  | 1 =>
    exact (V7_of m outs 0 main_arg1 (by decide)).trans <| (V6_of m outs 0 main_arg1 (by decide)).trans <|
      (V5_of m outs 0 main_arg1 (by decide)).trans <| (V4_of m outs 0 main_arg1 (by decide)).trans <|
      (V3_of m outs 0 main_arg1 (by decide)).trans <| (V2_of m outs 0 main_arg1 (by decide)).trans <|
      (V1_of m 0 main_arg1 (by decide)).trans rfl
  | 2 =>
    exact (V7_of m outs 0 main_arg2 (by decide)).trans <| (V6_of m outs 0 main_arg2 (by decide)).trans <|
      (V5_of m outs 0 main_arg2 (by decide)).trans <| (V4_of m outs 0 main_arg2 (by decide)).trans <|
      (V3_of m outs 0 main_arg2 (by decide)).trans <| (V2_of m outs 0 main_arg2 (by decide)).trans <|
      (V1_of m 0 main_arg2 (by decide)).trans rfl

theorem adm3_0
    (h0 : ∀ i : S4096.Idx, ((m (((0 : Dev nD) : Thread nD τ).loc main_arg0) : IVec S4096 32) i).toNat < 100000)
    (h1 : ∀ i : S4096.Idx, ((m (((0 : Dev nD) : Thread nD τ).loc main_arg1) : IVec S4096 32) i).toNat < 50000)
    (h2 : ∀ i : S4096.Idx, ((m (((0 : Dev nD) : Thread nD τ).loc main_arg2) : IVec S4096 32) i).toNat < 50000)
    (c : Dev nD) :
    (adm3 m h0 h1 h2).1 0 = m ((c : Thread nD τ).loc main_arg0) := by
  obtain rfl : c = (0 : Dev nD) := Subsingleton.elim _ _
  rfl

theorem adm3_1
    (h0 : ∀ i : S4096.Idx, ((m (((0 : Dev nD) : Thread nD τ).loc main_arg0) : IVec S4096 32) i).toNat < 100000)
    (h1 : ∀ i : S4096.Idx, ((m (((0 : Dev nD) : Thread nD τ).loc main_arg1) : IVec S4096 32) i).toNat < 50000)
    (h2 : ∀ i : S4096.Idx, ((m (((0 : Dev nD) : Thread nD τ).loc main_arg2) : IVec S4096 32) i).toNat < 50000)
    (c : Dev nD) :
    (adm3 m h0 h1 h2).1 1 = m ((c : Thread nD τ).loc main_arg1) := by
  obtain rfl : c = (0 : Dev nD) := Subsingleton.elim _ _
  rfl

theorem adm3_2
    (h0 : ∀ i : S4096.Idx, ((m (((0 : Dev nD) : Thread nD τ).loc main_arg0) : IVec S4096 32) i).toNat < 100000)
    (h1 : ∀ i : S4096.Idx, ((m (((0 : Dev nD) : Thread nD τ).loc main_arg1) : IVec S4096 32) i).toNat < 50000)
    (h2 : ∀ i : S4096.Idx, ((m (((0 : Dev nD) : Thread nD τ).loc main_arg2) : IVec S4096 32) i).toNat < 50000)
    (c : Dev nD) :
    (adm3 m h0 h1 h2).1 2 = m ((c : Thread nD τ).loc main_arg2) := by
  obtain rfl : c = (0 : Dev nD) := Subsingleton.elim _ _
  rfl

end Cert.KernelIdeal.Hand

end
-- ==== Proof.LibCat4.lean ====
import Idealize.ShloMosaic.Lib.Pipeline.Value
import Idealize.ShloMosaic.Lib.ValueIdx

noncomputable section

namespace Cert.LibCat4

open Idealize.ShloMosaic Idealize.ShloMosaic.ValueIdx

variable {α : Type} {n w₁ w₂ w₃ w₄ w : Nat}
variable (x₁ : (⟨2, ![n, w₁]⟩ : Shape).Idx → α) (x₂ : (⟨2, ![n, w₂]⟩ : Shape).Idx → α)
variable (x₃ : (⟨2, ![n, w₃]⟩ : Shape).Idx → α) (x₄ : (⟨2, ![n, w₄]⟩ : Shape).Idx → α)
variable (h : Shape.Concatenates [(⟨2, ![n, w₁]⟩ : Shape), ⟨2, ![n, w₂]⟩, ⟨2, ![n, w₃]⟩, ⟨2, ![n, w₄]⟩] ⟨2, ![n, w]⟩ 1)

private theorem off_axis (p : Fin n) {u : Nat} (q : Fin u) (j : Fin w) (b : Fin 2) (hb : b ≠ 1) :
    ((ix2 p q : (⟨2, ![n, u]⟩ : Shape).Idx) b).val = ((ix2 p j : (⟨2, ![n, w]⟩ : Shape).Idx) b).val := by
  match b with
  | ⟨0, _⟩ => rfl
  | ⟨1, _⟩ => exact absurd rfl hb

theorem cat4_first (p : Fin n) (q : Fin w₁) (j : Fin w) (hj : j.val = q.val) :
    concatenate ⟨2, ![n, w]⟩ 1 [⟨⟨2, ![n, w₁]⟩, x₁⟩, ⟨⟨2, ![n, w₂]⟩, x₂⟩, ⟨⟨2, ![n, w₃]⟩, x₃⟩, ⟨⟨2, ![n, w₄]⟩, x₄⟩] h (ix2 p j) = x₁ (ix2 p q) :=
  concatenate_apply_piece (t := ⟨2, ![n, w]⟩) 1 [⟨⟨2, ![n, w₁]⟩, x₁⟩, ⟨⟨2, ![n, w₂]⟩, x₂⟩, ⟨⟨2, ![n, w₃]⟩, x₃⟩, ⟨⟨2, ![n, w₄]⟩, x₄⟩] h (ix2 p j) 0 (by show 0 < 4; omega) _ x₁ rfl rfl 0 rfl (ix2 p q)
    (fun b hb => off_axis p q j b hb) (by show 0 + q.val = j.val; omega)

theorem cat4_second (p : Fin n) (q : Fin w₂) (j : Fin w) (hj : j.val = w₁ + q.val) :
    concatenate ⟨2, ![n, w]⟩ 1 [⟨⟨2, ![n, w₁]⟩, x₁⟩, ⟨⟨2, ![n, w₂]⟩, x₂⟩, ⟨⟨2, ![n, w₃]⟩, x₃⟩, ⟨⟨2, ![n, w₄]⟩, x₄⟩] h (ix2 p j) = x₂ (ix2 p q) :=
  concatenate_apply_piece (t := ⟨2, ![n, w]⟩) 1 [⟨⟨2, ![n, w₁]⟩, x₁⟩, ⟨⟨2, ![n, w₂]⟩, x₂⟩, ⟨⟨2, ![n, w₃]⟩, x₃⟩, ⟨⟨2, ![n, w₄]⟩, x₄⟩] h (ix2 p j) 1 (by show 1 < 4; omega) _ x₂ rfl rfl w₁ (by simp [Shape.size]) (ix2 p q)
    (fun b hb => off_axis p q j b hb) (by show w₁ + q.val = j.val; omega)

theorem cat4_third (p : Fin n) (q : Fin w₃) (j : Fin w) (hj : j.val = w₁ + w₂ + q.val) :
    concatenate ⟨2, ![n, w]⟩ 1 [⟨⟨2, ![n, w₁]⟩, x₁⟩, ⟨⟨2, ![n, w₂]⟩, x₂⟩, ⟨⟨2, ![n, w₃]⟩, x₃⟩, ⟨⟨2, ![n, w₄]⟩, x₄⟩] h (ix2 p j) = x₃ (ix2 p q) :=
  concatenate_apply_piece (t := ⟨2, ![n, w]⟩) 1 [⟨⟨2, ![n, w₁]⟩, x₁⟩, ⟨⟨2, ![n, w₂]⟩, x₂⟩, ⟨⟨2, ![n, w₃]⟩, x₃⟩, ⟨⟨2, ![n, w₄]⟩, x₄⟩] h (ix2 p j) 2 (by show 2 < 4; omega) _ x₃ rfl rfl (w₁ + w₂) (by simp [Shape.size]) (ix2 p q)
    (fun b hb => off_axis p q j b hb) (by show w₁ + w₂ + q.val = j.val; omega)

theorem cat4_fourth (p : Fin n) (q : Fin w₄) (j : Fin w) (hj : j.val = w₁ + w₂ + w₃ + q.val) :
    concatenate ⟨2, ![n, w]⟩ 1 [⟨⟨2, ![n, w₁]⟩, x₁⟩, ⟨⟨2, ![n, w₂]⟩, x₂⟩, ⟨⟨2, ![n, w₃]⟩, x₃⟩, ⟨⟨2, ![n, w₄]⟩, x₄⟩] h (ix2 p j) = x₄ (ix2 p q) :=
  concatenate_apply_piece (t := ⟨2, ![n, w]⟩) 1 [⟨⟨2, ![n, w₁]⟩, x₁⟩, ⟨⟨2, ![n, w₂]⟩, x₂⟩, ⟨⟨2, ![n, w₃]⟩, x₃⟩, ⟨⟨2, ![n, w₄]⟩, x₄⟩] h (ix2 p j) 3 (by show 3 < 4; omega) _ x₄ rfl rfl (w₁ + w₂ + w₃) (by simp [Shape.size]; omega) (ix2 p q)
    (fun b hb => off_axis p q j b hb) (by show w₁ + w₂ + w₃ + q.val = j.val; omega)

end Cert.LibCat4

end
-- ==== Proof.LibDot.lean ====
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.LibRow2.lean ====
import Idealize.ShloMosaic.PureOps.Reduce
import Idealize.ShloMosaic.PureOps.Ideal.Laws
import Idealize.ShloMosaic.Lib.ValueIdx
import Idealize.ShloMosaic.Lib.Pipeline.Value

noncomputable section

open scoped BigOperators

namespace Cert.LibRow2

open Idealize.ShloMosaic Idealize.ShloMosaic.ValueIdx

variable {a b : Nat}

theorem lift_last (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

variable {α : Type}

end Cert.LibRow2

end
-- ==== Proof.LibColumn.lean ====
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn

end
-- ==== Proof.DenseMath.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«404336_j13099650253234_2_alg».proof.Proof.LibDot
import proofs.«404336_j13099650253234_2_alg».proof.Proof.LibRow2
import proofs.«404336_j13099650253234_2_alg».proof.Proof.LibColumn
import proofs.«404336_j13099650253234_2_alg».proof.Proof.Gen.KernelIdeal.Skeleton
import proofs.«404336_j13099650253234_2_alg».proof.ReferenceIdeal

noncomputable section

open scoped BigOperators

namespace Cert.DenseMath

open Idealize.ShloMosaic Idealize.ShloMosaic.ValueIdx

abbrev c02 : EReal := Ideal.ofBits .f32 0x3E4CCCCD#32

abbrev eps : EReal := Ideal.ofBits .f32 0x2B8CBCCC#32

def leaky (x : EReal) : EReal := Scalar.select (Ideal.cmp .oge x 0) x (x * c02)

def rowNew (e s : Fin 64 → EReal) (wgc : Fin 64 → Fin 64 → EReal) (bgc : Fin 64 → EReal)
    (wbi : Fin 64 → Fin 64 → EReal) (bbi : Fin 64 → EReal) (q : Fin 64) : EReal :=
  leaky (((∑ k, s k * wgc k q) + bgc q) + ((∑ k, (e k * s k) * wbi k q) + bbi q))

theorem rowNew_of_pre (e s : Fin 64 → EReal) (wgc : Fin 64 → Fin 64 → EReal) (bgc : Fin 64 → EReal)
    (wbi : Fin 64 → Fin 64 → EReal) (bbi : Fin 64 → EReal) (q : Fin 64) (x : EReal)
    (hx : x = ((∑ k, s k * wgc k q) + bgc q) + ((∑ k, (e k * s k) * wbi k q) + bbi q)) :
    Scalar.select (Ideal.cmp .oge x (Ideal.ofBits .f32 0x00000000#32)) x (x * c02) = rowNew e s wgc bgc wbi bbi q := by
  subst hx
  rw [Ideal.ofBits_zero_f32]
  rfl

def rowNormed (v : Fin 64 → EReal) (q : Fin 64) : EReal :=
  Ideal.div (v q) (max (Ideal.sqrt (∑ j, v j * v j)) eps)

section HostLayout

variable {α : Type}

theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (hu : 0 < (⟨0, ![]⟩ : Shape).numel) (r : Fin a) :
    Host.reduceAdd x init h' hu (ix1 r) = init ix0 + ∑ k : Fin b, x (ix2 r k) := by
  have h : (⟨2, ![a, b]⟩ : Shape).Reduces [1] ⟨1, ![a]⟩ := ⟨h'.1, Nat.one_pos, h'.2⟩
  rw [hostReduceAdd_apply, Ideal.hostReduceAdd_single h' h, eq_ix0 (Shape.Idx.first hu)]
  exact congrArg (init ix0 + ·) (Finset.sum_congr rfl fun k _ => congrArg x (Cert.LibRow2.lift_last h r k))

theorem hostSqrt_apply {s : Shape} {φ : FTy} (x : FVec Ideal s φ) (i : s.Idx) : Host.sqrt x i = Ideal.sqrt (x i) := rfl

end HostLayout

section Kernel

open Cert.KernelIdeal

theorem kernel_pre_apply (x0 x1 : FVec Ideal S3000x64 .f32) (x2 x4 : FVec Ideal S64x64 .f32) (x3 x5 : FVec Ideal S1x64 .f32)
    (p : Fin 3000) (q : Fin 64) :
    matmul dot_S3000x64_S64x64_S3000x64_1_0_0_1_n_n none
          (truncf FTy.bf16 (shapeCast S3000x64 x1 Gen.shapeCasts_S3000x64_S3000x64) Gen.bitsLt_bf16_f32)
          (truncf FTy.bf16 x2 Gen.bitsLt_bf16_f32) (constant S3000x64 FTy.f32 0x00000000#32) (ix2 p q) +
        broadcastTo S3000x64 x3 Gen.broadcasts_S1x64_S3000x64 (ix2 p q) +
      (matmul dot_S3000x64_S64x64_S3000x64_1_0_0_1_n_n none
          (truncf FTy.bf16
            (mulf (shapeCast S3000x64 x0 Gen.shapeCasts_S3000x64_S3000x64)
              (shapeCast S3000x64 x1 Gen.shapeCasts_S3000x64_S3000x64))
            Gen.bitsLt_bf16_f32)
          (truncf FTy.bf16 x4 Gen.bitsLt_bf16_f32) (constant S3000x64 FTy.f32 0x00000000#32) (ix2 p q) +
        broadcastTo S3000x64 x5 Gen.broadcasts_S1x64_S3000x64 (ix2 p q))
    = ((∑ k : Fin 64, x1 (ix2 p k) * x2 (ix2 k q)) + x3 (ix2 (0 : Fin 1) q))
      + ((∑ k : Fin 64, (x0 (ix2 p k) * x1 (ix2 p k)) * x4 (ix2 k q)) + x5 (ix2 (0 : Fin 1) q)) := by
  rw [Cert.LibDot.matmul_plain_apply dot_S3000x64_S64x64_S3000x64_1_0_0_1_n_n rfl rfl rfl rfl rfl rfl none _ _ p q,
    Cert.LibDot.matmul_plain_apply dot_S3000x64_S64x64_S3000x64_1_0_0_1_n_n rfl rfl rfl rfl rfl rfl none _ _ p q,
    broadcastTo_1b_ab_apply x3 Gen.broadcasts_S1x64_S3000x64 p q, broadcastTo_1b_ab_apply x5 Gen.broadcasts_S1x64_S3000x64 p q]
  simp only [truncf_apply, mulf_apply, shapeCast_self]

theorem k0_pay1_apply (x0 x1 : FVec Ideal S3000x64 .f32) (x2 x4 : FVec Ideal S64x64 .f32) (x3 x5 : FVec Ideal S1x64 .f32)
    (p : Fin 3000) (q : Fin 64) :
    Cert.KernelIdeal.Gen.k0_pay1 (F := Ideal) x0 x1 x2 x4 x3 x5 (ix2 p q)
      = rowNew (fun k => x0 (ix2 p k)) (fun k => x1 (ix2 p k)) (fun k j => x2 (ix2 k j)) (fun j => x3 (ix2 (0 : Fin 1) j))
          (fun k j => x4 (ix2 k j)) (fun j => x5 (ix2 (0 : Fin 1) j)) q := by
  unfold Cert.KernelIdeal.Gen.k0_pay1
  simp only [select_apply, cmpf_apply, mulf_apply, addf_apply, broadcast_apply]
  exact rowNew_of_pre _ _ _ _ _ _ q _ (kernel_pre_apply x0 x1 x2 x4 x3 x5 p q)

theorem kernel_normed_apply (P : FVec Ideal S3000x64 .f32) (p : Fin 3000) (q : Fin 64) :
    divf P (broadcastTo S3000x64
        (maximumf (sqrt (shapeCast S3000x1
            (multiReduction .add [1] S3000 (mulf P P) 0x00000000#32 Gen.reduces_S3000x64_S3000 (.inl rfl) rfl)
            Gen.shapeCasts_S3000_S3000x1))
          (broadcast S3000x1 (Scalar.ofBits .f32 0x2B8CBCCC#32)))
        Gen.broadcasts_S3000x1_S3000x64) (ix2 p q)
      = rowNormed (fun j => P (ix2 p j)) q := by
  have hsum : multiReduction .add [1] S3000 (mulf P P) 0x00000000#32 Gen.reduces_S3000x64_S3000 (.inl rfl) rfl (ix1 p)
      = ∑ k : Fin 64, P (ix2 p k) * P (ix2 p k) :=
    Cert.LibRow2.rowSum_apply (mulf P P) 0x00000000#32 Gen.reduces_S3000x64_S3000 (.inl rfl) rfl p
  rw [divf_apply, Cert.LibColumn.broadcastTo_a1_ab_apply _ Gen.broadcasts_S3000x1_S3000x64 p q, maximumf_apply, broadcast_apply]
  show Ideal.div (P (ix2 p q))
      (max (Ideal.sqrt (shapeCast S3000x1 _ Gen.shapeCasts_S3000_S3000x1 (ix2 p (0 : Fin 1)))) eps) = _
  rw [Cert.LibColumn.shapeCast_a_a1_apply _ Gen.shapeCasts_S3000_S3000x1 p 0, hsum]
  rfl

theorem k0_pay2_apply (x0 x1 : FVec Ideal S3000x64 .f32) (x2 x4 : FVec Ideal S64x64 .f32) (x3 x5 : FVec Ideal S1x64 .f32)
    (p : Fin 3000) (q : Fin 64) :
    Cert.KernelIdeal.Gen.k0_pay2 (F := Ideal) x0 x1 x2 x4 x3 x5 (ix2 p q)
      = rowNormed (fun j => Cert.KernelIdeal.Gen.k0_pay1 (F := Ideal) x0 x1 x2 x4 x3 x5 (ix2 p j)) q :=
  kernel_normed_apply (Cert.KernelIdeal.Gen.k0_pay1 (F := Ideal) x0 x1 x2 x4 x3 x5) p q

end Kernel

section Reference

open Cert.ReferenceIdeal Cert.ReferenceIdeal.Facts₀

variable [Cert.ReferenceIdeal.Facts]

def refPre (ego side : FVec Ideal S150000x64 .f32) (wgc : FVec Ideal S64x64 .f32) (bgc : FVec Ideal S1x64 .f32)
    (wbi : FVec Ideal S64x64 .f32) (bbi : FVec Ideal S1x64 .f32) : FVec Ideal S150000x64 .f32 :=
  addf
    (addf (Host.dotGeneral (F := Ideal) dot_S150000x64_S64x64_S150000x64_1_0_0_1_n_n none side wgc)
      (broadcastInDim S150000x64 ![0, 1] bcast_S1x64_S150000x64_0_1 bgc))
    (addf (Host.dotGeneral (F := Ideal) dot_S150000x64_S64x64_S150000x64_1_0_0_1_n_n none (mulf ego side) wbi)
      (broadcastInDim S150000x64 ![0, 1] bcast_S1x64_S150000x64_0_1 bbi))

def refLeaky (x : FVec Ideal S150000x64 .f32) : FVec Ideal S150000x64 .f32 :=
  select
    (cmpf .oge x (broadcastInDim S150000x64 ![] bcast_S_S150000x64 (constant (F := Ideal) S_ .f32 0x00000000#32)))
    x
    (mulf (broadcastInDim S150000x64 ![] bcast_S_S150000x64 (id (constant (F := Ideal) S_ .f32 0x3E4CCCCD#32))) x)

def refNew (ego side : FVec Ideal S150000x64 .f32) (wgc : FVec Ideal S64x64 .f32) (bgc : FVec Ideal S1x64 .f32)
    (wbi : FVec Ideal S64x64 .f32) (bbi : FVec Ideal S1x64 .f32) : FVec Ideal S150000x64 .f32 :=
  refLeaky (refPre ego side wgc bgc wbi bbi)

def refNormed (x : FVec Ideal S150000x64 .f32) : FVec Ideal S150000x64 .f32 :=
  Host.divf (F := Ideal) x
    (broadcastInDim S150000x64 ![0, 1] bcast_S150000x1_S150000x64_0_1
      (maximumf
        (Host.sqrt (F := Ideal)
          (broadcastInDim S150000x1 ![0] bcast_S150000_S150000x1_0
            (Host.reduceAdd (F := Ideal) (mulf x x) (constant (F := Ideal) S_ .f32 0x00000000#32)
              reducesTo_S150000x64_S150000_d1 h_S_)))
        (broadcastInDim S150000x1 ![] bcast_S_S150000x1 (constant (F := Ideal) S_ .f32 0x2B8CBCCC#32))))

theorem refPre_apply (ego side : FVec Ideal S150000x64 .f32) (wgc : FVec Ideal S64x64 .f32) (bgc : FVec Ideal S1x64 .f32)
    (wbi : FVec Ideal S64x64 .f32) (bbi : FVec Ideal S1x64 .f32) (r : Fin 150000) (q : Fin 64) :
    refPre ego side wgc bgc wbi bbi (ix2 r q)
      = ((∑ k : Fin 64, side (ix2 r k) * wgc (ix2 k q)) + bgc (ix2 (0 : Fin 1) q))
        + ((∑ k : Fin 64, (ego (ix2 r k) * side (ix2 r k)) * wbi (ix2 k q)) + bbi (ix2 (0 : Fin 1) q)) := by
  unfold refPre
  rw [addf_apply, addf_apply, addf_apply,
    Cert.LibDot.dotGeneral_plain_apply dot_S150000x64_S64x64_S150000x64_1_0_0_1_n_n rfl rfl rfl rfl rfl rfl none _ _ r q,
    Cert.LibDot.dotGeneral_plain_apply dot_S150000x64_S64x64_S150000x64_1_0_0_1_n_n rfl rfl rfl rfl rfl rfl none _ _ r q,
    broadcastInDim_1b_ab_apply bgc bcast_S1x64_S150000x64_0_1 r q, broadcastInDim_1b_ab_apply bbi bcast_S1x64_S150000x64_0_1 r q]
  simp only [mulf_apply]

theorem refNew_apply (ego side : FVec Ideal S150000x64 .f32) (wgc : FVec Ideal S64x64 .f32) (bgc : FVec Ideal S1x64 .f32)
    (wbi : FVec Ideal S64x64 .f32) (bbi : FVec Ideal S1x64 .f32) (r : Fin 150000) (q : Fin 64) :
    refNew ego side wgc bgc wbi bbi (ix2 r q)
      = rowNew (fun k => ego (ix2 r k)) (fun k => side (ix2 r k)) (fun k j => wgc (ix2 k j)) (fun j => bgc (ix2 (0 : Fin 1) j))
          (fun k j => wbi (ix2 k j)) (fun j => bbi (ix2 (0 : Fin 1) j)) q := by
  unfold refNew refLeaky
  rw [select_apply, cmpf_apply, mulf_apply, broadcastInDim_scalar_apply, broadcastInDim_scalar_apply, id, constant_apply,
    constant_apply, mul_comm]
  exact rowNew_of_pre _ _ _ _ _ _ q _ (refPre_apply ego side wgc bgc wbi bbi r q)

theorem refNormed_apply (x : FVec Ideal S150000x64 .f32) (r : Fin 150000) (q : Fin 64) :
    refNormed x (ix2 r q) = rowNormed (fun j => x (ix2 r j)) q := by
  unfold refNormed
  rw [hostDivf_apply, broadcastInDim_a1_ab_apply _ bcast_S150000x1_S150000x64_0_1 r q, maximumf_apply,
    broadcastInDim_scalar_apply, constant_apply, hostSqrt_apply, broadcastInDim_a_a1_apply _ bcast_S150000_S150000x1_0 r 0,
    hostRowSum_apply, constant_apply, Ideal.ofBits_zero_f32, zero_add]
  simp only [mulf_apply]
  rfl

end Reference

end Cert.DenseMath

end
-- ==== Proof.LibGatherRow.lean ====
import Idealize.ShloMosaic.Lib.ValueIdx

namespace Cert.LibGatherRow

open Idealize.ShloMosaic Idealize.ShloMosaic.ValueIdx

variable {α : Type}

def clampRow (N : Nat) (hN : 0 < N) {w : Nat} (v : BitVec w) : Fin N := ⟨min v.toInt.toNat (N - 1), by omega⟩

theorem clampRow_val (N : Nat) (hN : 0 < N) {w : Nat} (v : BitVec w) :
    (clampRow N hN v).val = min v.toInt.toNat (N - 1) := rfl

theorem gather_row2 {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (b : Fin R) (e : Fin C) :
    Host.gather d x idx (ix2 b e) = x (ix2 (clampRow N hN (idx (ix2 b 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>

    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b 0)).toInt.toNat (N - 1)
    rw [hsl]

    refine congrArg (fun v => min (idx v).toInt.toNat (N - 1)) ?_
    funext q
    refine Fin.ext ?_
    match q with
    | ⟨0, _⟩ => rfl
    | ⟨1, _⟩ => rfl
  | ⟨1, _⟩ =>

    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

end Cert.LibGatherRow
-- ==== Proof.GatherMath.lean ====
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import proofs.«404336_j13099650253234_2_alg».proof.Proof.LibGatherRow
import proofs.«404336_j13099650253234_2_alg».proof.ReferenceIdeal

noncomputable section

namespace Cert.GatherMath

open Idealize.ShloMosaic Idealize.ShloMosaic.ValueIdx

theorem slt_zero_of_small {a : BitVec 32} (ha : a.toNat < 2 ^ 31) : IntOp.cmpi .slt a 0#32 = 0#1 := by
  rcases BitVec.eq_zero_or_eq_one (IntOp.cmpi .slt a 0#32) with h | h
  · exact h
  · have hlt : a.toNat < (0#32 : BitVec 32).toNat :=
      (StableHlo.Predicate.slt_iff_toNat (a := a) (b := 0#32) ha (by decide)).1 h
    have h0 : (0#32 : BitVec 32).toNat = 0 := rfl
    omega

theorem clampRow_of_lt (N : Nat) (hN : 0 < N) (hN' : N ≤ 2 ^ 31) (a : BitVec 32) (ha : a.toNat < N) :
    Cert.LibGatherRow.clampRow N hN a = ⟨a.toNat, ha⟩ := by
  refine Fin.ext ?_
  rw [Cert.LibGatherRow.clampRow_val, StableHlo.Predicate.toInt_eq_toNat_of_lt (by omega), Int.toNat_natCast]
  show min a.toNat (N - 1) = a.toNat
  omega

section Column

variable {α : Type}

theorem column_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

theorem cmpi_apply {s : Shape} {w : ℕ} (p : CmpIPredicate) (x y : IVec s w) (i : s.Idx) :
    cmpi p x y i = IntOp.cmpi p (x i) (y i) := rfl

theorem wrap_apply {a : ℕ} (n : BitVec 32) (idx : IVec ⟨1, ![a]⟩ 32)
    (hz hn : (⟨0, ![]⟩ : Shape).BroadcastsInDim ⟨1, ![a]⟩ ![]) (i : (⟨1, ![a]⟩ : Shape).Idx) (hi : (idx i).toNat < 2 ^ 31) :
    select (cmpi .slt idx (broadcastInDim ⟨1, ![a]⟩ ![] hz (constantI ⟨0, ![]⟩ 32 0#32)))
        (addi idx (broadcastInDim ⟨1, ![a]⟩ ![] hn (constantI ⟨0, ![]⟩ 32 n))) idx i = idx i := by
  rw [select_apply, cmpi_apply, broadcastInDim_scalar_apply, constantI_apply, slt_zero_of_small hi, select_zero]

end Column

section Reference

open Cert.ReferenceIdeal Cert.ReferenceIdeal.Facts₀

variable [Cert.ReferenceIdeal.Facts]

def refGatherU (tab : FVec Ideal S100000x256 .f32) (idx : IVec S4096 32) : FVec Ideal S4096x256 .f32 :=
  Host.gather gather_S100000x256_S4096x1_S4096x256_1_0_n_n_0_1_1256 tab
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 100000#32))) idx))

def refGatherI (tab : FVec Ideal S50000x256 .f32) (idx : IVec S4096 32) : FVec Ideal S4096x256 .f32 :=
  Host.gather gather_S50000x256_S4096x1_S4096x256_1_0_n_n_0_1_1256 tab
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 50000#32))) idx))

theorem refGatherU_apply (tab : FVec Ideal S100000x256 .f32) (idx : IVec S4096 32)
    (h : ∀ i : S4096.Idx, (idx i).toNat < 100000) (i : Fin 4096) (j : Fin 256) :
    refGatherU tab idx (ix2 i j) = tab (ix2 ⟨(idx (ix1 i)).toNat, h _⟩ j) := by
  unfold refGatherU
  rw [Cert.LibGatherRow.gather_row2 (by decide : 0 < 100000) gather_S100000x256_S4096x1_S4096x256_1_0_n_n_0_1_1256
      rfl rfl rfl rfl rfl tab _ i j,
    column_apply _ bcast_S4096_S4096x1_0 i 0,
    wrap_apply 100000#32 idx bcast_S_S4096 bcast_S_S4096 (ix1 i) (by have := h (ix1 i); omega),
    clampRow_of_lt 100000 (by decide) (by decide) (idx (ix1 i)) (h _)]

theorem refGatherI_apply (tab : FVec Ideal S50000x256 .f32) (idx : IVec S4096 32)
    (h : ∀ i : S4096.Idx, (idx i).toNat < 50000) (i : Fin 4096) (j : Fin 256) :
    refGatherI tab idx (ix2 i j) = tab (ix2 ⟨(idx (ix1 i)).toNat, h _⟩ j) := by
  unfold refGatherI
  rw [Cert.LibGatherRow.gather_row2 (by decide : 0 < 50000) gather_S50000x256_S4096x1_S4096x256_1_0_n_n_0_1_1256
      rfl rfl rfl rfl rfl tab _ i j,
    column_apply _ bcast_S4096_S4096x1_0 i 0,
    wrap_apply 50000#32 idx bcast_S_S4096 bcast_S_S4096 (ix1 i) (by have := h (ix1 i); omega),
    clampRow_of_lt 50000 (by decide) (by decide) (idx (ix1 i)) (h _)]

end Reference

end Cert.GatherMath

end
-- ==== Proof.Spec.lean ====
import proofs.«404336_j13099650253234_2_alg».proof.ReferenceIdeal
import proofs.«404336_j13099650253234_2_alg».proof.Proof.DenseMath
import proofs.«404336_j13099650253234_2_alg».proof.Proof.GatherMath

noncomputable section

namespace Cert.Spec

open Cert.ReferenceIdeal Cert.ReferenceIdeal.Facts₀ Idealize.ShloMosaic

variable [Cert.ReferenceIdeal.Facts]

def ego (ue : FVec Ideal S100000x64 .f32) (ie : FVec Ideal S50000x64 .f32) : FVec Ideal S150000x64 .f32 :=
  concatenate S150000x64 0 [⟨S100000x64, ue⟩, ⟨S50000x64, ie⟩] concatenates_S100000x64_S50000x64_S150000x64_d0

def valsCol (vals : FVec Ideal S2400000 .f32) : FVec Ideal S2400000x1 .f32 :=
  broadcastInDim S2400000x1 ![0] bcast_S2400000_S2400000x1_0 vals

def valsWide (vals : FVec Ideal S2400000 .f32) : FVec Ideal S2400000x64 .f32 :=
  broadcastInDim S2400000x64 ![0, 1] bcast_S2400000x1_S2400000x64_0_1 (valsCol vals)

def wrapCols (cols : IVec S2400000 32) : IVec S2400000 32 :=
  select (cmpi .slt cols (broadcastInDim S2400000 ![] bcast_S_S2400000 (constantI S_ 32 0#32)))
    (addi cols (broadcastInDim S2400000 ![] bcast_S_S2400000 (constantI S_ 32 150000#32))) cols

def colIdx (cols : IVec S2400000 32) : IVec S2400000x1 32 :=
  broadcastInDim S2400000x1 ![0] bcast_S2400000_S2400000x1_0 (wrapCols cols)

def gathered (cols : IVec S2400000 32) (x : FVec Ideal S150000x64 .f32) : FVec Ideal S2400000x64 .f32 :=
  Host.gather gather_S150000x64_S2400000x1_S2400000x64_1_0_n_n_0_1_164 x (colIdx cols)

def contrib (cols : IVec S2400000 32) (vals : FVec Ideal S2400000 .f32) (x : FVec Ideal S150000x64 .f32) :
    FVec Ideal S2400000x64 .f32 :=
  mulf (valsWide vals) (gathered cols x)

def zeros : FVec Ideal S150000x64 .f32 :=
  broadcastInDim S150000x64 ![] bcast_S_S150000x64 (constant (F := Ideal) S_ .f32 0x00000000#32)

def rowIdx (rows : IVec S2400000 32) : IVec S2400000x1 32 :=
  broadcastInDim S2400000x1 ![0] bcast_S2400000_S2400000x1_0 rows

def spmm (rows cols : IVec S2400000 32) (vals : FVec Ideal S2400000 .f32) (x : FVec Ideal S150000x64 .f32) :
    FVec Ideal S150000x64 .f32 :=
  Host.scatterAdd (F := Ideal) scatter_S150000x64_S2400000x1_S2400000x64_1_0_0_1 zeros (rowIdx rows) (contrib cols vals x)

def layer (rows cols : IVec S2400000 32) (vals : FVec Ideal S2400000 .f32) (x : FVec Ideal S150000x64 .f32)
    (wgc : FVec Ideal S64x64 .f32) (bgc : FVec Ideal S1x64 .f32) (wbi : FVec Ideal S64x64 .f32) (bbi : FVec Ideal S1x64 .f32) :
    FVec Ideal S150000x64 .f32 :=
  Cert.DenseMath.refNew x (spmm rows cols vals x) wgc bgc wbi bbi

def tableOf (e n0 n1 n2 : FVec Ideal S150000x64 .f32) : FVec Ideal S150000x256 .f32 :=
  concatenate S150000x256 1 [⟨S150000x64, e⟩, ⟨S150000x64, n0⟩, ⟨S150000x64, n1⟩, ⟨S150000x64, n2⟩]
    concatenates_S150000x64_S150000x64_S150000x64_S150000x64_S150000x256_d1

def uRows (t : FVec Ideal S150000x256 .f32) : FVec Ideal S100000x256 .f32 :=
  extractStridedSlice S100000x256 ![0, 0] t slices_S150000x256_S100000x256_0_0

def iRows (t : FVec Ideal S150000x256 .f32) : FVec Ideal S50000x256 .f32 :=
  extractStridedSlice S50000x256 ![100000, 0] t slices_S150000x256_S50000x256_100000_0

section Whole

variable (users pos neg : IVec S4096 32) (rows cols : IVec S2400000 32) (vals : FVec Ideal S2400000 .f32)
  (ue : FVec Ideal S100000x64 .f32) (ie : FVec Ideal S50000x64 .f32)
  (wgc0 wgc1 wgc2 : FVec Ideal S64x64 .f32) (bgc0 bgc1 bgc2 : FVec Ideal S1x64 .f32)
  (wbi0 wbi1 wbi2 : FVec Ideal S64x64 .f32) (bbi0 bbi1 bbi2 : FVec Ideal S1x64 .f32)

def new0 : FVec Ideal S150000x64 .f32 := layer rows cols vals (ego ue ie) wgc0 bgc0 wbi0 bbi0

def nrm0 : FVec Ideal S150000x64 .f32 := Cert.DenseMath.refNormed (new0 rows cols vals ue ie wgc0 bgc0 wbi0 bbi0)

def new1 : FVec Ideal S150000x64 .f32 :=
  layer rows cols vals (new0 rows cols vals ue ie wgc0 bgc0 wbi0 bbi0) wgc1 bgc1 wbi1 bbi1

def nrm1 : FVec Ideal S150000x64 .f32 :=
  Cert.DenseMath.refNormed (new1 rows cols vals ue ie wgc0 wgc1 bgc0 bgc1 wbi0 wbi1 bbi0 bbi1)

def new2 : FVec Ideal S150000x64 .f32 :=
  layer rows cols vals (new1 rows cols vals ue ie wgc0 wgc1 bgc0 bgc1 wbi0 wbi1 bbi0 bbi1) wgc2 bgc2 wbi2 bbi2

def nrm2 : FVec Ideal S150000x64 .f32 :=
  Cert.DenseMath.refNormed (new2 rows cols vals ue ie wgc0 wgc1 wgc2 bgc0 bgc1 bgc2 wbi0 wbi1 wbi2 bbi0 bbi1 bbi2)

def table : FVec Ideal S150000x256 .f32 :=
  tableOf (ego ue ie) (nrm0 rows cols vals ue ie wgc0 bgc0 wbi0 bbi0)
    (nrm1 rows cols vals ue ie wgc0 wgc1 bgc0 bgc1 wbi0 wbi1 bbi0 bbi1)
    (nrm2 rows cols vals ue ie wgc0 wgc1 wgc2 bgc0 bgc1 bgc2 wbi0 wbi1 wbi2 bbi0 bbi1 bbi2)

def uTable : FVec Ideal S100000x256 .f32 :=
  uRows (table rows cols vals ue ie wgc0 wgc1 wgc2 bgc0 bgc1 bgc2 wbi0 wbi1 wbi2 bbi0 bbi1 bbi2)

def iTable : FVec Ideal S50000x256 .f32 :=
  iRows (table rows cols vals ue ie wgc0 wgc1 wgc2 bgc0 bgc1 bgc2 wbi0 wbi1 wbi2 bbi0 bbi1 bbi2)

def resU : FVec Ideal S4096x256 .f32 :=
  Cert.GatherMath.refGatherU (uTable rows cols vals ue ie wgc0 wgc1 wgc2 bgc0 bgc1 bgc2 wbi0 wbi1 wbi2 bbi0 bbi1 bbi2) users

def resP : FVec Ideal S4096x256 .f32 :=
  Cert.GatherMath.refGatherI (iTable rows cols vals ue ie wgc0 wgc1 wgc2 bgc0 bgc1 bgc2 wbi0 wbi1 wbi2 bbi0 bbi1 bbi2) pos

def resN : FVec Ideal S4096x256 .f32 :=
  Cert.GatherMath.refGatherI (iTable rows cols vals ue ie wgc0 wgc1 wgc2 bgc0 bgc1 bgc2 wbi0 wbi1 wbi2 bbi0 bbi1 bbi2) neg

end Whole

end Cert.Spec

end
-- ==== Proof.KIHost.lean ====
import proofs.«404336_j13099650253234_2_alg».proof.Proof.KILaunch
import proofs.«404336_j13099650253234_2_alg».proof.Proof.LibCat4
import proofs.«404336_j13099650253234_2_alg».proof.Proof.Spec
import Idealize.ShloMosaic.Lib.StableHlo.Run
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Cert.KernelIdeal Cert.KernelIdeal.Gen

section UnitMid
variable {α : Type} {n w : Nat}

theorem addMid_apply (x : (⟨2, ![n, w]⟩ : Shape).Idx → α) (h : (⟨2, ![n, w]⟩ : Shape).ShapeCasts ⟨3, ![n, 1, w]⟩)
    (u : Fin n) (z : Fin 1) (j : Fin w) : shapeCast ⟨3, ![n, 1, w]⟩ x h (ValueIdx.ix3 u z j) = x (ValueIdx.ix2 u j) := by
  refine shapeCast_apply x h _ _ ?_
  rw [Shape.rowMajor_val_two, Shape.rowMajor_val_three]
  have hz : z.val = 0 := by omega
  show u.val * w + j.val = (u.val * 1 + z.val) * w + j.val
  rw [hz, Nat.mul_one, Nat.add_zero]

theorem dropMid_apply (x : (⟨3, ![n, 1, w]⟩ : Shape).Idx → α) (h : (⟨3, ![n, 1, w]⟩ : Shape).ShapeCasts ⟨2, ![n, w]⟩)
    (u : Fin n) (j : Fin w) : shapeCast ⟨2, ![n, w]⟩ x h (ValueIdx.ix2 u j) = x (ValueIdx.ix3 u 0 j) := by
  refine shapeCast_apply x h _ _ ?_
  rw [Shape.rowMajor_val_two, Shape.rowMajor_val_three]
  show (u.val * 1 + 0) * w + j.val = u.val * w + j.val
  rw [Nat.mul_one, Nat.add_zero]

end UnitMid

section Tables
variable {α : Type}
variable (x₀ x₁ x₂ x₃ : S150000x64.Idx → α)
variable (hC : Shape.Concatenates [S150000x64, S150000x64, S150000x64, S150000x64] S150000x256 1)

abbrev cat4 : S150000x256.Idx → α :=
  concatenate S150000x256 1 [⟨S150000x64, x₀⟩, ⟨S150000x64, x₁⟩, ⟨S150000x64, x₂⟩, ⟨S150000x64, x₃⟩] hC

abbrev rowU (u : Fin 100000) : Fin 150000 := ⟨u.val, by omega⟩

abbrev rowI (u : Fin 50000) : Fin 150000 := ⟨100000 + u.val, by omega⟩

theorem uView_apply (hS : S150000x256.Slices ![0, 0] S100000x256) (hR : S100000x256.ShapeCasts S100000x1x256)
    (u : Fin 100000) (z : Fin 1) (j : Fin 256) :
    shapeCast S100000x1x256 (extractStridedSlice S100000x256 ![0, 0] (cat4 x₀ x₁ x₂ x₃ hC) hS) hR (ValueIdx.ix3 u z j)
      = cat4 x₀ x₁ x₂ x₃ hC (ValueIdx.ix2 (rowU u) j) := by
  refine (addMid_apply _ hR u z j).trans ?_
  refine extractStridedSlice_apply ![0, 0] _ hS (ValueIdx.ix2 u j) (ValueIdx.ix2 (rowU u) j) fun a => ?_
  match a with
  | ⟨0, _⟩ => show u.val = 0 + u.val; omega
  | ⟨1, _⟩ => show j.val = 0 + j.val; omega

theorem iView_apply (hS : S150000x256.Slices ![100000, 0] S50000x256) (hR : S50000x256.ShapeCasts S50000x1x256)
    (u : Fin 50000) (z : Fin 1) (j : Fin 256) :
    shapeCast S50000x1x256 (extractStridedSlice S50000x256 ![100000, 0] (cat4 x₀ x₁ x₂ x₃ hC) hS) hR (ValueIdx.ix3 u z j)
      = cat4 x₀ x₁ x₂ x₃ hC (ValueIdx.ix2 (rowI u) j) := by
  refine (addMid_apply _ hR u z j).trans ?_
  refine extractStridedSlice_apply ![100000, 0] _ hS (ValueIdx.ix2 u j) (ValueIdx.ix2 (rowI u) j) fun a => ?_
  match a with
  | ⟨0, _⟩ => show 100000 + u.val = 100000 + u.val; rfl
  | ⟨1, _⟩ => show j.val = 0 + j.val; omega

end Tables

section Cases
variable {α : Type}
variable (x₀ x₁ x₂ x₃ : S150000x64.Idx → α)
variable (hC : Shape.Concatenates [S150000x64, S150000x64, S150000x64, S150000x64] S150000x256 1)

theorem cat4_at0 (p : Fin 150000) (j : Fin 256) (q : Fin 64) (hj : j.val = q.val) :
    cat4 x₀ x₁ x₂ x₃ hC (ValueIdx.ix2 p j) = x₀ (ValueIdx.ix2 p q) :=
  Cert.LibCat4.cat4_first x₀ x₁ x₂ x₃ hC p q j hj

theorem cat4_at1 (p : Fin 150000) (j : Fin 256) (q : Fin 64) (hj : j.val = 64 + q.val) :
    cat4 x₀ x₁ x₂ x₃ hC (ValueIdx.ix2 p j) = x₁ (ValueIdx.ix2 p q) :=
  Cert.LibCat4.cat4_second x₀ x₁ x₂ x₃ hC p q j hj

theorem cat4_at2 (p : Fin 150000) (j : Fin 256) (q : Fin 64) (hj : j.val = 128 + q.val) :
    cat4 x₀ x₁ x₂ x₃ hC (ValueIdx.ix2 p j) = x₂ (ValueIdx.ix2 p q) :=
  Cert.LibCat4.cat4_third x₀ x₁ x₂ x₃ hC p q j (by omega)

theorem cat4_at3 (p : Fin 150000) (j : Fin 256) (q : Fin 64) (hj : j.val = 192 + q.val) :
    cat4 x₀ x₁ x₂ x₃ hC (ValueIdx.ix2 p j) = x₃ (ValueIdx.ix2 p q) :=
  Cert.LibCat4.cat4_fourth x₀ x₁ x₂ x₃ hC p q j (by omega)

end Cases

section Host
variable [Cert.ReferenceIdeal.Facts]
variable (V : Valuation τ sig (Elt Ideal))

theorem host0_v0 :
    StableHlo.after (hostOps0 (F := Ideal)) V (Proc.devRef .tc main_v0)
      = Cert.Spec.ego (V (Proc.devRef .tc main_arg6)) (V (Proc.devRef .tc main_arg7)) := by
  show StableHlo.after hostOps0 _ (Proc.devRef .tc main_v0) = _
  after_results
  rfl

theorem host0_v13 :
    StableHlo.after (hostOps0 (F := Ideal)) V (Proc.devRef .tc main_v13)
      = Cert.Spec.spmm (V (Proc.devRef .tc main_arg3)) (V (Proc.devRef .tc main_arg4)) (V (Proc.devRef .tc main_arg5))
          (Cert.Spec.ego (V (Proc.devRef .tc main_arg6)) (V (Proc.devRef .tc main_arg7))) := by
  show StableHlo.after hostOps0 _ (Proc.devRef .tc main_v13) = _
  after_results_simp
  rfl

theorem host1_v27 :
    StableHlo.after (hostOps1 (F := Ideal)) V (Proc.devRef .tc main_v27)
      = Cert.Spec.spmm (V (Proc.devRef .tc main_arg3)) (V (Proc.devRef .tc main_arg4)) (V (Proc.devRef .tc main_arg5))
          (V (Proc.devRef .tc main_v14_0)) := by
  show StableHlo.after hostOps1 _ (Proc.devRef .tc main_v27) = _
  after_results_simp
  rfl

theorem host2_v41 :
    StableHlo.after (hostOps2 (F := Ideal)) V (Proc.devRef .tc main_v41)
      = Cert.Spec.spmm (V (Proc.devRef .tc main_arg3)) (V (Proc.devRef .tc main_arg4)) (V (Proc.devRef .tc main_arg5))
          (V (Proc.devRef .tc main_v28_0)) := by
  show StableHlo.after hostOps2 _ (Proc.devRef .tc main_v41) = _
  after_results_simp
  rfl

theorem host3_v46 :
    StableHlo.after (hostOps3 (F := Ideal)) V (Proc.devRef .tc main_v46)
      = shapeCast S100000x1x256
          (Cert.Spec.uRows (Cert.Spec.tableOf (V (Proc.devRef .tc main_v0)) (V (Proc.devRef .tc main_v14_1))
            (V (Proc.devRef .tc main_v28_1)) (V (Proc.devRef .tc main_v42_1))))
          shapeCasts_S100000x256_S100000x1x256 := by
  show StableHlo.after hostOps3 _ (Proc.devRef .tc main_v46) = _
  after_results
  rfl

theorem host3_v47 :
    StableHlo.after (hostOps3 (F := Ideal)) V (Proc.devRef .tc main_v47)
      = shapeCast S50000x1x256
          (Cert.Spec.iRows (Cert.Spec.tableOf (V (Proc.devRef .tc main_v0)) (V (Proc.devRef .tc main_v14_1))
            (V (Proc.devRef .tc main_v28_1)) (V (Proc.devRef .tc main_v42_1))))
          shapeCasts_S50000x256_S50000x1x256 := by
  show StableHlo.after hostOps3 _ (Proc.devRef .tc main_v47) = _
  after_results
  rfl

theorem host4_v49 :
    StableHlo.after (hostOps4 (F := Ideal)) V (Proc.devRef .tc main_v49)
      = shapeCast S4096x256 (V (Proc.devRef .tc main_v48_0)) shapeCasts_S4096x1x256_S4096x256 := by
  show StableHlo.after hostOps4 _ (Proc.devRef .tc main_v49) = _
  after_results
  rfl

theorem host4_v50 :
    StableHlo.after (hostOps4 (F := Ideal)) V (Proc.devRef .tc main_v50)
      = shapeCast S4096x256 (V (Proc.devRef .tc main_v48_1)) shapeCasts_S4096x1x256_S4096x256 := by
  show StableHlo.after hostOps4 _ (Proc.devRef .tc main_v50) = _
  after_results
  rfl

theorem host4_v51 :
    StableHlo.after (hostOps4 (F := Ideal)) V (Proc.devRef .tc main_v51)
      = shapeCast S4096x256 (V (Proc.devRef .tc main_v48_2)) shapeCasts_S4096x1x256_S4096x256 := by
  show StableHlo.after hostOps4 _ (Proc.devRef .tc main_v51) = _
  after_results
  rfl

end Host

section Apply
variable [Cert.ReferenceIdeal.Facts]
variable (V : Valuation τ sig (Elt Ideal))

theorem host3_v46_at0 (u : Fin 100000) (z : Fin 1) (j : Fin 256) (q : Fin 64) (hj : j.val = q.val) :
    (StableHlo.after (hostOps3 (F := Ideal)) V (Proc.devRef .tc main_v46) : FVec Ideal S100000x1x256 .f32) (ValueIdx.ix3 u z j)
      = (V (Proc.devRef .tc main_v0) : FVec Ideal S150000x64 .f32) (ValueIdx.ix2 (rowU u) q) := by
  rw [host3_v46]
  exact (uView_apply (V (Proc.devRef .tc main_v0)) (V (Proc.devRef .tc main_v14_1)) (V (Proc.devRef .tc main_v28_1))
    (V (Proc.devRef .tc main_v42_1)) _ _ _ u z j).trans (cat4_at0 _ _ _ _ _ (rowU u) j q hj)

theorem host3_v46_at1 (u : Fin 100000) (z : Fin 1) (j : Fin 256) (q : Fin 64) (hj : j.val = 64 + q.val) :
    (StableHlo.after (hostOps3 (F := Ideal)) V (Proc.devRef .tc main_v46) : FVec Ideal S100000x1x256 .f32) (ValueIdx.ix3 u z j)
      = (V (Proc.devRef .tc main_v14_1) : FVec Ideal S150000x64 .f32) (ValueIdx.ix2 (rowU u) q) := by
  rw [host3_v46]
  exact (uView_apply (V (Proc.devRef .tc main_v0)) (V (Proc.devRef .tc main_v14_1)) (V (Proc.devRef .tc main_v28_1))
    (V (Proc.devRef .tc main_v42_1)) _ _ _ u z j).trans (cat4_at1 _ _ _ _ _ (rowU u) j q hj)

theorem host3_v46_at2 (u : Fin 100000) (z : Fin 1) (j : Fin 256) (q : Fin 64) (hj : j.val = 128 + q.val) :
    (StableHlo.after (hostOps3 (F := Ideal)) V (Proc.devRef .tc main_v46) : FVec Ideal S100000x1x256 .f32) (ValueIdx.ix3 u z j)
      = (V (Proc.devRef .tc main_v28_1) : FVec Ideal S150000x64 .f32) (ValueIdx.ix2 (rowU u) q) := by
  rw [host3_v46]
  exact (uView_apply (V (Proc.devRef .tc main_v0)) (V (Proc.devRef .tc main_v14_1)) (V (Proc.devRef .tc main_v28_1))
    (V (Proc.devRef .tc main_v42_1)) _ _ _ u z j).trans (cat4_at2 _ _ _ _ _ (rowU u) j q hj)

theorem host3_v46_at3 (u : Fin 100000) (z : Fin 1) (j : Fin 256) (q : Fin 64) (hj : j.val = 192 + q.val) :
    (StableHlo.after (hostOps3 (F := Ideal)) V (Proc.devRef .tc main_v46) : FVec Ideal S100000x1x256 .f32) (ValueIdx.ix3 u z j)
      = (V (Proc.devRef .tc main_v42_1) : FVec Ideal S150000x64 .f32) (ValueIdx.ix2 (rowU u) q) := by
  rw [host3_v46]
  exact (uView_apply (V (Proc.devRef .tc main_v0)) (V (Proc.devRef .tc main_v14_1)) (V (Proc.devRef .tc main_v28_1))
    (V (Proc.devRef .tc main_v42_1)) _ _ _ u z j).trans (cat4_at3 _ _ _ _ _ (rowU u) j q hj)

theorem host3_v47_at0 (u : Fin 50000) (z : Fin 1) (j : Fin 256) (q : Fin 64) (hj : j.val = q.val) :
    (StableHlo.after (hostOps3 (F := Ideal)) V (Proc.devRef .tc main_v47) : FVec Ideal S50000x1x256 .f32) (ValueIdx.ix3 u z j)
      = (V (Proc.devRef .tc main_v0) : FVec Ideal S150000x64 .f32) (ValueIdx.ix2 (rowI u) q) := by
  rw [host3_v47]
  exact (iView_apply (V (Proc.devRef .tc main_v0)) (V (Proc.devRef .tc main_v14_1)) (V (Proc.devRef .tc main_v28_1))
    (V (Proc.devRef .tc main_v42_1)) _ _ _ u z j).trans (cat4_at0 _ _ _ _ _ (rowI u) j q hj)

theorem host3_v47_at1 (u : Fin 50000) (z : Fin 1) (j : Fin 256) (q : Fin 64) (hj : j.val = 64 + q.val) :
    (StableHlo.after (hostOps3 (F := Ideal)) V (Proc.devRef .tc main_v47) : FVec Ideal S50000x1x256 .f32) (ValueIdx.ix3 u z j)
      = (V (Proc.devRef .tc main_v14_1) : FVec Ideal S150000x64 .f32) (ValueIdx.ix2 (rowI u) q) := by
  rw [host3_v47]
  exact (iView_apply (V (Proc.devRef .tc main_v0)) (V (Proc.devRef .tc main_v14_1)) (V (Proc.devRef .tc main_v28_1))
    (V (Proc.devRef .tc main_v42_1)) _ _ _ u z j).trans (cat4_at1 _ _ _ _ _ (rowI u) j q hj)

theorem host3_v47_at2 (u : Fin 50000) (z : Fin 1) (j : Fin 256) (q : Fin 64) (hj : j.val = 128 + q.val) :
    (StableHlo.after (hostOps3 (F := Ideal)) V (Proc.devRef .tc main_v47) : FVec Ideal S50000x1x256 .f32) (ValueIdx.ix3 u z j)
      = (V (Proc.devRef .tc main_v28_1) : FVec Ideal S150000x64 .f32) (ValueIdx.ix2 (rowI u) q) := by
  rw [host3_v47]
  exact (iView_apply (V (Proc.devRef .tc main_v0)) (V (Proc.devRef .tc main_v14_1)) (V (Proc.devRef .tc main_v28_1))
    (V (Proc.devRef .tc main_v42_1)) _ _ _ u z j).trans (cat4_at2 _ _ _ _ _ (rowI u) j q hj)

theorem host3_v47_at3 (u : Fin 50000) (z : Fin 1) (j : Fin 256) (q : Fin 64) (hj : j.val = 192 + q.val) :
    (StableHlo.after (hostOps3 (F := Ideal)) V (Proc.devRef .tc main_v47) : FVec Ideal S50000x1x256 .f32) (ValueIdx.ix3 u z j)
      = (V (Proc.devRef .tc main_v42_1) : FVec Ideal S150000x64 .f32) (ValueIdx.ix2 (rowI u) q) := by
  rw [host3_v47]
  exact (iView_apply (V (Proc.devRef .tc main_v0)) (V (Proc.devRef .tc main_v14_1)) (V (Proc.devRef .tc main_v28_1))
    (V (Proc.devRef .tc main_v42_1)) _ _ _ u z j).trans (cat4_at3 _ _ _ _ _ (rowI u) j q hj)

theorem host4_v49_apply (i : Fin 4096) (j : Fin 256) :
    (StableHlo.after (hostOps4 (F := Ideal)) V (Proc.devRef .tc main_v49) : FVec Ideal S4096x256 .f32) (ValueIdx.ix2 i j)
      = (V (Proc.devRef .tc main_v48_0) : FVec Ideal S4096x1x256 .f32) (ValueIdx.ix3 i 0 j) := by
  rw [host4_v49]; exact dropMid_apply _ _ i j

theorem host4_v50_apply (i : Fin 4096) (j : Fin 256) :
    (StableHlo.after (hostOps4 (F := Ideal)) V (Proc.devRef .tc main_v50) : FVec Ideal S4096x256 .f32) (ValueIdx.ix2 i j)
      = (V (Proc.devRef .tc main_v48_1) : FVec Ideal S4096x1x256 .f32) (ValueIdx.ix3 i 0 j) := by
  rw [host4_v50]; exact dropMid_apply _ _ i j

theorem host4_v51_apply (i : Fin 4096) (j : Fin 256) :
    (StableHlo.after (hostOps4 (F := Ideal)) V (Proc.devRef .tc main_v51) : FVec Ideal S4096x256 .f32) (ValueIdx.ix2 i j)
      = (V (Proc.devRef .tc main_v48_2) : FVec Ideal S4096x1x256 .f32) (ValueIdx.ix3 i 0 j) := by
  rw [host4_v51]; exact dropMid_apply _ _ i j

end Apply

end Cert.KernelIdeal.Hand

end
-- ==== Proof.KIDenseValue0.lean ====
import proofs.«404336_j13099650253234_2_alg».proof.Proof.KIDense0
import proofs.«404336_j13099650253234_2_alg».proof.Proof.DenseMath
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.DenseMath

variable (V : (c : Dev nD) → (b : Ref sig .tc) → Buf (Elt Ideal) ((c : Thread nD τ).loc b))

def new0 (ego side : Vec Ideal S150000x64 .f32) (wgc : Vec Ideal S64x64 .f32) (bgc : Vec Ideal S1x64 .f32)
    (wbi : Vec Ideal S64x64 .f32) (bbi : Vec Ideal S1x64 .f32) (r : Fin 150000) (q : Fin 64) : EReal :=
  rowNew (fun k => ego (ix2 r k)) (fun k => side (ix2 r k)) (fun k j => wgc (ix2 k j)) (fun j => bgc (ix2 (0 : Fin 1) j))
    (fun k j => wbi (ix2 k j)) (fun j => bbi (ix2 (0 : Fin 1) j)) q

def G0_6 (c : Dev nD) : Vec Ideal S150000x64 .f32 := fun i =>
  new0 (V c main_v0) (V c main_v13) (V c main_arg8) (V c main_arg11) (V c main_arg14) (V c main_arg17) (i 0) (i 1)

def G0_7 (c : Dev nD) : Vec Ideal S150000x64 .f32 := fun i =>
  rowNormed (fun j => G0_6 V c (ix2 (i 0 : Fin 150000) j)) (i 1)

theorem G0_6_apply (c : Dev nD) (r : Fin 150000) (q : Fin 64) :
    G0_6 V c (ix2 r q) = rowNew (fun k => (V c main_v0 : Vec Ideal S150000x64 .f32) (ix2 r k))
      (fun k => (V c main_v13 : Vec Ideal S150000x64 .f32) (ix2 r k))
      (fun k j => (V c main_arg8 : Vec Ideal S64x64 .f32) (ix2 k j)) (fun j => (V c main_arg11 : Vec Ideal S1x64 .f32) (ix2 (0 : Fin 1) j))
      (fun k j => (V c main_arg14 : Vec Ideal S64x64 .f32) (ix2 k j)) (fun j => (V c main_arg17 : Vec Ideal S1x64 .f32) (ix2 (0 : Fin 1) j)) q := rfl

theorem G0_7_apply (c : Dev nD) (r : Fin 150000) (q : Fin 64) :
    G0_7 V c (ix2 r q) = rowNormed (fun j => G0_6 V c (ix2 r j)) q := rfl

theorem zero_off0 : (![0, 0] : Fin 2 → Nat) = fun _ => 0 :=
  funext fun a => by match a with | ⟨0, _⟩ => rfl | ⟨1, _⟩ => rfl

theorem point_lt0 (t : Fin cfg0.N) : t.val < 50 := lt_of_lt_of_eq t.isLt N_0

theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem rows0_0 (c : Dev nD) (t : Fin cfg0.N) (p : Fin 3000) (k : Fin 64) (r : Fin 150000)
    (hr : r.val = 3000 * t.val + p.val) :
    (iblk0 V c 0 t : Vec Ideal S3000x64 .f32) (ix2 p k) = (V c main_v0 : Vec Ideal S150000x64 .f32) (ix2 r k) := by
  obtain ⟨⟨e0, e1⟩, -⟩ := idx0 t
  unfold iblk0
  rw [View.read_apply]
  show V c main_v0 _ = V c main_v0 _
  congr 1
  funext a
  apply Fin.ext
  match a with
  | ⟨0, _⟩ => show win0_0.index t (0 : Fin 2) * 3000 + 1 * p.val = r.val; omega
  | ⟨1, _⟩ => show win0_0.index t (1 : Fin 2) * 64 + 1 * k.val = k.val; omega

theorem rows0_1 (c : Dev nD) (t : Fin cfg0.N) (p : Fin 3000) (k : Fin 64) (r : Fin 150000)
    (hr : r.val = 3000 * t.val + p.val) :
    (iblk0 V c 1 t : Vec Ideal S3000x64 .f32) (ix2 p k) = (V c main_v13 : Vec Ideal S150000x64 .f32) (ix2 r k) := by
  obtain ⟨-, ⟨e0, e1⟩, -⟩ := idx0 t
  unfold iblk0
  rw [View.read_apply]
  show V c main_v13 _ = V c main_v13 _
  congr 1
  funext a
  apply Fin.ext
  match a with
  | ⟨0, _⟩ => show win0_1.index t (0 : Fin 2) * 3000 + 1 * p.val = r.val; omega
  | ⟨1, _⟩ => show win0_1.index t (1 : Fin 2) * 64 + 1 * k.val = k.val; omega

theorem whole0_2 (c : Dev nD) (t : Fin cfg0.N) :
    (iblk0 V c 2 t : Vec Ideal S64x64 .f32) = (V c main_arg8 : Vec Ideal S64x64 .f32) := by
  obtain ⟨-, -, ⟨e0, e1⟩, -⟩ := idx0 t
  funext y
  unfold iblk0
  rw [View.read_apply]
  show V c main_arg8 _ = V c main_arg8 y
  congr 1
  funext a
  apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem whole0_3 (c : Dev nD) (t : Fin cfg0.N) :
    (iblk0 V c 3 t : Vec Ideal S1x64 .f32) = (V c main_arg11 : Vec Ideal S1x64 .f32) := by
  obtain ⟨-, -, -, ⟨e0, e1⟩, -⟩ := idx0 t
  funext y
  unfold iblk0
  rw [View.read_apply]
  show V c main_arg11 _ = V c main_arg11 y
  congr 1
  funext a
  apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem whole0_4 (c : Dev nD) (t : Fin cfg0.N) :
    (iblk0 V c 4 t : Vec Ideal S64x64 .f32) = (V c main_arg14 : Vec Ideal S64x64 .f32) := by
  obtain ⟨-, -, -, -, ⟨e0, e1⟩, -⟩ := idx0 t
  funext y
  unfold iblk0
  rw [View.read_apply]
  show V c main_arg14 _ = V c main_arg14 y
  congr 1
  funext a
  apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem whole0_5 (c : Dev nD) (t : Fin cfg0.N) :
    (iblk0 V c 5 t : Vec Ideal S1x64 .f32) = (V c main_arg17 : Vec Ideal S1x64 .f32) := by
  obtain ⟨-, -, -, -, -, ⟨e0, e1⟩, -⟩ := idx0 t
  funext y
  unfold iblk0
  rw [View.read_apply]
  show V c main_arg17 _ = V c main_arg17 y
  congr 1
  funext a
  apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem new_of_blocks0 (ego side : Vec Ideal S150000x64 .f32) (wgc : Vec Ideal S64x64 .f32) (bgc : Vec Ideal S1x64 .f32)
    (wbi : Vec Ideal S64x64 .f32) (bbi : Vec Ideal S1x64 .f32)
    (x0 x1 : Vec Ideal S3000x64 .f32) (x2 : Vec Ideal S64x64 .f32) (x3 : Vec Ideal S1x64 .f32)
    (x4 : Vec Ideal S64x64 .f32) (x5 : Vec Ideal S1x64 .f32) (p : Fin 3000) (r : Fin 150000)
    (h0 : ∀ k : Fin 64, x0 (ix2 p k) = ego (ix2 r k)) (h1 : ∀ k : Fin 64, x1 (ix2 p k) = side (ix2 r k))
    (h2 : x2 = wgc) (h3 : x3 = bgc) (h4 : x4 = wbi) (h5 : x5 = bbi) (q : Fin 64) :
    k0_pay1 (F := Ideal) x0 x1 x2 x4 x3 x5 (ix2 p q) = new0 ego side wgc bgc wbi bbi r q := by
  subst h2 h3 h4 h5
  rw [k0_pay1_apply]
  unfold new0
  simp only [h0, h1]

theorem new_at_point0 (c : Dev nD) (t : Fin cfg0.N) (p : Fin 3000) (r : Fin 150000) (hr : r.val = 3000 * t.val + p.val)
    (q : Fin 64) :
    k0_pay1 (F := Ideal) (iblk0 V c 0 t) (iblk0 V c 1 t) (iblk0 V c 2 t) (iblk0 V c 4 t) (iblk0 V c 3 t) (iblk0 V c 5 t) (ix2 p q)
      = G0_6 V c (ix2 r q) :=
  new_of_blocks0 (V c main_v0) (V c main_v13) (V c main_arg8) (V c main_arg11) (V c main_arg14) (V c main_arg17)
    (iblk0 V c 0 t) (iblk0 V c 1 t) (iblk0 V c 2 t) (iblk0 V c 3 t) (iblk0 V c 4 t) (iblk0 V c 5 t) p r
    (fun k => rows0_0 V c t p k r hr) (fun k => rows0_1 V c t p k r hr)
    (whole0_2 V c t) (whole0_3 V c t) (whole0_4 V c t) (whole0_5 V c t) q

theorem normed_at_point0 (c : Dev nD) (t : Fin cfg0.N) (p : Fin 3000) (r : Fin 150000) (hr : r.val = 3000 * t.val + p.val)
    (q : Fin 64) :
    k0_pay2 (F := Ideal) (iblk0 V c 0 t) (iblk0 V c 1 t) (iblk0 V c 2 t) (iblk0 V c 4 t) (iblk0 V c 3 t) (iblk0 V c 5 t) (ix2 p q)
      = G0_7 V c (ix2 r q) := by
  refine (k0_pay2_apply (iblk0 V c 0 t) (iblk0 V c 1 t) (iblk0 V c 2 t) (iblk0 V c 4 t) (iblk0 V c 3 t) (iblk0 V c 5 t) p q).trans ?_
  rw [G0_7_apply]
  exact congrArg (fun v => rowNormed v q) (funext fun j => new_at_point0 V c t p r hr j)

theorem flushed0_6_eq (c : Dev nD) (t : Fin cfg0.N) :
    (dat0 V c).flushed 6 t = ((cfg0.win 6).blk t).view.read (Elt Ideal) (G0_6 V c) := by
  show (cfg0.win 6).cut (grid0.coords t) ((dat0 V c).after 6 t) = _
  rw [after0_6]
  unfold out0_6
  rw [View.canon_unit_zero zero_off0]
  simp only [View.ld_unit_zero (S := S3000x64) zero_off0, View.ld_unit_zero (S := S64x64) zero_off0,
    View.ld_unit_zero (S := S1x64) zero_off0]
  obtain ⟨-, -, -, -, -, -, ⟨e0, e1⟩, -⟩ := idx0 t
  have ht := point_lt0 t
  refine funext fun (y : S3000x64.Idx) => ?_
  obtain ⟨p, q, rfl⟩ : ∃ (p : Fin 3000) (q : Fin 64), y = ix2 p q := ⟨y 0, y 1, eq_ix2 y⟩
  refine (new_at_point0 V c t p ⟨3000 * t.val + p.val, by omega⟩ rfl q).trans ?_
  rw [View.read_apply]
  show G0_6 V c _ = G0_6 V c _
  congr 1
  funext a
  apply Fin.ext
  match a with
  | ⟨0, _⟩ => show 3000 * t.val + p.val = win0_6.index t (0 : Fin 2) * 3000 + 1 * p.val; omega
  | ⟨1, _⟩ => show q.val = win0_6.index t (1 : Fin 2) * 64 + 1 * q.val; omega

theorem flushed0_7_eq (c : Dev nD) (t : Fin cfg0.N) :
    (dat0 V c).flushed 7 t = ((cfg0.win 7).blk t).view.read (Elt Ideal) (G0_7 V c) := by
  show (cfg0.win 7).cut (grid0.coords t) ((dat0 V c).after 7 t) = _
  rw [after0_7]
  unfold out0_7
  rw [View.canon_unit_zero zero_off0]
  simp only [View.ld_unit_zero (S := S3000x64) zero_off0, View.ld_unit_zero (S := S64x64) zero_off0,
    View.ld_unit_zero (S := S1x64) zero_off0]
  obtain ⟨-, -, -, -, -, -, -, ⟨e0, e1⟩⟩ := idx0 t
  have ht := point_lt0 t
  refine funext fun (y : S3000x64.Idx) => ?_
  obtain ⟨p, q, rfl⟩ : ∃ (p : Fin 3000) (q : Fin 64), y = ix2 p q := ⟨y 0, y 1, eq_ix2 y⟩
  refine (normed_at_point0 V c t p ⟨3000 * t.val + p.val, by omega⟩ rfl q).trans ?_
  rw [View.read_apply]
  show G0_7 V c _ = G0_7 V c _
  congr 1
  funext a
  apply Fin.ext
  match a with
  | ⟨0, _⟩ => show 3000 * t.val + p.val = win0_7.index t (0 : Fin 2) * 3000 + 1 * p.val; omega
  | ⟨1, _⟩ => show q.val = win0_7.index t (1 : Fin 2) * 64 + 1 * q.val; omega

theorem mem_blk0_6 (t : Fin cfg0.N) (i : S150000x64.Idx) :
    i ∈ ((cfg0.win 6).blk t).view.set ↔ ∀ a : Fin 2, win0_6.index t a * S3000x64.size a ≤ (i a).val
      ∧ (i a).val < win0_6.index t a * S3000x64.size a + S3000x64.size a := by
  show i ∈ ((View.whole main_v14_0).slice (win0_6.rect t)).set ↔ _
  rw [View.set_slice_whole, Rect.mem_set_unit]
  exact Iff.rfl

theorem mem_blk0_7 (t : Fin cfg0.N) (i : S150000x64.Idx) :
    i ∈ ((cfg0.win 7).blk t).view.set ↔ ∀ a : Fin 2, win0_7.index t a * S3000x64.size a ≤ (i a).val
      ∧ (i a).val < win0_7.index t a * S3000x64.size a + S3000x64.size a := by
  show i ∈ ((View.whole main_v14_1).slice (win0_7.rect t)).set ↔ _
  rw [View.set_slice_whole, Rect.mem_set_unit]
  exact Iff.rfl

theorem covered0_6 (i : S150000x64.Idx) :
    ∃ t : Fin cfg0.N, (cfg0.win 6).flush t = true ∧ i ∈ ((cfg0.win 6).blk t).view.set := by
  have hi0 : (i 0).val < 150000 := (i 0).isLt
  have hi1 : (i 1).val < 64 := (i 1).isLt
  obtain ⟨t, ht⟩ : ∃ t : Fin cfg0.N, t.val = (i 0).val / 3000 :=
    ⟨⟨(i 0).val / 3000, by rw [show cfg0.N = 50 from N_0]; omega⟩, rfl⟩
  obtain ⟨-, -, -, -, -, -, ⟨e0, e1⟩, -⟩ := idx0 t
  refine ⟨t, flush0_6 t, ?_⟩
  rw [mem_blk0_6]
  intro a
  match a with
  | ⟨0, _⟩ => show win0_6.index t (0 : Fin 2) * 3000 ≤ (i 0).val ∧ (i 0).val < win0_6.index t (0 : Fin 2) * 3000 + 3000; omega
  | ⟨1, _⟩ => show win0_6.index t (1 : Fin 2) * 64 ≤ (i 1).val ∧ (i 1).val < win0_6.index t (1 : Fin 2) * 64 + 64; omega

theorem covered0_7 (i : S150000x64.Idx) :
    ∃ t : Fin cfg0.N, (cfg0.win 7).flush t = true ∧ i ∈ ((cfg0.win 7).blk t).view.set := by
  have hi0 : (i 0).val < 150000 := (i 0).isLt
  have hi1 : (i 1).val < 64 := (i 1).isLt
  obtain ⟨t, ht⟩ : ∃ t : Fin cfg0.N, t.val = (i 0).val / 3000 :=
    ⟨⟨(i 0).val / 3000, by rw [show cfg0.N = 50 from N_0]; omega⟩, rfl⟩
  obtain ⟨-, -, -, -, -, -, -, ⟨e0, e1⟩⟩ := idx0 t
  refine ⟨t, flush0_7 t, ?_⟩
  rw [mem_blk0_7]
  intro a
  match a with
  | ⟨0, _⟩ => show win0_7.index t (0 : Fin 2) * 3000 ≤ (i 0).val ∧ (i 0).val < win0_7.index t (0 : Fin 2) * 3000 + 3000; omega
  | ⟨1, _⟩ => show win0_7.index t (1 : Fin 2) * 64 ≤ (i 1).val ∧ (i 1).val < win0_7.index t (1 : Fin 2) * 64 + 64; omega

theorem final0_6 (c : Dev nD) : (dat0 V c).arrAt 6 cfg0.N = G0_6 V c :=
  (dat0 V c).arrAt_eq_of_cover 6 (G0_6 V c) (fun t _ => flushed0_6_eq V c t) covered0_6

theorem final0_7 (c : Dev nD) : (dat0 V c).arrAt 7 cfg0.N = G0_7 V c :=
  (dat0 V c).arrAt_eq_of_cover 7 (G0_7 V c) (fun t _ => flushed0_7_eq V c t) covered0_7

end Cert.KernelIdeal.Hand

end
-- ==== Proof.KIDenseValue1.lean ====
import proofs.«404336_j13099650253234_2_alg».proof.Proof.KIDenseValue0
import proofs.«404336_j13099650253234_2_alg».proof.Proof.KIDense1
import proofs.«404336_j13099650253234_2_alg».proof.Proof.DenseMath
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.DenseMath

variable (V : (c : Dev nD) → (b : Ref sig .tc) → Buf (Elt Ideal) ((c : Thread nD τ).loc b))

def G1_6 (c : Dev nD) : Vec Ideal S150000x64 .f32 := fun i =>
  new0 (V c main_v14_0) (V c main_v27) (V c main_arg9) (V c main_arg12) (V c main_arg15) (V c main_arg18) (i 0) (i 1)

def G1_7 (c : Dev nD) : Vec Ideal S150000x64 .f32 := fun i =>
  rowNormed (fun j => G1_6 V c (ix2 (i 0 : Fin 150000) j)) (i 1)

theorem G1_6_apply (c : Dev nD) (r : Fin 150000) (q : Fin 64) :
    G1_6 V c (ix2 r q) = rowNew (fun k => (V c main_v14_0 : Vec Ideal S150000x64 .f32) (ix2 r k))
      (fun k => (V c main_v27 : Vec Ideal S150000x64 .f32) (ix2 r k))
      (fun k j => (V c main_arg9 : Vec Ideal S64x64 .f32) (ix2 k j)) (fun j => (V c main_arg12 : Vec Ideal S1x64 .f32) (ix2 (0 : Fin 1) j))
      (fun k j => (V c main_arg15 : Vec Ideal S64x64 .f32) (ix2 k j)) (fun j => (V c main_arg18 : Vec Ideal S1x64 .f32) (ix2 (0 : Fin 1) j)) q := rfl

theorem G1_7_apply (c : Dev nD) (r : Fin 150000) (q : Fin 64) :
    G1_7 V c (ix2 r q) = rowNormed (fun j => G1_6 V c (ix2 r j)) q := rfl

theorem point_lt1 (t : Fin cfg1.N) : t.val < 50 := lt_of_lt_of_eq t.isLt N_1

theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

theorem rows1_0 (c : Dev nD) (t : Fin cfg1.N) (p : Fin 3000) (k : Fin 64) (r : Fin 150000)
    (hr : r.val = 3000 * t.val + p.val) :
    (iblk1 V c 0 t : Vec Ideal S3000x64 .f32) (ix2 p k) = (V c main_v14_0 : Vec Ideal S150000x64 .f32) (ix2 r k) := by
  obtain ⟨⟨e0, e1⟩, -⟩ := idx1 t
  unfold iblk1
  rw [View.read_apply]
  show V c main_v14_0 _ = V c main_v14_0 _
  congr 1
  funext a
  apply Fin.ext
  match a with
  | ⟨0, _⟩ => show win1_0.index t (0 : Fin 2) * 3000 + 1 * p.val = r.val; omega
  | ⟨1, _⟩ => show win1_0.index t (1 : Fin 2) * 64 + 1 * k.val = k.val; omega

theorem rows1_1 (c : Dev nD) (t : Fin cfg1.N) (p : Fin 3000) (k : Fin 64) (r : Fin 150000)
    (hr : r.val = 3000 * t.val + p.val) :
    (iblk1 V c 1 t : Vec Ideal S3000x64 .f32) (ix2 p k) = (V c main_v27 : Vec Ideal S150000x64 .f32) (ix2 r k) := by
  obtain ⟨-, ⟨e0, e1⟩, -⟩ := idx1 t
  unfold iblk1
  rw [View.read_apply]
  show V c main_v27 _ = V c main_v27 _
  congr 1
  funext a
  apply Fin.ext
  match a with
  | ⟨0, _⟩ => show win1_1.index t (0 : Fin 2) * 3000 + 1 * p.val = r.val; omega
  | ⟨1, _⟩ => show win1_1.index t (1 : Fin 2) * 64 + 1 * k.val = k.val; omega

theorem whole1_2 (c : Dev nD) (t : Fin cfg1.N) :
    (iblk1 V c 2 t : Vec Ideal S64x64 .f32) = (V c main_arg9 : Vec Ideal S64x64 .f32) := by
  obtain ⟨-, -, ⟨e0, e1⟩, -⟩ := idx1 t
  funext y
  unfold iblk1
  rw [View.read_apply]
  show V c main_arg9 _ = V c main_arg9 y
  congr 1
  funext a
  apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem whole1_3 (c : Dev nD) (t : Fin cfg1.N) :
    (iblk1 V c 3 t : Vec Ideal S1x64 .f32) = (V c main_arg12 : Vec Ideal S1x64 .f32) := by
  obtain ⟨-, -, -, ⟨e0, e1⟩, -⟩ := idx1 t
  funext y
  unfold iblk1
  rw [View.read_apply]
  show V c main_arg12 _ = V c main_arg12 y
  congr 1
  funext a
  apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem whole1_4 (c : Dev nD) (t : Fin cfg1.N) :
    (iblk1 V c 4 t : Vec Ideal S64x64 .f32) = (V c main_arg15 : Vec Ideal S64x64 .f32) := by
  obtain ⟨-, -, -, -, ⟨e0, e1⟩, -⟩ := idx1 t
  funext y
  unfold iblk1
  rw [View.read_apply]
  show V c main_arg15 _ = V c main_arg15 y
  congr 1
  funext a
  apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem whole1_5 (c : Dev nD) (t : Fin cfg1.N) :
    (iblk1 V c 5 t : Vec Ideal S1x64 .f32) = (V c main_arg18 : Vec Ideal S1x64 .f32) := by
  obtain ⟨-, -, -, -, -, ⟨e0, e1⟩, -⟩ := idx1 t
  funext y
  unfold iblk1
  rw [View.read_apply]
  show V c main_arg18 _ = V c main_arg18 y
  congr 1
  funext a
  apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

theorem new_at_point1 (c : Dev nD) (t : Fin cfg1.N) (p : Fin 3000) (r : Fin 150000) (hr : r.val = 3000 * t.val + p.val)
    (q : Fin 64) :
    k0_pay1 (F := Ideal) (iblk1 V c 0 t) (iblk1 V c 1 t) (iblk1 V c 2 t) (iblk1 V c 4 t) (iblk1 V c 3 t) (iblk1 V c 5 t) (ix2 p q)
      = G1_6 V c (ix2 r q) :=
  new_of_blocks0 (V c main_v14_0) (V c main_v27) (V c main_arg9) (V c main_arg12) (V c main_arg15) (V c main_arg18)
    (iblk1 V c 0 t) (iblk1 V c 1 t) (iblk1 V c 2 t) (iblk1 V c 3 t) (iblk1 V c 4 t) (iblk1 V c 5 t) p r
    (fun k => rows1_0 V c t p k r hr) (fun k => rows1_1 V c t p k r hr)
    (whole1_2 V c t) (whole1_3 V c t) (whole1_4 V c t) (whole1_5 V c t) q

theorem normed_at_point1 (c : Dev nD) (t : Fin cfg1.N) (p : Fin 3000) (r : Fin 150000) (hr : r.val = 3000 * t.val + p.val)
    (q : Fin 64) :
    k0_pay2 (F := Ideal) (iblk1 V c 0 t) (iblk1 V c 1 t) (iblk1 V c 2 t) (iblk1 V c 4 t) (iblk1 V c 3 t) (iblk1 V c 5 t) (ix2 p q)
      = G1_7 V c (ix2 r q) := by
  refine (k0_pay2_apply (iblk1 V c 0 t) (iblk1 V c 1 t) (iblk1 V c 2 t) (iblk1 V c 4 t) (iblk1 V c 3 t) (iblk1 V c 5 t) p q).trans ?_
  rw [G1_7_apply]
  exact congrArg (fun v => rowNormed v q) (funext fun j => new_at_point1 V c t p r hr j)

theorem flushed1_6_eq (c : Dev nD) (t : Fin cfg1.N) :
    (dat1 V c).flushed 6 t = ((cfg1.win 6).blk t).view.read (Elt Ideal) (G1_6 V c) := by
  show (cfg1.win 6).cut (grid1.coords t) ((dat1 V c).after 6 t) = _
  rw [after1_6]
  unfold out0_6
  rw [View.canon_unit_zero zero_off0]
  simp only [View.ld_unit_zero (S := S3000x64) zero_off0, View.ld_unit_zero (S := S64x64) zero_off0,
    View.ld_unit_zero (S := S1x64) zero_off0]
  obtain ⟨-, -, -, -, -, -, ⟨e0, e1⟩, -⟩ := idx1 t
  have ht := point_lt1 t
  refine funext fun (y : S3000x64.Idx) => ?_
  obtain ⟨p, q, rfl⟩ : ∃ (p : Fin 3000) (q : Fin 64), y = ix2 p q := ⟨y 0, y 1, eq_ix2 y⟩
  refine (new_at_point1 V c t p ⟨3000 * t.val + p.val, by omega⟩ rfl q).trans ?_
  rw [View.read_apply]
  show G1_6 V c _ = G1_6 V c _
  congr 1
  funext a
  apply Fin.ext
  match a with
  | ⟨0, _⟩ => show 3000 * t.val + p.val = win1_6.index t (0 : Fin 2) * 3000 + 1 * p.val; omega
  | ⟨1, _⟩ => show q.val = win1_6.index t (1 : Fin 2) * 64 + 1 * q.val; omega

theorem flushed1_7_eq (c : Dev nD) (t : Fin cfg1.N) :
    (dat1 V c).flushed 7 t = ((cfg1.win 7).blk t).view.read (Elt Ideal) (G1_7 V c) := by
  show (cfg1.win 7).cut (grid1.coords t) ((dat1 V c).after 7 t) = _
  rw [after1_7]
  unfold out0_7
  rw [View.canon_unit_zero zero_off0]
  simp only [View.ld_unit_zero (S := S3000x64) zero_off0, View.ld_unit_zero (S := S64x64) zero_off0,
    View.ld_unit_zero (S := S1x64) zero_off0]
  obtain ⟨-, -, -, -, -, -, -, ⟨e0, e1⟩⟩ := idx1 t
  have ht := point_lt1 t
  refine funext fun (y : S3000x64.Idx) => ?_
  obtain ⟨p, q, rfl⟩ : ∃ (p : Fin 3000) (q : Fin 64), y = ix2 p q := ⟨y 0, y 1, eq_ix2 y⟩
  refine (normed_at_point1 V c t p ⟨3000 * t.val + p.val, by omega⟩ rfl q).trans ?_
  rw [View.read_apply]
  show G1_7 V c _ = G1_7 V c _
  congr 1
  funext a
  apply Fin.ext
  match a with
  | ⟨0, _⟩ => show 3000 * t.val + p.val = win1_7.index t (0 : Fin 2) * 3000 + 1 * p.val; omega
  | ⟨1, _⟩ => show q.val = win1_7.index t (1 : Fin 2) * 64 + 1 * q.val; omega

theorem mem_blk1_6 (t : Fin cfg1.N) (i : S150000x64.Idx) :
    i ∈ ((cfg1.win 6).blk t).view.set ↔ ∀ a : Fin 2, win1_6.index t a * S3000x64.size a ≤ (i a).val
      ∧ (i a).val < win1_6.index t a * S3000x64.size a + S3000x64.size a := by
  show i ∈ ((View.whole main_v28_0).slice (win1_6.rect t)).set ↔ _
  rw [View.set_slice_whole, Rect.mem_set_unit]
  exact Iff.rfl

theorem mem_blk1_7 (t : Fin cfg1.N) (i : S150000x64.Idx) :
    i ∈ ((cfg1.win 7).blk t).view.set ↔ ∀ a : Fin 2, win1_7.index t a * S3000x64.size a ≤ (i a).val
      ∧ (i a).val < win1_7.index t a * S3000x64.size a + S3000x64.size a := by
  show i ∈ ((View.whole main_v28_1).slice (win1_7.rect t)).set ↔ _
  rw [View.set_slice_whole, Rect.mem_set_unit]
  exact Iff.rfl

theorem covered1_6 (i : S150000x64.Idx) :
    ∃ t : Fin cfg1.N, (cfg1.win 6).flush t = true ∧ i ∈ ((cfg1.win 6).blk t).view.set := by
  have hi0 : (i 0).val < 150000 := (i 0).isLt
  have hi1 : (i 1).val < 64 := (i 1).isLt
  obtain ⟨t, ht⟩ : ∃ t : Fin cfg1.N, t.val = (i 0).val / 3000 :=
    ⟨⟨(i 0).val / 3000, by rw [show cfg1.N = 50 from N_1]; omega⟩, rfl⟩
  obtain ⟨-, -, -, -, -, -, ⟨e0, e1⟩, -⟩ := idx1 t
  refine ⟨t, flush1_6 t, ?_⟩
  rw [mem_blk1_6]
  intro a
  match a with
  | ⟨0, _⟩ => show win1_6.index t (0 : Fin 2) * 3000 ≤ (i 0).val ∧ (i 0).val < win1_6.index t (0 : Fin 2) * 3000 + 3000; omega
  | ⟨1, _⟩ => show win1_6.index t (1 : Fin 2) * 64 ≤ (i 1).val ∧ (i 1).val < win1_6.index t (1 : Fin 2) * 64 + 64; omega

theorem covered1_7 (i : S150000x64.Idx) :
    ∃ t : Fin cfg1.N, (cfg1.win 7).flush t = true ∧ i ∈ ((cfg1.win 7).blk t).view.set := by
  have hi0 : (i 0).val < 150000 := (i 0).isLt
  have hi1 : (i 1).val < 64 := (i 1).isLt
  obtain ⟨t, ht⟩ : ∃ t : Fin cfg1.N, t.val = (i 0).val / 3000 :=
    ⟨⟨(i 0).val / 3000, by rw [show cfg1.N = 50 from N_1]; omega⟩, rfl⟩
  obtain ⟨-, -, -, -, -, -, -, ⟨e0, e1⟩⟩ := idx1 t
  refine ⟨t, flush1_7 t, ?_⟩
  rw [mem_blk1_7]
  intro a
  match a with
  | ⟨0, _⟩ => show win1_7.index t (0 : Fin 2) * 3000 ≤ (i 0).val ∧ (i 0).val < win1_7.index t (0 : Fin 2) * 3000 + 3000; omega
  | ⟨1, _⟩ => show win1_7.index t (1 : Fin 2) * 64 ≤ (i 1).val ∧ (i 1).val < win1_7.index t (1 : Fin 2) * 64 + 64; omega

theorem final1_6 (c : Dev nD) : (dat1 V c).arrAt 6 cfg1.N = G1_6 V c :=
  (dat1 V c).arrAt_eq_of_cover 6 (G1_6 V c) (fun t _ => flushed1_6_eq V c t) covered1_6

theorem final1_7 (c : Dev nD) : (dat1 V c).arrAt 7 cfg1.N = G1_7 V c :=
  (dat1 V c).arrAt_eq_of_cover 7 (G1_7 V c) (fun t _ => flushed1_7_eq V c t) covered1_7

end Cert.KernelIdeal.Hand

end
-- ==== Proof.KIDenseValue2.lean ====
import proofs.«404336_j13099650253234_2_alg».proof.Proof.KIDenseValue0
import proofs.«404336_j13099650253234_2_alg».proof.Proof.KIDense2
import proofs.«404336_j13099650253234_2_alg».proof.Proof.DenseMath
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.DenseMath

variable (V : (c : Dev nD) → (b : Ref sig .tc) → Buf (Elt Ideal) ((c : Thread nD τ).loc b))

def G2_6 (c : Dev nD) : Vec Ideal S150000x64 .f32 := fun i =>
  new0 (V c main_v28_0) (V c main_v41) (V c main_arg10) (V c main_arg13) (V c main_arg16) (V c main_arg19) (i 0) (i 1)

def G2_7 (c : Dev nD) : Vec Ideal S150000x64 .f32 := fun i =>
  rowNormed (fun j => G2_6 V c (ix2 (i 0 : Fin 150000) j)) (i 1)

theorem G2_6_apply (c : Dev nD) (r : Fin 150000) (q : Fin 64) :
    G2_6 V c (ix2 r q) = rowNew (fun k => (V c main_v28_0 : Vec Ideal S150000x64 .f32) (ix2 r k))
      (fun k => (V c main_v41 : Vec Ideal S150000x64 .f32) (ix2 r k))
      (fun k j => (V c main_arg10 : Vec Ideal S64x64 .f32) (ix2 k j)) (fun j => (V c main_arg13 : Vec Ideal S1x64 .f32) (ix2 (0 : Fin 1) j))
      (fun k j => (V c main_arg16 : Vec Ideal S64x64 .f32) (ix2 k j)) (fun j => (V c main_arg19 : Vec Ideal S1x64 .f32) (ix2 (0 : Fin 1) j)) q := rfl

theorem G2_7_apply (c : Dev nD) (r : Fin 150000) (q : Fin 64) :
    G2_7 V c (ix2 r q) = rowNormed (fun j => G2_6 V c (ix2 r j)) q := rfl

theorem point_lt2 (t : Fin cfg2.N) : t.val < 50 := lt_of_lt_of_eq t.isLt N_2

theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

theorem rows2_0 (c : Dev nD) (t : Fin cfg2.N) (p : Fin 3000) (k : Fin 64) (r : Fin 150000)
    (hr : r.val = 3000 * t.val + p.val) :
    (iblk2 V c 0 t : Vec Ideal S3000x64 .f32) (ix2 p k) = (V c main_v28_0 : Vec Ideal S150000x64 .f32) (ix2 r k) := by
  obtain ⟨⟨e0, e1⟩, -⟩ := idx2 t
  unfold iblk2
  rw [View.read_apply]
  show V c main_v28_0 _ = V c main_v28_0 _
  congr 1
  funext a
  apply Fin.ext
  match a with
  | ⟨0, _⟩ => show win2_0.index t (0 : Fin 2) * 3000 + 1 * p.val = r.val; omega
  | ⟨1, _⟩ => show win2_0.index t (1 : Fin 2) * 64 + 1 * k.val = k.val; omega

theorem rows2_1 (c : Dev nD) (t : Fin cfg2.N) (p : Fin 3000) (k : Fin 64) (r : Fin 150000)
    (hr : r.val = 3000 * t.val + p.val) :
    (iblk2 V c 1 t : Vec Ideal S3000x64 .f32) (ix2 p k) = (V c main_v41 : Vec Ideal S150000x64 .f32) (ix2 r k) := by
  obtain ⟨-, ⟨e0, e1⟩, -⟩ := idx2 t
  unfold iblk2
  rw [View.read_apply]
  show V c main_v41 _ = V c main_v41 _
  congr 1
  funext a
  apply Fin.ext
  match a with
  | ⟨0, _⟩ => show win2_1.index t (0 : Fin 2) * 3000 + 1 * p.val = r.val; omega
  | ⟨1, _⟩ => show win2_1.index t (1 : Fin 2) * 64 + 1 * k.val = k.val; omega

theorem whole2_2 (c : Dev nD) (t : Fin cfg2.N) :
    (iblk2 V c 2 t : Vec Ideal S64x64 .f32) = (V c main_arg10 : Vec Ideal S64x64 .f32) := by
  obtain ⟨-, -, ⟨e0, e1⟩, -⟩ := idx2 t
  funext y
  unfold iblk2
  rw [View.read_apply]
  show V c main_arg10 _ = V c main_arg10 y
  congr 1
  funext a
  apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

theorem whole2_3 (c : Dev nD) (t : Fin cfg2.N) :
    (iblk2 V c 3 t : Vec Ideal S1x64 .f32) = (V c main_arg13 : Vec Ideal S1x64 .f32) := by
  obtain ⟨-, -, -, ⟨e0, e1⟩, -⟩ := idx2 t
  funext y
  unfold iblk2
  rw [View.read_apply]
  show V c main_arg13 _ = V c main_arg13 y
  congr 1
  funext a
  apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

theorem whole2_4 (c : Dev nD) (t : Fin cfg2.N) :
    (iblk2 V c 4 t : Vec Ideal S64x64 .f32) = (V c main_arg16 : Vec Ideal S64x64 .f32) := by
  obtain ⟨-, -, -, -, ⟨e0, e1⟩, -⟩ := idx2 t
  funext y
  unfold iblk2
  rw [View.read_apply]
  show V c main_arg16 _ = V c main_arg16 y
  congr 1
  funext a
  apply Fin.ext
  match a with
  | ⟨0, _⟩ => show win2_4.index t (0 : Fin 2) * 64 + 1 * (y 0).val = (y 0).val; omega
  | ⟨1, _⟩ => show win2_4.index t (1 : Fin 2) * 64 + 1 * (y 1).val = (y 1).val; omega

theorem whole2_5 (c : Dev nD) (t : Fin cfg2.N) :
    (iblk2 V c 5 t : Vec Ideal S1x64 .f32) = (V c main_arg19 : Vec Ideal S1x64 .f32) := by
  obtain ⟨-, -, -, -, -, ⟨e0, e1⟩, -⟩ := idx2 t
  funext y
  unfold iblk2
  rw [View.read_apply]
  show V c main_arg19 _ = V c main_arg19 y
  congr 1
  funext a
  apply Fin.ext
  match a with
  | ⟨0, _⟩ => show win2_5.index t (0 : Fin 2) * 1 + 1 * (y 0).val = (y 0).val; omega
  | ⟨1, _⟩ => show win2_5.index t (1 : Fin 2) * 64 + 1 * (y 1).val = (y 1).val; omega

theorem new_at_point2 (c : Dev nD) (t : Fin cfg2.N) (p : Fin 3000) (r : Fin 150000) (hr : r.val = 3000 * t.val + p.val)
    (q : Fin 64) :
    k0_pay1 (F := Ideal) (iblk2 V c 0 t) (iblk2 V c 1 t) (iblk2 V c 2 t) (iblk2 V c 4 t) (iblk2 V c 3 t) (iblk2 V c 5 t) (ix2 p q)
      = G2_6 V c (ix2 r q) :=
  new_of_blocks0 (V c main_v28_0) (V c main_v41) (V c main_arg10) (V c main_arg13) (V c main_arg16) (V c main_arg19)
    (iblk2 V c 0 t) (iblk2 V c 1 t) (iblk2 V c 2 t) (iblk2 V c 3 t) (iblk2 V c 4 t) (iblk2 V c 5 t) p r
    (fun k => rows2_0 V c t p k r hr) (fun k => rows2_1 V c t p k r hr)
    (whole2_2 V c t) (whole2_3 V c t) (whole2_4 V c t) (whole2_5 V c t) q

theorem normed_at_point2 (c : Dev nD) (t : Fin cfg2.N) (p : Fin 3000) (r : Fin 150000) (hr : r.val = 3000 * t.val + p.val)
    (q : Fin 64) :
    k0_pay2 (F := Ideal) (iblk2 V c 0 t) (iblk2 V c 1 t) (iblk2 V c 2 t) (iblk2 V c 4 t) (iblk2 V c 3 t) (iblk2 V c 5 t) (ix2 p q)
      = G2_7 V c (ix2 r q) := by
  refine (k0_pay2_apply (iblk2 V c 0 t) (iblk2 V c 1 t) (iblk2 V c 2 t) (iblk2 V c 4 t) (iblk2 V c 3 t) (iblk2 V c 5 t) p q).trans ?_
  rw [G2_7_apply]
  exact congrArg (fun v => rowNormed v q) (funext fun j => new_at_point2 V c t p r hr j)

theorem flushed2_6_eq (c : Dev nD) (t : Fin cfg2.N) :
    (dat2 V c).flushed 6 t = ((cfg2.win 6).blk t).view.read (Elt Ideal) (G2_6 V c) := by
  show (cfg2.win 6).cut (grid2.coords t) ((dat2 V c).after 6 t) = _
  rw [after2_6]
  unfold out0_6
  rw [View.canon_unit_zero zero_off0]
  simp only [View.ld_unit_zero (S := S3000x64) zero_off0, View.ld_unit_zero (S := S64x64) zero_off0,
    View.ld_unit_zero (S := S1x64) zero_off0]
  obtain ⟨-, -, -, -, -, -, ⟨e0, e1⟩, -⟩ := idx2 t
  have ht := point_lt2 t
  refine funext fun (y : S3000x64.Idx) => ?_
  obtain ⟨p, q, rfl⟩ : ∃ (p : Fin 3000) (q : Fin 64), y = ix2 p q := ⟨y 0, y 1, eq_ix2 y⟩
  refine (new_at_point2 V c t p ⟨3000 * t.val + p.val, by omega⟩ rfl q).trans ?_
  rw [View.read_apply]
  show G2_6 V c _ = G2_6 V c _
  congr 1
  funext a
  apply Fin.ext
  match a with
  | ⟨0, _⟩ => show 3000 * t.val + p.val = win2_6.index t (0 : Fin 2) * 3000 + 1 * p.val; omega
  | ⟨1, _⟩ => show q.val = win2_6.index t (1 : Fin 2) * 64 + 1 * q.val; omega

theorem flushed2_7_eq (c : Dev nD) (t : Fin cfg2.N) :
    (dat2 V c).flushed 7 t = ((cfg2.win 7).blk t).view.read (Elt Ideal) (G2_7 V c) := by
  show (cfg2.win 7).cut (grid2.coords t) ((dat2 V c).after 7 t) = _
  rw [after2_7]
  unfold out0_7
  rw [View.canon_unit_zero zero_off0]
  simp only [View.ld_unit_zero (S := S3000x64) zero_off0, View.ld_unit_zero (S := S64x64) zero_off0,
    View.ld_unit_zero (S := S1x64) zero_off0]
  obtain ⟨-, -, -, -, -, -, -, ⟨e0, e1⟩⟩ := idx2 t
  have ht := point_lt2 t
  refine funext fun (y : S3000x64.Idx) => ?_
  obtain ⟨p, q, rfl⟩ : ∃ (p : Fin 3000) (q : Fin 64), y = ix2 p q := ⟨y 0, y 1, eq_ix2 y⟩
  refine (normed_at_point2 V c t p ⟨3000 * t.val + p.val, by omega⟩ rfl q).trans ?_
  rw [View.read_apply]
  show G2_7 V c _ = G2_7 V c _
  congr 1
  funext a
  apply Fin.ext
  match a with
  | ⟨0, _⟩ => show 3000 * t.val + p.val = win2_7.index t (0 : Fin 2) * 3000 + 1 * p.val; omega
  | ⟨1, _⟩ => show q.val = win2_7.index t (1 : Fin 2) * 64 + 1 * q.val; omega

theorem mem_blk2_6 (t : Fin cfg2.N) (i : S150000x64.Idx) :
    i ∈ ((cfg2.win 6).blk t).view.set ↔ ∀ a : Fin 2, win2_6.index t a * S3000x64.size a ≤ (i a).val
      ∧ (i a).val < win2_6.index t a * S3000x64.size a + S3000x64.size a := by
  show i ∈ ((View.whole main_v42_0).slice (win2_6.rect t)).set ↔ _
  rw [View.set_slice_whole, Rect.mem_set_unit]
  exact Iff.rfl

theorem mem_blk2_7 (t : Fin cfg2.N) (i : S150000x64.Idx) :
    i ∈ ((cfg2.win 7).blk t).view.set ↔ ∀ a : Fin 2, win2_7.index t a * S3000x64.size a ≤ (i a).val
      ∧ (i a).val < win2_7.index t a * S3000x64.size a + S3000x64.size a := by
  show i ∈ ((View.whole main_v42_1).slice (win2_7.rect t)).set ↔ _
  rw [View.set_slice_whole, Rect.mem_set_unit]
  exact Iff.rfl

theorem covered2_6 (i : S150000x64.Idx) :
    ∃ t : Fin cfg2.N, (cfg2.win 6).flush t = true ∧ i ∈ ((cfg2.win 6).blk t).view.set := by
  have hi0 : (i 0).val < 150000 := (i 0).isLt
  have hi1 : (i 1).val < 64 := (i 1).isLt
  obtain ⟨t, ht⟩ : ∃ t : Fin cfg2.N, t.val = (i 0).val / 3000 :=
    ⟨⟨(i 0).val / 3000, by rw [show cfg2.N = 50 from N_2]; omega⟩, rfl⟩
  obtain ⟨-, -, -, -, -, -, ⟨e0, e1⟩, -⟩ := idx2 t
  refine ⟨t, flush2_6 t, ?_⟩
  rw [mem_blk2_6]
  intro a
  match a with
  | ⟨0, _⟩ => show win2_6.index t (0 : Fin 2) * 3000 ≤ (i 0).val ∧ (i 0).val < win2_6.index t (0 : Fin 2) * 3000 + 3000; omega
  | ⟨1, _⟩ => show win2_6.index t (1 : Fin 2) * 64 ≤ (i 1).val ∧ (i 1).val < win2_6.index t (1 : Fin 2) * 64 + 64; omega

theorem covered2_7 (i : S150000x64.Idx) :
    ∃ t : Fin cfg2.N, (cfg2.win 7).flush t = true ∧ i ∈ ((cfg2.win 7).blk t).view.set := by
  have hi0 : (i 0).val < 150000 := (i 0).isLt
  have hi1 : (i 1).val < 64 := (i 1).isLt
  obtain ⟨t, ht⟩ : ∃ t : Fin cfg2.N, t.val = (i 0).val / 3000 :=
    ⟨⟨(i 0).val / 3000, by rw [show cfg2.N = 50 from N_2]; omega⟩, rfl⟩
  obtain ⟨-, -, -, -, -, -, -, ⟨e0, e1⟩⟩ := idx2 t
  refine ⟨t, flush2_7 t, ?_⟩
  rw [mem_blk2_7]
  intro a
  match a with
  | ⟨0, _⟩ => show win2_7.index t (0 : Fin 2) * 3000 ≤ (i 0).val ∧ (i 0).val < win2_7.index t (0 : Fin 2) * 3000 + 3000; omega
  | ⟨1, _⟩ => show win2_7.index t (1 : Fin 2) * 64 ≤ (i 1).val ∧ (i 1).val < win2_7.index t (1 : Fin 2) * 64 + 64; omega

theorem final2_6 (c : Dev nD) : (dat2 V c).arrAt 6 cfg2.N = G2_6 V c :=
  (dat2 V c).arrAt_eq_of_cover 6 (G2_6 V c) (fun t _ => flushed2_6_eq V c t) covered2_6

theorem final2_7 (c : Dev nD) : (dat2 V c).arrAt 7 cfg2.N = G2_7 V c :=
  (dat2 V c).arrAt_eq_of_cover 7 (G2_7 V c) (fun t _ => flushed2_7_eq V c t) covered2_7

end Cert.KernelIdeal.Hand

end
-- ==== Proof.KIDenseRef.lean ====
import proofs.«404336_j13099650253234_2_alg».proof.Proof.KIDenseValue0
import proofs.«404336_j13099650253234_2_alg».proof.Proof.KIDenseValue1
import proofs.«404336_j13099650253234_2_alg».proof.Proof.KIDenseValue2
import proofs.«404336_j13099650253234_2_alg».proof.Proof.DenseMath

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.DenseMath

variable (V : (c : Dev nD) → (b : Ref sig .tc) → Buf (Elt Ideal) ((c : Thread nD τ).loc b))

variable [Cert.ReferenceIdeal.Facts]

theorem G0_6_eq_ref (c : Dev nD) :
    G0_6 V c = refNew (V c main_v0) (V c main_v13) (V c main_arg8) (V c main_arg11) (V c main_arg14) (V c main_arg17) := by
  refine funext fun (i : S150000x64.Idx) => ?_
  obtain ⟨r, q, rfl⟩ : ∃ (r : Fin 150000) (q : Fin 64), i = ix2 r q := ⟨i 0, i 1, eq_ix2 i⟩
  rw [G0_6_apply]
  exact (refNew_apply (V c main_v0) (V c main_v13) (V c main_arg8) (V c main_arg11) (V c main_arg14) (V c main_arg17) r q).symm

theorem G0_7_eq_ref (c : Dev nD) : G0_7 V c = refNormed (G0_6 V c) := by
  refine funext fun (i : S150000x64.Idx) => ?_
  obtain ⟨r, q, rfl⟩ : ∃ (r : Fin 150000) (q : Fin 64), i = ix2 r q := ⟨i 0, i 1, eq_ix2 i⟩
  rw [G0_7_apply]
  exact (refNormed_apply (G0_6 V c) r q).symm

theorem final0_6_ref (c : Dev nD) :
    (dat0 V c).arrAt 6 cfg0.N = refNew (V c main_v0) (V c main_v13) (V c main_arg8) (V c main_arg11) (V c main_arg14) (V c main_arg17) :=
  (final0_6 V c).trans (G0_6_eq_ref V c)

theorem final0_7_ref (c : Dev nD) :
    (dat0 V c).arrAt 7 cfg0.N = refNormed ((dat0 V c).arrAt 6 cfg0.N) := by
  rw [final0_7, final0_6, G0_7_eq_ref]

theorem G1_6_eq_ref (c : Dev nD) :
    G1_6 V c = refNew (V c main_v14_0) (V c main_v27) (V c main_arg9) (V c main_arg12) (V c main_arg15) (V c main_arg18) := by
  refine funext fun (i : S150000x64.Idx) => ?_
  obtain ⟨r, q, rfl⟩ : ∃ (r : Fin 150000) (q : Fin 64), i = ix2 r q := ⟨i 0, i 1, eq_ix2 i⟩
  rw [G1_6_apply]
  exact (refNew_apply (V c main_v14_0) (V c main_v27) (V c main_arg9) (V c main_arg12) (V c main_arg15) (V c main_arg18) r q).symm

theorem G1_7_eq_ref (c : Dev nD) : G1_7 V c = refNormed (G1_6 V c) := by
  refine funext fun (i : S150000x64.Idx) => ?_
  obtain ⟨r, q, rfl⟩ : ∃ (r : Fin 150000) (q : Fin 64), i = ix2 r q := ⟨i 0, i 1, eq_ix2 i⟩
  rw [G1_7_apply]
  exact (refNormed_apply (G1_6 V c) r q).symm

theorem final1_6_ref (c : Dev nD) :
    (dat1 V c).arrAt 6 cfg1.N = refNew (V c main_v14_0) (V c main_v27) (V c main_arg9) (V c main_arg12) (V c main_arg15) (V c main_arg18) :=
  (final1_6 V c).trans (G1_6_eq_ref V c)

theorem final1_7_ref (c : Dev nD) :
    (dat1 V c).arrAt 7 cfg1.N = refNormed ((dat1 V c).arrAt 6 cfg1.N) := by
  rw [final1_7, final1_6, G1_7_eq_ref]

theorem G2_6_eq_ref (c : Dev nD) :
    G2_6 V c = refNew (V c main_v28_0) (V c main_v41) (V c main_arg10) (V c main_arg13) (V c main_arg16) (V c main_arg19) := by
  refine funext fun (i : S150000x64.Idx) => ?_
  obtain ⟨r, q, rfl⟩ : ∃ (r : Fin 150000) (q : Fin 64), i = ix2 r q := ⟨i 0, i 1, eq_ix2 i⟩
  rw [G2_6_apply]
  exact (refNew_apply (V c main_v28_0) (V c main_v41) (V c main_arg10) (V c main_arg13) (V c main_arg16) (V c main_arg19) r q).symm

theorem G2_7_eq_ref (c : Dev nD) : G2_7 V c = refNormed (G2_6 V c) := by
  refine funext fun (i : S150000x64.Idx) => ?_
  obtain ⟨r, q, rfl⟩ : ∃ (r : Fin 150000) (q : Fin 64), i = ix2 r q := ⟨i 0, i 1, eq_ix2 i⟩
  rw [G2_7_apply]
  exact (refNormed_apply (G2_6 V c) r q).symm

theorem final2_6_ref (c : Dev nD) :
    (dat2 V c).arrAt 6 cfg2.N = refNew (V c main_v28_0) (V c main_v41) (V c main_arg10) (V c main_arg13) (V c main_arg16) (V c main_arg19) :=
  (final2_6 V c).trans (G2_6_eq_ref V c)

theorem final2_7_ref (c : Dev nD) :
    (dat2 V c).arrAt 7 cfg2.N = refNormed ((dat2 V c).arrAt 6 cfg2.N) := by
  rw [final2_7, final2_6, G2_7_eq_ref]

end Cert.KernelIdeal.Hand

end
-- ==== Proof.KIValueTables.lean ====
import proofs.«404336_j13099650253234_2_alg».proof.Proof.KIRunDefs
import proofs.«404336_j13099650253234_2_alg».proof.Proof.KIHost
import proofs.«404336_j13099650253234_2_alg».proof.Proof.KIDenseRef

set_option maxRecDepth 16384

noncomputable section

namespace Cert.KernelIdeal.Hand

open Idealize.ShloMosaic Idealize.ShloMosaic.TcCoe
open Cert.KernelIdeal Cert.KernelIdeal.Gen

section Congr
variable [Cert.ReferenceIdeal.Facts]

theorem refNew_congr {e e' s s' : FVec Ideal Cert.ReferenceIdeal.S150000x64 .f32}
    {w w' u u' : FVec Ideal Cert.ReferenceIdeal.S64x64 .f32} {b b' d d' : FVec Ideal Cert.ReferenceIdeal.S1x64 .f32}
    (he : e = e') (hs : s = s') (hw : w = w') (hb : b = b') (hu : u = u') (hd : d = d') :
    Cert.DenseMath.refNew e s w b u d = Cert.DenseMath.refNew e' s' w' b' u' d' := by
  subst he hs hw hb hu hd; rfl

theorem spmm_congr {r r' k k' : IVec Cert.ReferenceIdeal.S2400000 32} {v v' : FVec Ideal Cert.ReferenceIdeal.S2400000 .f32}
    {x x' : FVec Ideal Cert.ReferenceIdeal.S150000x64 .f32} (hr : r = r') (hk : k = k') (hv : v = v') (hx : x = x') :
    Cert.Spec.spmm r k v x = Cert.Spec.spmm r' k' v' x' := by
  subst hr hk hv hx; rfl

theorem tableOf_congr {e e' p p' q q' t t' : FVec Ideal Cert.ReferenceIdeal.S150000x64 .f32}
    (he : e = e') (hp : p = p') (hq : q = q') (ht : t = t') :
    Cert.Spec.tableOf e p q t = Cert.Spec.tableOf e' p' q' t' := by
  subst he hp hq ht; rfl

end Congr

variable [Cert.ReferenceIdeal.Facts]
variable (m : (ℓ : Loc nD τ sig) → Buf (Elt Ideal) ℓ)

abbrev Arg (c : Dev nD) (r : Ref sig .tc) : Buf (Elt Ideal) ((c : Thread nD τ).loc r) := m ((c : Thread nD τ).loc r)

theorem keep1 (c : Dev nD) (r : Ref sig .tc) (h0 : r ∉ hostOps0_W) : V1 m c r = Arg m c r :=
  (V1_of m c r h0).trans rfl
theorem keep2 (outs : Outs (F := Ideal)) (c : Dev nD) (r : Ref sig .tc) (h0 : r ∉ hostOps0_W)
    (h1 : r ∉ ([main_v14_0, main_v14_1] : List (Ref sig .tc))) : V2 m outs c r = Arg m c r :=
  (V2_of m outs c r h1).trans (keep1 m c r h0)
theorem keep3 (outs : Outs (F := Ideal)) (c : Dev nD) (r : Ref sig .tc) (h0 : r ∉ hostOps0_W)
    (h1 : r ∉ ([main_v14_0, main_v14_1] : List (Ref sig .tc))) (h2 : r ∉ hostOps1_W) : V3 m outs c r = Arg m c r :=
  (V3_of m outs c r h2).trans (keep2 m outs c r h0 h1)
theorem keep4 (outs : Outs (F := Ideal)) (c : Dev nD) (r : Ref sig .tc) (h0 : r ∉ hostOps0_W)
    (h1 : r ∉ ([main_v14_0, main_v14_1] : List (Ref sig .tc))) (h2 : r ∉ hostOps1_W)
    (h3 : r ∉ ([main_v28_0, main_v28_1] : List (Ref sig .tc))) : V4 m outs c r = Arg m c r :=
  (V4_of m outs c r h3).trans (keep3 m outs c r h0 h1 h2)
theorem keep5 (outs : Outs (F := Ideal)) (c : Dev nD) (r : Ref sig .tc) (h0 : r ∉ hostOps0_W)
    (h1 : r ∉ ([main_v14_0, main_v14_1] : List (Ref sig .tc))) (h2 : r ∉ hostOps1_W)
    (h3 : r ∉ ([main_v28_0, main_v28_1] : List (Ref sig .tc))) (h4 : r ∉ hostOps2_W) : V5 m outs c r = Arg m c r :=
  (V5_of m outs c r h4).trans (keep4 m outs c r h0 h1 h2 h3)

theorem V2_outsC (c : Dev nD) : V2 m (outsC m) c = V2 m (outsA m) c := rfl
theorem V4_outsC (c : Dev nD) : V4 m (outsC m) c = V4 m (outsB m) c := rfl

theorem v1_ego (c : Dev nD) : V1 m c main_v0 = Cert.Spec.ego (Arg m c main_arg6) (Arg m c main_arg7) :=
  host0_v0 (V0 m c)

theorem v1_side (c : Dev nD) :
    V1 m c main_v13 = Cert.Spec.spmm (Arg m c main_arg3) (Arg m c main_arg4) (Arg m c main_arg5) (Cert.Spec.ego (Arg m c main_arg6) (Arg m c main_arg7)) :=
  host0_v13 (V0 m c)

theorem t2_new0 (c : Dev nD) : T2 m c main_v14_0 = Cert.Spec.new0 (Arg m c main_arg3) (Arg m c main_arg4) (Arg m c main_arg5) (Arg m c main_arg6) (Arg m c main_arg7) (Arg m c main_arg8) (Arg m c main_arg11) (Arg m c main_arg14) (Arg m c main_arg17) := by
  unfold Cert.Spec.new0 Cert.Spec.layer
  exact (out0_6_eq m c).trans ((final0_6_ref (T1 m) c).trans
    (refNew_congr (v1_ego m c) (v1_side m c) (keep1 m c main_arg8 (by decide)) (keep1 m c main_arg11 (by decide))
      (keep1 m c main_arg14 (by decide)) (keep1 m c main_arg17 (by decide))))

theorem t2_nrm0 (c : Dev nD) : T2 m c main_v14_1 = Cert.Spec.nrm0 (Arg m c main_arg3) (Arg m c main_arg4) (Arg m c main_arg5) (Arg m c main_arg6) (Arg m c main_arg7) (Arg m c main_arg8) (Arg m c main_arg11) (Arg m c main_arg14) (Arg m c main_arg17) := by
  unfold Cert.Spec.nrm0
  exact (out0_7_eq m c).trans ((final0_7_ref (T1 m) c).trans
    (congrArg Cert.DenseMath.refNormed ((out0_6_eq m c).symm.trans (t2_new0 m c))))

theorem v3_new0 (c : Dev nD) : V3 m (outsA m) c main_v14_0 = Cert.Spec.new0 (Arg m c main_arg3) (Arg m c main_arg4) (Arg m c main_arg5) (Arg m c main_arg6) (Arg m c main_arg7) (Arg m c main_arg8) (Arg m c main_arg11) (Arg m c main_arg14) (Arg m c main_arg17) :=
  (V3_of m (outsA m) c main_v14_0 (by decide)).trans (t2_new0 m c)

theorem v3_side (c : Dev nD) :
    V3 m (outsA m) c main_v27 = Cert.Spec.spmm (Arg m c main_arg3) (Arg m c main_arg4) (Arg m c main_arg5) (Cert.Spec.new0 (Arg m c main_arg3) (Arg m c main_arg4) (Arg m c main_arg5) (Arg m c main_arg6) (Arg m c main_arg7) (Arg m c main_arg8) (Arg m c main_arg11) (Arg m c main_arg14) (Arg m c main_arg17)) :=
  (host1_v27 (V2 m (outsA m) c)).trans
    (spmm_congr (keep2 m (outsA m) c main_arg3 (by decide) (by decide)) (keep2 m (outsA m) c main_arg4 (by decide) (by decide))
      (keep2 m (outsA m) c main_arg5 (by decide) (by decide)) (t2_new0 m c))

theorem t4_new1 (c : Dev nD) : T4 m c main_v28_0 = Cert.Spec.new1 (Arg m c main_arg3) (Arg m c main_arg4) (Arg m c main_arg5) (Arg m c main_arg6) (Arg m c main_arg7) (Arg m c main_arg8) (Arg m c main_arg9) (Arg m c main_arg11) (Arg m c main_arg12) (Arg m c main_arg14) (Arg m c main_arg15) (Arg m c main_arg17) (Arg m c main_arg18) := by
  unfold Cert.Spec.new1 Cert.Spec.layer
  exact (out1_6_eq m c).trans ((final1_6_ref (T3 m) c).trans
    (refNew_congr (v3_new0 m c) (v3_side m c) (keep3 m (outsA m) c main_arg9 (by decide) (by decide) (by decide))
      (keep3 m (outsA m) c main_arg12 (by decide) (by decide) (by decide)) (keep3 m (outsA m) c main_arg15 (by decide) (by decide) (by decide))
      (keep3 m (outsA m) c main_arg18 (by decide) (by decide) (by decide))))

theorem t4_nrm1 (c : Dev nD) : T4 m c main_v28_1 = Cert.Spec.nrm1 (Arg m c main_arg3) (Arg m c main_arg4) (Arg m c main_arg5) (Arg m c main_arg6) (Arg m c main_arg7) (Arg m c main_arg8) (Arg m c main_arg9) (Arg m c main_arg11) (Arg m c main_arg12) (Arg m c main_arg14) (Arg m c main_arg15) (Arg m c main_arg17) (Arg m c main_arg18) := by
  unfold Cert.Spec.nrm1
  exact (out1_7_eq m c).trans ((final1_7_ref (T3 m) c).trans
    (congrArg Cert.DenseMath.refNormed ((out1_6_eq m c).symm.trans (t4_new1 m c))))

theorem v5_new1 (c : Dev nD) : V5 m (outsB m) c main_v28_0 = Cert.Spec.new1 (Arg m c main_arg3) (Arg m c main_arg4) (Arg m c main_arg5) (Arg m c main_arg6) (Arg m c main_arg7) (Arg m c main_arg8) (Arg m c main_arg9) (Arg m c main_arg11) (Arg m c main_arg12) (Arg m c main_arg14) (Arg m c main_arg15) (Arg m c main_arg17) (Arg m c main_arg18) :=
  (V5_of m (outsB m) c main_v28_0 (by decide)).trans (t4_new1 m c)

theorem v5_side (c : Dev nD) :
    V5 m (outsB m) c main_v41 = Cert.Spec.spmm (Arg m c main_arg3) (Arg m c main_arg4) (Arg m c main_arg5) (Cert.Spec.new1 (Arg m c main_arg3) (Arg m c main_arg4) (Arg m c main_arg5) (Arg m c main_arg6) (Arg m c main_arg7) (Arg m c main_arg8) (Arg m c main_arg9) (Arg m c main_arg11) (Arg m c main_arg12) (Arg m c main_arg14) (Arg m c main_arg15) (Arg m c main_arg17) (Arg m c main_arg18)) :=
  (host2_v41 (V4 m (outsB m) c)).trans
    (spmm_congr (keep4 m (outsB m) c main_arg3 (by decide) (by decide) (by decide) (by decide)) (keep4 m (outsB m) c main_arg4 (by decide) (by decide) (by decide) (by decide))
      (keep4 m (outsB m) c main_arg5 (by decide) (by decide) (by decide) (by decide)) (t4_new1 m c))

theorem t6_new2 (c : Dev nD) : T6 m c main_v42_0 = Cert.Spec.new2 (Arg m c main_arg3) (Arg m c main_arg4) (Arg m c main_arg5) (Arg m c main_arg6) (Arg m c main_arg7) (Arg m c main_arg8) (Arg m c main_arg9) (Arg m c main_arg10) (Arg m c main_arg11) (Arg m c main_arg12) (Arg m c main_arg13) (Arg m c main_arg14) (Arg m c main_arg15) (Arg m c main_arg16) (Arg m c main_arg17) (Arg m c main_arg18) (Arg m c main_arg19) := by
  unfold Cert.Spec.new2 Cert.Spec.layer
  exact (out2_6_eq m c).trans ((final2_6_ref (T5 m) c).trans
    (refNew_congr (v5_new1 m c) (v5_side m c) (keep5 m (outsB m) c main_arg10 (by decide) (by decide) (by decide) (by decide) (by decide))
      (keep5 m (outsB m) c main_arg13 (by decide) (by decide) (by decide) (by decide) (by decide)) (keep5 m (outsB m) c main_arg16 (by decide) (by decide) (by decide) (by decide) (by decide))
      (keep5 m (outsB m) c main_arg19 (by decide) (by decide) (by decide) (by decide) (by decide))))

theorem t6_nrm2 (c : Dev nD) : T6 m c main_v42_1 = Cert.Spec.nrm2 (Arg m c main_arg3) (Arg m c main_arg4) (Arg m c main_arg5) (Arg m c main_arg6) (Arg m c main_arg7) (Arg m c main_arg8) (Arg m c main_arg9) (Arg m c main_arg10) (Arg m c main_arg11) (Arg m c main_arg12) (Arg m c main_arg13) (Arg m c main_arg14) (Arg m c main_arg15) (Arg m c main_arg16) (Arg m c main_arg17) (Arg m c main_arg18) (Arg m c main_arg19) := by
  unfold Cert.Spec.nrm2
  exact (out2_7_eq m c).trans ((final2_7_ref (T5 m) c).trans
    (congrArg Cert.DenseMath.refNormed ((out2_6_eq m c).symm.trans (t6_new2 m c))))

theorem v6_ego (c : Dev nD) : V6 m (outsC m) c main_v0 = Cert.Spec.ego (Arg m c main_arg6) (Arg m c main_arg7) :=
  (V6_of m (outsC m) c main_v0 (by decide)).trans <| (V5_of m (outsC m) c main_v0 (by decide)).trans <|
    (V4_of m (outsC m) c main_v0 (by decide)).trans <| (V3_of m (outsC m) c main_v0 (by decide)).trans <|
    (V2_of m (outsC m) c main_v0 (by decide)).trans (v1_ego m c)

theorem v6_nrm0 (c : Dev nD) : V6 m (outsC m) c main_v14_1 = Cert.Spec.nrm0 (Arg m c main_arg3) (Arg m c main_arg4) (Arg m c main_arg5) (Arg m c main_arg6) (Arg m c main_arg7) (Arg m c main_arg8) (Arg m c main_arg11) (Arg m c main_arg14) (Arg m c main_arg17) :=
  (V6_of m (outsC m) c main_v14_1 (by decide)).trans <| (V5_of m (outsC m) c main_v14_1 (by decide)).trans <|
    (V4_of m (outsC m) c main_v14_1 (by decide)).trans <| (V3_of m (outsC m) c main_v14_1 (by decide)).trans <|
    (congrFun (V2_outsC m c) _).trans (t2_nrm0 m c)

theorem v6_nrm1 (c : Dev nD) : V6 m (outsC m) c main_v28_1 = Cert.Spec.nrm1 (Arg m c main_arg3) (Arg m c main_arg4) (Arg m c main_arg5) (Arg m c main_arg6) (Arg m c main_arg7) (Arg m c main_arg8) (Arg m c main_arg9) (Arg m c main_arg11) (Arg m c main_arg12) (Arg m c main_arg14) (Arg m c main_arg15) (Arg m c main_arg17) (Arg m c main_arg18) :=
  (V6_of m (outsC m) c main_v28_1 (by decide)).trans <| (V5_of m (outsC m) c main_v28_1 (by decide)).trans <|
    (congrFun (V4_outsC m c) _).trans (t4_nrm1 m c)

theorem v6_nrm2 (c : Dev nD) : V6 m (outsC m) c main_v42_1 = Cert.Spec.nrm2 (Arg m c main_arg3) (Arg m c main_arg4) (Arg m c main_arg5) (Arg m c main_arg6) (Arg m c main_arg7) (Arg m c main_arg8) (Arg m c main_arg9) (Arg m c main_arg10) (Arg m c main_arg11) (Arg m c main_arg12) (Arg m c main_arg13) (Arg m c main_arg14) (Arg m c main_arg15) (Arg m c main_arg16) (Arg m c main_arg17) (Arg m c main_arg18) (Arg m c main_arg19) :=
  t6_nrm2 m c

theorem table_v46 (c : Dev nD) :
    V7 m (outsC m) c main_v46
      = shapeCast S100000x1x256
          (Cert.Spec.uTable (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
          shapeCasts_S100000x256_S100000x1x256 := by
  unfold Cert.Spec.uTable Cert.Spec.table
  exact (host3_v46 (V6 m (outsC m) c)).trans
    (congrArg (fun t => shapeCast S100000x1x256 (Cert.Spec.uRows t) shapeCasts_S100000x256_S100000x1x256)
      (tableOf_congr (v6_ego m c) (v6_nrm0 m c) (v6_nrm1 m c) (v6_nrm2 m c)))

theorem table_v47 (c : Dev nD) :
    V7 m (outsC m) c main_v47
      = shapeCast S50000x1x256
          (Cert.Spec.iTable (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
          shapeCasts_S50000x256_S50000x1x256 := by
  unfold Cert.Spec.iTable Cert.Spec.table
  exact (host3_v47 (V6 m (outsC m) c)).trans
    (congrArg (fun t => shapeCast S50000x1x256 (Cert.Spec.iRows t) shapeCasts_S50000x256_S50000x1x256)
      (tableOf_congr (v6_ego m c) (v6_nrm0 m c) (v6_nrm1 m c) (v6_nrm2 m c)))

end Cert.KernelIdeal.Hand

end
-- ==== Proof.KIGatherValue3.lean ====
import proofs.«404336_j13099650253234_2_alg».proof.Proof.KIGather3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (a : (pcfg3 (F := F)).Adm)
variable (V : (c : Dev nD) → (b : Ref sig .tc) → Buf (Elt F) ((c : Thread nD τ).loc b))

theorem hz3 : (![0, 0, 0] : Fin 3 → Nat) = fun _ => 0 := funext fun ax => by fin_cases ax <;> rfl

theorem N3 : (cfg3 a).N = 4096 := N_3

theorem outRow3 (t : Fin (cfg3 a).N) : (BitVec.ofNat 32 (grid3.coords t 0).val).toNat = t.val := by
  have h : t.val < 4096 := (N3 a) ▸ t.isLt
  rw [coords3_val, BitVec.toNat_ofNat, Nat.mod_eq_of_lt (by omega)]

theorem pay3_1_eq (x : Vec F S1x1x256 .f32) : k3_pay1 x = x := by unfold k3_pay1; exact shapeCast_self _ _

theorem out3_3_eq (x0 : Vec F S1x1x256 .f32) : out3_3 x0 = x0 := by
  unfold out3_3
  rw [View.canon_unit_zero hz3, pay3_1_eq, View.ld_unit_zero (S := S1x1x256) hz3]

theorem row3_0_lt (i : Fin 4096) : (a.1 0 (tix i)).toNat < 100000 := by
  obtain ⟨h, -⟩ := a.2.1 (ValueIdx.ix1 i : grid3.Coords)
  have h0 := h 0
  rw [transform3_0_val] at h0
  have h1 : ((a.1 0 (tix i)).toNat + 1) * 1 ≤ 100000 := h0
  omega

def row3_0 (i : Fin 4096) : Fin 100000 := ⟨(a.1 0 (tix i)).toNat, row3_0_lt a i⟩

def gathered3_0 (c : Dev nD) : S4096x1x256.Idx → Elt F .f32 :=
  fun y => (V c main_v46 : S100000x1x256.Idx → Elt F .f32) (ValueIdx.ix3 (row3_0 a (y 0)) (y 1) (y 2))

theorem gathered3_0_at (c : Dev nD) (q : S4096x1x256.Idx) (p : S100000x1x256.Idx) (r : Fin 4096) (hr : r.val = (q 0).val)
    (h0 : (p 0).val = (a.1 0 (tix r)).toNat) (h1 : (p 1).val = (q 1).val) (h2 : (p 2).val = (q 2).val) :
    gathered3_0 a V c q = (V c main_v46 : S100000x1x256.Idx → Elt F .f32) p := by
  obtain rfl : r = q 0 := Fin.ext hr
  unfold gathered3_0
  refine congrArg (V c main_v46 : S100000x1x256.Idx → Elt F .f32) ?_
  funext ax
  apply Fin.ext
  match ax with
  | ⟨0, _⟩ => exact h0.symm
  | ⟨1, _⟩ => exact h1.symm
  | ⟨2, _⟩ => exact h2.symm

theorem oix3_3_0 (t : Fin (cfg3 a).N) : ((cfg3 a).win 3).index t (0 : Fin 3) = t.val :=
  (congrFun (ix3_val_3 a t) (0 : Fin 3)).trans (outRow3 a t)
theorem oix3_3_1 (t : Fin (cfg3 a).N) : ((cfg3 a).win 3).index t (1 : Fin 3) = 0 := congrFun (ix3_val_3 a t) (1 : Fin 3)
theorem oix3_3_2 (t : Fin (cfg3 a).N) : ((cfg3 a).win 3).index t (2 : Fin 3) = 0 := congrFun (ix3_val_3 a t) (2 : Fin 3)

theorem iix3_0_0 (t : Fin (cfg3 a).N) : ((cfg3 a).win 0).index t (0 : Fin 3)
    = (a.1 0 (tix ⟨(grid3.coords t 0).val, (grid3.coords t 0).isLt⟩)).toNat := congrFun (ix3_val_0 a t) (0 : Fin 3)
theorem iix3_0_1 (t : Fin (cfg3 a).N) : ((cfg3 a).win 0).index t (1 : Fin 3) = 0 := congrFun (ix3_val_0 a t) (1 : Fin 3)
theorem iix3_0_2 (t : Fin (cfg3 a).N) : ((cfg3 a).win 0).index t (2 : Fin 3) = 0 := congrFun (ix3_val_0 a t) (2 : Fin 3)

set_option maxHeartbeats 400000 in

theorem flushed3_3_eq (c : Dev nD) (t : Fin (cfg3 a).N) :
    (dat3 a V c).flushed 3 t = (((cfg3 a).win 3).blk t).view.read (Elt F) (gathered3_0 a V c) := by
  show ((cfg3 a).win 3).cut ((cfg3 a).grid.coords t) ((dat3 a V c).after 3 t) = _
  rw [after3_3]
  have e : out3_3 (iblk3 a V c 0 t) = iblk3 a V c 0 t := out3_3_eq _
  rw [e]
  refine funext fun (y : S1x1x256.Idx) => ?_
  have hy0 : (y 0).val = 0 := by have h : (y 0).val < 1 := (y 0).isLt; omega
  show (V c main_v46 : S100000x1x256.Idx → Elt F .f32) ((((cfg3 a).win 0).blk t).view.emb y)
    = gathered3_0 a V c ((((cfg3 a).win 3).blk t).view.emb y)
  refine (gathered3_0_at a V c _ _ ⟨(grid3.coords t 0).val, (grid3.coords t 0).isLt⟩ ?_ ?_ ?_ ?_).symm
  · show (grid3.coords t 0).val = ((cfg3 a).win 3).index t (0 : Fin 3) * 1 + 1 * (y 0).val
    rw [oix3_3_0 a t, coords3_val, hy0, Nat.mul_one, Nat.mul_zero, Nat.add_zero]
  · show ((cfg3 a).win 0).index t (0 : Fin 3) * 1 + 1 * (y 0).val = _
    rw [iix3_0_0 a t, hy0, Nat.mul_one, Nat.mul_zero, Nat.add_zero]
  · show ((cfg3 a).win 0).index t (1 : Fin 3) * 1 + 1 * (y 1).val = ((cfg3 a).win 3).index t (1 : Fin 3) * 1 + 1 * (y 1).val
    rw [iix3_0_1 a t, oix3_3_1 a t]
  · show ((cfg3 a).win 0).index t (2 : Fin 3) * 256 + 1 * (y 2).val = ((cfg3 a).win 3).index t (2 : Fin 3) * 256 + 1 * (y 2).val
    rw [iix3_0_2 a t, oix3_3_2 a t]

theorem mem_slice3_3 (r : Rect S4096x1x256) (i : S4096x1x256.Idx) :
    i ∈ ((View.whole main_v48_0).slice r).set ↔ i ∈ r.set := by
  rw [View.set_slice_whole main_v48_0 r]

theorem flush3_3 (t : Fin (cfg3 a).N) : ((cfg3 a).win 3).flush t = true := by
  refine (Pipeline.Window.flush_out ((cfg3 a).win 3) rfl t).mpr ?_
  have hN : (cfg3 a).grid.N = 4096 := N_3
  have hN' : (cfg3 a).N = 4096 := N3 a
  have ht := t.isLt
  by_cases h : t.val + 1 = (cfg3 a).grid.N
  · exact .inl h
  · have hlt : t.val + 1 < (cfg3 a).N := by omega
    refine .inr ⟨by omega, fun e => ?_⟩
    have e0 : ((cfg3 a).win 3).index (⟨t.val + 1, hlt⟩ : Fin (cfg3 a).N) (0 : Fin 3) = ((cfg3 a).win 3).index t (0 : Fin 3) :=
      congrFun e (0 : Fin 3)
    rw [oix3_3_0 a, oix3_3_0 a] at e0
    have e1 : t.val + 1 = t.val := e0
    omega

theorem cover3_3 (i : S4096x1x256.Idx) : ∃ t : Fin (cfg3 a).N, ((cfg3 a).win 3).flush t = true ∧ i ∈ (((cfg3 a).win 3).blk t).view.set := by
  have hi0 : (i 0).val < 4096 := (i 0).isLt
  have hi1 : (i 1).val < 1 := (i 1).isLt
  have hi2 : (i 2).val < 256 := (i 2).isLt
  obtain ⟨t, ht⟩ : ∃ t : Fin (cfg3 a).N, t.val = (i 0).val := ⟨⟨(i 0).val, by rw [N3 a]; exact hi0⟩, rfl⟩
  refine ⟨t, flush3_3 a t, (mem_slice3_3 (((cfg3 a).win 3).rect t) i).mpr (Rect.mem_set_unit.mpr ?_)⟩
  intro (ax : Fin 3)
  match ax with
  | ⟨0, _⟩ =>
    show ((cfg3 a).win 3).index t (0 : Fin 3) * 1 ≤ (i 0).val ∧ (i 0).val < ((cfg3 a).win 3).index t (0 : Fin 3) * 1 + 1
    rw [oix3_3_0 a t]; omega
  | ⟨1, _⟩ =>
    show ((cfg3 a).win 3).index t (1 : Fin 3) * 1 ≤ (i 1).val ∧ (i 1).val < ((cfg3 a).win 3).index t (1 : Fin 3) * 1 + 1
    rw [oix3_3_1 a t]; omega
  | ⟨2, _⟩ =>
    show ((cfg3 a).win 3).index t (2 : Fin 3) * 256 ≤ (i 2).val ∧ (i 2).val < ((cfg3 a).win 3).index t (2 : Fin 3) * 256 + 256
    rw [oix3_3_2 a t]; omega

theorem final3_3_all (c : Dev nD) : (dat3 a V c).arrAt 3 (cfg3 a).N = gathered3_0 a V c :=
  (dat3 a V c).arrAt_eq_of_cover 3 (gathered3_0 a V c) (fun t _ => flushed3_3_eq a V c t) (cover3_3 a)

theorem final3_3 (c : Dev nD) (i : Fin 4096) (j : Fin 256) :
    (dat3 a V c).arrAt 3 (cfg3 a).N (ValueIdx.ix3 i (0 : Fin 1) j)
      = V c main_v46 (ValueIdx.ix3 (row3_0 a i) (0 : Fin 1) j) := by
  rw [final3_3_all]; rfl

theorem pay3_2_eq (x : Vec F S1x1x256 .f32) : k3_pay2 x = x := by unfold k3_pay2; exact shapeCast_self _ _

theorem out3_4_eq (x0 : Vec F S1x1x256 .f32) : out3_4 x0 = x0 := by
  unfold out3_4
  rw [View.canon_unit_zero hz3, pay3_2_eq, View.ld_unit_zero (S := S1x1x256) hz3]

theorem row3_1_lt (i : Fin 4096) : (a.1 1 (tix i)).toNat < 50000 := by
  obtain ⟨h, -⟩ := a.2.2.1 (ValueIdx.ix1 i : grid3.Coords)
  have h0 := h 0
  rw [transform3_1_val] at h0
  have h1 : ((a.1 1 (tix i)).toNat + 1) * 1 ≤ 50000 := h0
  omega

def row3_1 (i : Fin 4096) : Fin 50000 := ⟨(a.1 1 (tix i)).toNat, row3_1_lt a i⟩

def gathered3_1 (c : Dev nD) : S4096x1x256.Idx → Elt F .f32 :=
  fun y => (V c main_v47 : S50000x1x256.Idx → Elt F .f32) (ValueIdx.ix3 (row3_1 a (y 0)) (y 1) (y 2))

theorem gathered3_1_at (c : Dev nD) (q : S4096x1x256.Idx) (p : S50000x1x256.Idx) (r : Fin 4096) (hr : r.val = (q 0).val)
    (h0 : (p 0).val = (a.1 1 (tix r)).toNat) (h1 : (p 1).val = (q 1).val) (h2 : (p 2).val = (q 2).val) :
    gathered3_1 a V c q = (V c main_v47 : S50000x1x256.Idx → Elt F .f32) p := by
  obtain rfl : r = q 0 := Fin.ext hr
  unfold gathered3_1
  refine congrArg (V c main_v47 : S50000x1x256.Idx → Elt F .f32) ?_
  funext ax
  apply Fin.ext
  match ax with
  | ⟨0, _⟩ => exact h0.symm
  | ⟨1, _⟩ => exact h1.symm
  | ⟨2, _⟩ => exact h2.symm

theorem oix3_4_0 (t : Fin (cfg3 a).N) : ((cfg3 a).win 4).index t (0 : Fin 3) = t.val :=
  (congrFun (ix3_val_4 a t) (0 : Fin 3)).trans (outRow3 a t)
theorem oix3_4_1 (t : Fin (cfg3 a).N) : ((cfg3 a).win 4).index t (1 : Fin 3) = 0 := congrFun (ix3_val_4 a t) (1 : Fin 3)
theorem oix3_4_2 (t : Fin (cfg3 a).N) : ((cfg3 a).win 4).index t (2 : Fin 3) = 0 := congrFun (ix3_val_4 a t) (2 : Fin 3)

theorem iix3_1_0 (t : Fin (cfg3 a).N) : ((cfg3 a).win 1).index t (0 : Fin 3)
    = (a.1 1 (tix ⟨(grid3.coords t 0).val, (grid3.coords t 0).isLt⟩)).toNat := congrFun (ix3_val_1 a t) (0 : Fin 3)
theorem iix3_1_1 (t : Fin (cfg3 a).N) : ((cfg3 a).win 1).index t (1 : Fin 3) = 0 := congrFun (ix3_val_1 a t) (1 : Fin 3)
theorem iix3_1_2 (t : Fin (cfg3 a).N) : ((cfg3 a).win 1).index t (2 : Fin 3) = 0 := congrFun (ix3_val_1 a t) (2 : Fin 3)

set_option maxHeartbeats 400000 in

theorem flushed3_4_eq (c : Dev nD) (t : Fin (cfg3 a).N) :
    (dat3 a V c).flushed 4 t = (((cfg3 a).win 4).blk t).view.read (Elt F) (gathered3_1 a V c) := by
  show ((cfg3 a).win 4).cut ((cfg3 a).grid.coords t) ((dat3 a V c).after 4 t) = _
  rw [after3_4]
  have e : out3_4 (iblk3 a V c 1 t) = iblk3 a V c 1 t := out3_4_eq _
  rw [e]
  refine funext fun (y : S1x1x256.Idx) => ?_
  have hy0 : (y 0).val = 0 := by have h : (y 0).val < 1 := (y 0).isLt; omega
  show (V c main_v47 : S50000x1x256.Idx → Elt F .f32) ((((cfg3 a).win 1).blk t).view.emb y)
    = gathered3_1 a V c ((((cfg3 a).win 4).blk t).view.emb y)
  refine (gathered3_1_at a V c _ _ ⟨(grid3.coords t 0).val, (grid3.coords t 0).isLt⟩ ?_ ?_ ?_ ?_).symm
  · show (grid3.coords t 0).val = ((cfg3 a).win 4).index t (0 : Fin 3) * 1 + 1 * (y 0).val
    rw [oix3_4_0 a t, coords3_val, hy0, Nat.mul_one, Nat.mul_zero, Nat.add_zero]
  · show ((cfg3 a).win 1).index t (0 : Fin 3) * 1 + 1 * (y 0).val = _
    rw [iix3_1_0 a t, hy0, Nat.mul_one, Nat.mul_zero, Nat.add_zero]
  · show ((cfg3 a).win 1).index t (1 : Fin 3) * 1 + 1 * (y 1).val = ((cfg3 a).win 4).index t (1 : Fin 3) * 1 + 1 * (y 1).val
    rw [iix3_1_1 a t, oix3_4_1 a t]
  · show ((cfg3 a).win 1).index t (2 : Fin 3) * 256 + 1 * (y 2).val = ((cfg3 a).win 4).index t (2 : Fin 3) * 256 + 1 * (y 2).val
    rw [iix3_1_2 a t, oix3_4_2 a t]

theorem mem_slice3_4 (r : Rect S4096x1x256) (i : S4096x1x256.Idx) :
    i ∈ ((View.whole main_v48_1).slice r).set ↔ i ∈ r.set := by
  rw [View.set_slice_whole main_v48_1 r]

theorem flush3_4 (t : Fin (cfg3 a).N) : ((cfg3 a).win 4).flush t = true := by
  refine (Pipeline.Window.flush_out ((cfg3 a).win 4) rfl t).mpr ?_
  have hN : (cfg3 a).grid.N = 4096 := N_3
  have hN' : (cfg3 a).N = 4096 := N3 a
  have ht := t.isLt
  by_cases h : t.val + 1 = (cfg3 a).grid.N
  · exact .inl h
  · have hlt : t.val + 1 < (cfg3 a).N := by omega
    refine .inr ⟨by omega, fun e => ?_⟩
    have e0 : ((cfg3 a).win 4).index (⟨t.val + 1, hlt⟩ : Fin (cfg3 a).N) (0 : Fin 3) = ((cfg3 a).win 4).index t (0 : Fin 3) :=
      congrFun e (0 : Fin 3)
    rw [oix3_4_0 a, oix3_4_0 a] at e0
    have e1 : t.val + 1 = t.val := e0
    omega

theorem cover3_4 (i : S4096x1x256.Idx) : ∃ t : Fin (cfg3 a).N, ((cfg3 a).win 4).flush t = true ∧ i ∈ (((cfg3 a).win 4).blk t).view.set := by
  have hi0 : (i 0).val < 4096 := (i 0).isLt
  have hi1 : (i 1).val < 1 := (i 1).isLt
  have hi2 : (i 2).val < 256 := (i 2).isLt
  obtain ⟨t, ht⟩ : ∃ t : Fin (cfg3 a).N, t.val = (i 0).val := ⟨⟨(i 0).val, by rw [N3 a]; exact hi0⟩, rfl⟩
  refine ⟨t, flush3_4 a t, (mem_slice3_4 (((cfg3 a).win 4).rect t) i).mpr (Rect.mem_set_unit.mpr ?_)⟩
  intro (ax : Fin 3)
  match ax with
  | ⟨0, _⟩ =>
    show ((cfg3 a).win 4).index t (0 : Fin 3) * 1 ≤ (i 0).val ∧ (i 0).val < ((cfg3 a).win 4).index t (0 : Fin 3) * 1 + 1
    rw [oix3_4_0 a t]; omega
  | ⟨1, _⟩ =>
    show ((cfg3 a).win 4).index t (1 : Fin 3) * 1 ≤ (i 1).val ∧ (i 1).val < ((cfg3 a).win 4).index t (1 : Fin 3) * 1 + 1
    rw [oix3_4_1 a t]; omega
  | ⟨2, _⟩ =>
    show ((cfg3 a).win 4).index t (2 : Fin 3) * 256 ≤ (i 2).val ∧ (i 2).val < ((cfg3 a).win 4).index t (2 : Fin 3) * 256 + 256
    rw [oix3_4_2 a t]; omega

theorem final3_4_all (c : Dev nD) : (dat3 a V c).arrAt 4 (cfg3 a).N = gathered3_1 a V c :=
  (dat3 a V c).arrAt_eq_of_cover 4 (gathered3_1 a V c) (fun t _ => flushed3_4_eq a V c t) (cover3_4 a)

theorem final3_4 (c : Dev nD) (i : Fin 4096) (j : Fin 256) :
    (dat3 a V c).arrAt 4 (cfg3 a).N (ValueIdx.ix3 i (0 : Fin 1) j)
      = V c main_v47 (ValueIdx.ix3 (row3_1 a i) (0 : Fin 1) j) := by
  rw [final3_4_all]; rfl

theorem pay3_3_eq (x : Vec F S1x1x256 .f32) : k3_pay3 x = x := by unfold k3_pay3; exact shapeCast_self _ _

theorem out3_5_eq (x0 : Vec F S1x1x256 .f32) : out3_5 x0 = x0 := by
  unfold out3_5
  rw [View.canon_unit_zero hz3, pay3_3_eq, View.ld_unit_zero (S := S1x1x256) hz3]

theorem row3_2_lt (i : Fin 4096) : (a.1 2 (tix i)).toNat < 50000 := by
  obtain ⟨h, -⟩ := a.2.2.2 (ValueIdx.ix1 i : grid3.Coords)
  have h0 := h 0
  rw [transform3_2_val] at h0
  have h1 : ((a.1 2 (tix i)).toNat + 1) * 1 ≤ 50000 := h0
  omega

def row3_2 (i : Fin 4096) : Fin 50000 := ⟨(a.1 2 (tix i)).toNat, row3_2_lt a i⟩

def gathered3_2 (c : Dev nD) : S4096x1x256.Idx → Elt F .f32 :=
  fun y => (V c main_v47 : S50000x1x256.Idx → Elt F .f32) (ValueIdx.ix3 (row3_2 a (y 0)) (y 1) (y 2))

theorem gathered3_2_at (c : Dev nD) (q : S4096x1x256.Idx) (p : S50000x1x256.Idx) (r : Fin 4096) (hr : r.val = (q 0).val)
    (h0 : (p 0).val = (a.1 2 (tix r)).toNat) (h1 : (p 1).val = (q 1).val) (h2 : (p 2).val = (q 2).val) :
    gathered3_2 a V c q = (V c main_v47 : S50000x1x256.Idx → Elt F .f32) p := by
  obtain rfl : r = q 0 := Fin.ext hr
  unfold gathered3_2
  refine congrArg (V c main_v47 : S50000x1x256.Idx → Elt F .f32) ?_
  funext ax
  apply Fin.ext
  match ax with
  | ⟨0, _⟩ => exact h0.symm
  | ⟨1, _⟩ => exact h1.symm
  | ⟨2, _⟩ => exact h2.symm

theorem oix3_5_0 (t : Fin (cfg3 a).N) : ((cfg3 a).win 5).index t (0 : Fin 3) = t.val :=
  (congrFun (ix3_val_5 a t) (0 : Fin 3)).trans (outRow3 a t)
theorem oix3_5_1 (t : Fin (cfg3 a).N) : ((cfg3 a).win 5).index t (1 : Fin 3) = 0 := congrFun (ix3_val_5 a t) (1 : Fin 3)
theorem oix3_5_2 (t : Fin (cfg3 a).N) : ((cfg3 a).win 5).index t (2 : Fin 3) = 0 := congrFun (ix3_val_5 a t) (2 : Fin 3)

theorem iix3_2_0 (t : Fin (cfg3 a).N) : ((cfg3 a).win 2).index t (0 : Fin 3)
    = (a.1 2 (tix ⟨(grid3.coords t 0).val, (grid3.coords t 0).isLt⟩)).toNat := congrFun (ix3_val_2 a t) (0 : Fin 3)
theorem iix3_2_1 (t : Fin (cfg3 a).N) : ((cfg3 a).win 2).index t (1 : Fin 3) = 0 := congrFun (ix3_val_2 a t) (1 : Fin 3)
theorem iix3_2_2 (t : Fin (cfg3 a).N) : ((cfg3 a).win 2).index t (2 : Fin 3) = 0 := congrFun (ix3_val_2 a t) (2 : Fin 3)

set_option maxHeartbeats 400000 in

theorem flushed3_5_eq (c : Dev nD) (t : Fin (cfg3 a).N) :
    (dat3 a V c).flushed 5 t = (((cfg3 a).win 5).blk t).view.read (Elt F) (gathered3_2 a V c) := by
  show ((cfg3 a).win 5).cut ((cfg3 a).grid.coords t) ((dat3 a V c).after 5 t) = _
  rw [after3_5]
  have e : out3_5 (iblk3 a V c 2 t) = iblk3 a V c 2 t := out3_5_eq _
  rw [e]
  refine funext fun (y : S1x1x256.Idx) => ?_
  have hy0 : (y 0).val = 0 := by have h : (y 0).val < 1 := (y 0).isLt; omega
  show (V c main_v47 : S50000x1x256.Idx → Elt F .f32) ((((cfg3 a).win 2).blk t).view.emb y)
    = gathered3_2 a V c ((((cfg3 a).win 5).blk t).view.emb y)
  refine (gathered3_2_at a V c _ _ ⟨(grid3.coords t 0).val, (grid3.coords t 0).isLt⟩ ?_ ?_ ?_ ?_).symm
  · show (grid3.coords t 0).val = ((cfg3 a).win 5).index t (0 : Fin 3) * 1 + 1 * (y 0).val
    rw [oix3_5_0 a t, coords3_val, hy0, Nat.mul_one, Nat.mul_zero, Nat.add_zero]
  · show ((cfg3 a).win 2).index t (0 : Fin 3) * 1 + 1 * (y 0).val = _
    rw [iix3_2_0 a t, hy0, Nat.mul_one, Nat.mul_zero, Nat.add_zero]
  · show ((cfg3 a).win 2).index t (1 : Fin 3) * 1 + 1 * (y 1).val = ((cfg3 a).win 5).index t (1 : Fin 3) * 1 + 1 * (y 1).val
    rw [iix3_2_1 a t, oix3_5_1 a t]
  · show ((cfg3 a).win 2).index t (2 : Fin 3) * 256 + 1 * (y 2).val = ((cfg3 a).win 5).index t (2 : Fin 3) * 256 + 1 * (y 2).val
    rw [iix3_2_2 a t, oix3_5_2 a t]

theorem mem_slice3_5 (r : Rect S4096x1x256) (i : S4096x1x256.Idx) :
    i ∈ ((View.whole main_v48_2).slice r).set ↔ i ∈ r.set := by
  rw [View.set_slice_whole main_v48_2 r]

theorem flush3_5 (t : Fin (cfg3 a).N) : ((cfg3 a).win 5).flush t = true := by
  refine (Pipeline.Window.flush_out ((cfg3 a).win 5) rfl t).mpr ?_
  have hN : (cfg3 a).grid.N = 4096 := N_3
  have hN' : (cfg3 a).N = 4096 := N3 a
  have ht := t.isLt
  by_cases h : t.val + 1 = (cfg3 a).grid.N
  · exact .inl h
  · have hlt : t.val + 1 < (cfg3 a).N := by omega
    refine .inr ⟨by omega, fun e => ?_⟩
    have e0 : ((cfg3 a).win 5).index (⟨t.val + 1, hlt⟩ : Fin (cfg3 a).N) (0 : Fin 3) = ((cfg3 a).win 5).index t (0 : Fin 3) :=
      congrFun e (0 : Fin 3)
    rw [oix3_5_0 a, oix3_5_0 a] at e0
    have e1 : t.val + 1 = t.val := e0
    omega

theorem cover3_5 (i : S4096x1x256.Idx) : ∃ t : Fin (cfg3 a).N, ((cfg3 a).win 5).flush t = true ∧ i ∈ (((cfg3 a).win 5).blk t).view.set := by
  have hi0 : (i 0).val < 4096 := (i 0).isLt
  have hi1 : (i 1).val < 1 := (i 1).isLt
  have hi2 : (i 2).val < 256 := (i 2).isLt
  obtain ⟨t, ht⟩ : ∃ t : Fin (cfg3 a).N, t.val = (i 0).val := ⟨⟨(i 0).val, by rw [N3 a]; exact hi0⟩, rfl⟩
  refine ⟨t, flush3_5 a t, (mem_slice3_5 (((cfg3 a).win 5).rect t) i).mpr (Rect.mem_set_unit.mpr ?_)⟩
  intro (ax : Fin 3)
  match ax with
  | ⟨0, _⟩ =>
    show ((cfg3 a).win 5).index t (0 : Fin 3) * 1 ≤ (i 0).val ∧ (i 0).val < ((cfg3 a).win 5).index t (0 : Fin 3) * 1 + 1
    rw [oix3_5_0 a t]; omega
  | ⟨1, _⟩ =>
    show ((cfg3 a).win 5).index t (1 : Fin 3) * 1 ≤ (i 1).val ∧ (i 1).val < ((cfg3 a).win 5).index t (1 : Fin 3) * 1 + 1
    rw [oix3_5_1 a t]; omega
  | ⟨2, _⟩ =>
    show ((cfg3 a).win 5).index t (2 : Fin 3) * 256 ≤ (i 2).val ∧ (i 2).val < ((cfg3 a).win 5).index t (2 : Fin 3) * 256 + 256
    rw [oix3_5_2 a t]; omega

theorem final3_5_all (c : Dev nD) : (dat3 a V c).arrAt 5 (cfg3 a).N = gathered3_2 a V c :=
  (dat3 a V c).arrAt_eq_of_cover 5 (gathered3_2 a V c) (fun t _ => flushed3_5_eq a V c t) (cover3_5 a)

theorem final3_5 (c : Dev nD) (i : Fin 4096) (j : Fin 256) :
    (dat3 a V c).arrAt 5 (cfg3 a).N (ValueIdx.ix3 i (0 : Fin 1) j)
      = V c main_v47 (ValueIdx.ix3 (row3_2 a i) (0 : Fin 1) j) := by
  rw [final3_5_all]; rfl

end Cert.KernelIdeal.Hand

end
-- ==== Proof.KIValue.lean ====
import proofs.«404336_j13099650253234_2_alg».proof.Proof.KIValueTables
import proofs.«404336_j13099650253234_2_alg».proof.Proof.KIGatherValue3
import proofs.«404336_j13099650253234_2_alg».proof.Proof.GatherMath

set_option maxRecDepth 16384

noncomputable section

namespace Cert.KernelIdeal.Hand

open Idealize.ShloMosaic Idealize.ShloMosaic.TcCoe
open Cert.KernelIdeal Cert.KernelIdeal.Gen

variable [Cert.ReferenceIdeal.Facts]
variable (m : (ℓ : Loc nD τ sig) → Buf (Elt Ideal) ℓ) (a3 : (pcfg3 (F := Ideal)).Adm)

theorem value_v49 (c : Dev nD) (ha : a3.1 0 = m ((c : Thread nD τ).loc main_arg0))
    (h : ∀ i : S4096.Idx, (m ((c : Thread nD τ).loc main_arg0) i).toNat < 100000) :
    V9 m (outs m a3) c main_v49
      = Cert.Spec.resU (m ((c : Thread nD τ).loc main_arg0))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine funext fun (y : S4096x256.Idx) => ?_
  obtain ⟨i, j, rfl⟩ : ∃ (i : Fin 4096) (j : Fin 256), y = ValueIdx.ix2 i j := ⟨y 0, y 1, ValueIdx.eq_ix2 y⟩
  have hrow : row3_0 a3 i = ⟨(m ((c : Thread nD τ).loc main_arg0) (ValueIdx.ix1 i)).toNat, h _⟩ :=
    Fin.ext (congrArg (fun t : IVec S4096 32 => (t (ValueIdx.ix1 i)).toNat) ha)
  have hK := (host4_v49_apply (V8 m (outs m a3) c) i j).trans <|
    (congrFun (w8_3_eq m a3 c) (ValueIdx.ix3 i (0 : Fin 1) j)).trans <|
    (final3_3 a3 (T7 m) c i j).trans <|
    (congrFun (table_v46 m c) (ValueIdx.ix3 (row3_0 a3 i) (0 : Fin 1) j)).trans
      (addMid_apply (n := 100000) (w := 256) _ _ (row3_0 a3 i) 0 j)
  rw [hrow] at hK
  exact hK.trans (by unfold Cert.Spec.resU; exact (Cert.GatherMath.refGatherU_apply _ _ h i j).symm)

theorem value_v50 (c : Dev nD) (ha : a3.1 1 = m ((c : Thread nD τ).loc main_arg1))
    (h : ∀ i : S4096.Idx, (m ((c : Thread nD τ).loc main_arg1) i).toNat < 50000) :
    V9 m (outs m a3) c main_v50
      = Cert.Spec.resP (m ((c : Thread nD τ).loc main_arg1))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine funext fun (y : S4096x256.Idx) => ?_
  obtain ⟨i, j, rfl⟩ : ∃ (i : Fin 4096) (j : Fin 256), y = ValueIdx.ix2 i j := ⟨y 0, y 1, ValueIdx.eq_ix2 y⟩
  have hrow : row3_1 a3 i = ⟨(m ((c : Thread nD τ).loc main_arg1) (ValueIdx.ix1 i)).toNat, h _⟩ :=
    Fin.ext (congrArg (fun t : IVec S4096 32 => (t (ValueIdx.ix1 i)).toNat) ha)
  have hK := (host4_v50_apply (V8 m (outs m a3) c) i j).trans <|
    (congrFun (w8_4_eq m a3 c) (ValueIdx.ix3 i (0 : Fin 1) j)).trans <|
    (final3_4 a3 (T7 m) c i j).trans <|
    (congrFun (table_v47 m c) (ValueIdx.ix3 (row3_1 a3 i) (0 : Fin 1) j)).trans
      (addMid_apply (n := 50000) (w := 256) _ _ (row3_1 a3 i) 0 j)
  rw [hrow] at hK
  exact hK.trans (by unfold Cert.Spec.resP; exact (Cert.GatherMath.refGatherI_apply _ _ h i j).symm)

theorem value_v51 (c : Dev nD) (ha : a3.1 2 = m ((c : Thread nD τ).loc main_arg2))
    (h : ∀ i : S4096.Idx, (m ((c : Thread nD τ).loc main_arg2) i).toNat < 50000) :
    V9 m (outs m a3) c main_v51
      = Cert.Spec.resN (m ((c : Thread nD τ).loc main_arg2))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine funext fun (y : S4096x256.Idx) => ?_
  obtain ⟨i, j, rfl⟩ : ∃ (i : Fin 4096) (j : Fin 256), y = ValueIdx.ix2 i j := ⟨y 0, y 1, ValueIdx.eq_ix2 y⟩
  have hrow : row3_2 a3 i = ⟨(m ((c : Thread nD τ).loc main_arg2) (ValueIdx.ix1 i)).toNat, h _⟩ :=
    Fin.ext (congrArg (fun t : IVec S4096 32 => (t (ValueIdx.ix1 i)).toNat) ha)
  have hK := (host4_v51_apply (V8 m (outs m a3) c) i j).trans <|
    (congrFun (w8_5_eq m a3 c) (ValueIdx.ix3 i (0 : Fin 1) j)).trans <|
    (final3_5 a3 (T7 m) c i j).trans <|
    (congrFun (table_v47 m c) (ValueIdx.ix3 (row3_2 a3 i) (0 : Fin 1) j)).trans
      (addMid_apply (n := 50000) (w := 256) _ _ (row3_2 a3 i) 0 j)
  rw [hrow] at hK
  exact hK.trans (by unfold Cert.Spec.resN; exact (Cert.GatherMath.refGatherI_apply _ _ h i j).symm)

end Cert.KernelIdeal.Hand

end
-- ==== Proof.RefRunOps.lean ====
import proofs.«404336_j13099650253234_2_alg».proof.ReferenceIdeal
import proofs.«404336_j13099650253234_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's operations 1 … 43 of 157. The node table `ego₀` is the users' rows over the items' rows
    (`main_v0`). Layer 1: `side = A · ego₀` as a gather of the rows `cols` scaled by `vals` and summed into the
    rows `rows` (`main_v13`); `sum = side · W_gc₀ + b_gc₀`, `bi = (ego₀ ⊙ side) · W_bi₀ + b_bi₀`; then
    `ego₁ = leaky_relu (sum + bi)` (`main_v22`: the callee's seven operations stand at the call, `x` where `x ≥ 0`
    and `0.2 · x` elsewhere), and its rows divided by `max (‖row‖₂, 1e-12)` (`main_v30`). -/
abbrev ops1 : List (HloOp τ sig (Elt F)) :=
  [ StableHlo.binary main_arg6 main_arg7 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    StableHlo.unary main_arg5 main_v1 (broadcastInDim S2400000x1 ![0] bcast_S2400000_S2400000x1_0 : (⟨S2400000, .f32⟩ : BufTy).Contents (Elt F) → (⟨S2400000x1, .f32⟩ : BufTy).Contents (Elt F)),
    StableHlo.nullary main_c (constantI S_ 32 0#32),
    StableHlo.unary main_c main_v2 (broadcastInDim S2400000 ![] bcast_S_S2400000 : (⟨S_, .i32⟩ : BufTy).Contents (Elt F) → (⟨S2400000, .i32⟩ : BufTy).Contents (Elt F)),
    StableHlo.binary main_arg4 main_v2 main_v3 (cmpi .slt : (⟨S2400000, .i32⟩ : BufTy).Contents (Elt F) → (⟨S2400000, .i32⟩ : BufTy).Contents (Elt F) → (⟨S2400000, .i1⟩ : BufTy).Contents (Elt F)),
    StableHlo.nullary main_c_0 (constantI S_ 32 150000#32),
    StableHlo.unary main_c_0 main_v4 (broadcastInDim S2400000 ![] bcast_S_S2400000 : (⟨S_, .i32⟩ : BufTy).Contents (Elt F) → (⟨S2400000, .i32⟩ : BufTy).Contents (Elt F)),
    StableHlo.binary main_arg4 main_v4 main_v5 (addi : (⟨S2400000, .i32⟩ : BufTy).Contents (Elt F) → (⟨S2400000, .i32⟩ : BufTy).Contents (Elt F) → (⟨S2400000, .i32⟩ : BufTy).Contents (Elt F)),
    StableHlo.ternary main_v3 main_v5 main_arg4 main_v6 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v6 main_v7 (broadcastInDim S2400000x1 ![0] bcast_S2400000_S2400000x1_0 : (⟨S2400000, .i32⟩ : BufTy).Contents (Elt F) → (⟨S2400000x1, .i32⟩ : BufTy).Contents (Elt F)),
    StableHlo.binary main_v0 main_v7 main_v8 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v1 main_v9 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v9 main_v8 main_v10 (mulf : (⟨S2400000x64, .f32⟩ : BufTy).Contents (Elt F) → (⟨S2400000x64, .f32⟩ : BufTy).Contents (Elt F) → (⟨S2400000x64, .f32⟩ : BufTy).Contents (Elt F)),
    StableHlo.nullary main_cst (constant S_ .f32 0x00000000#32),
    StableHlo.unary main_cst main_v11 (broadcastInDim S150000x64 ![] bcast_S_S150000x64 : (⟨S_, .f32⟩ : BufTy).Contents (Elt F) → (⟨S150000x64, .f32⟩ : BufTy).Contents (Elt F)),
    StableHlo.unary main_arg3 main_v12 (broadcastInDim S2400000x1 ![0] bcast_S2400000_S2400000x1_0 : (⟨S2400000, .i32⟩ : BufTy).Contents (Elt F) → (⟨S2400000x1, .i32⟩ : BufTy).Contents (Elt F)),
    StableHlo.ternary main_v11 main_v12 main_v10 main_v13 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.binary main_v13 main_arg8 main_v14 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg11 main_v15 (broadcastInDim S150000x64 ![0, 1] bcast_S1x64_S150000x64_0_1 : (⟨S1x64, .f32⟩ : BufTy).Contents (Elt F) → (⟨S150000x64, .f32⟩ : BufTy).Contents (Elt F)),
    StableHlo.binary main_v14 main_v15 main_v16 (addf : (⟨S150000x64, .f32⟩ : BufTy).Contents (Elt F) → (⟨S150000x64, .f32⟩ : BufTy).Contents (Elt F) → (⟨S150000x64, .f32⟩ : BufTy).Contents (Elt F)),
    StableHlo.binary main_v0 main_v13 main_v17 (mulf : (⟨S150000x64, .f32⟩ : BufTy).Contents (Elt F) → (⟨S150000x64, .f32⟩ : BufTy).Contents (Elt F) → (⟨S150000x64, .f32⟩ : BufTy).Contents (Elt F)),
    StableHlo.binary main_v17 main_arg14 main_v18 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg17 main_v19 (broadcastInDim S150000x64 ![0, 1] bcast_S1x64_S150000x64_0_1 : (⟨S1x64, .f32⟩ : BufTy).Contents (Elt F) → (⟨S150000x64, .f32⟩ : BufTy).Contents (Elt F)),
    StableHlo.binary main_v18 main_v19 main_v20 (addf : (⟨S150000x64, .f32⟩ : BufTy).Contents (Elt F) → (⟨S150000x64, .f32⟩ : BufTy).Contents (Elt F) → (⟨S150000x64, .f32⟩ : BufTy).Contents (Elt F)),
    StableHlo.binary main_v16 main_v20 main_v21 (addf : (⟨S150000x64, .f32⟩ : BufTy).Contents (Elt F) → (⟨S150000x64, .f32⟩ : BufTy).Contents (Elt F) → (⟨S150000x64, .f32⟩ : BufTy).Contents (Elt F)),
    StableHlo.nullary main_cst_1 (constant S_ .f32 0x3E4CCCCD#32),
    TRef.nullary main_call0.cst (constant S_ .f32 0x00000000#32),
    TRef.unary main_call0.cst main_call0.v0 (broadcastInDim S150000x64 ![] bcast_S_S150000x64),
    TRef.binary (.of main_v21 : TRef sig ⟨S150000x64, .f32⟩) main_call0.v0 main_call0.v1 (cmpf .oge),
    TRef.unary (.of main_cst_1 : TRef sig ⟨S_, .f32⟩) main_call0.v2 id,
    TRef.unary main_call0.v2 main_call0.v3 (broadcastInDim S150000x64 ![] bcast_S_S150000x64),
    TRef.binary main_call0.v3 (.of main_v21 : TRef sig ⟨S150000x64, .f32⟩) main_call0.v4 mulf,
    TRef.ternary main_call0.v1 (.of main_v21 : TRef sig ⟨S150000x64, .f32⟩) main_call0.v4 main_call0.call0.v0 select,
    StableHlo.binary main_v22 main_v22 main_v23 (mulf : (⟨S150000x64, .f32⟩ : BufTy).Contents (Elt F) → (⟨S150000x64, .f32⟩ : BufTy).Contents (Elt F) → (⟨S150000x64, .f32⟩ : BufTy).Contents (Elt F)),
    StableHlo.nullary main_cst_2 (constant S_ .f32 0x00000000#32),
    StableHlo.binary main_v23 main_cst_2 main_v24 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v24 main_v25 (broadcastInDim S150000x1 ![0] bcast_S150000_S150000x1_0 : (⟨S150000, .f32⟩ : BufTy).Contents (Elt F) → (⟨S150000x1, .f32⟩ : BufTy).Contents (Elt F)),
    StableHlo.unary main_v25 main_v26 (Host.sqrt : (⟨S150000x1, .f32⟩ : BufTy).Contents (Elt F) → (⟨S150000x1, .f32⟩ : BufTy).Contents (Elt F)),
    StableHlo.nullary main_cst_3 (constant S_ .f32 0x2B8CBCCC#32),
    StableHlo.unary main_cst_3 main_v27 (broadcastInDim S150000x1 ![] bcast_S_S150000x1 : (⟨S_, .f32⟩ : BufTy).Contents (Elt F) → (⟨S150000x1, .f32⟩ : BufTy).Contents (Elt F)),
    StableHlo.binary main_v26 main_v27 main_v28 (maximumf : (⟨S150000x1, .f32⟩ : BufTy).Contents (Elt F) → (⟨S150000x1, .f32⟩ : BufTy).Contents (Elt F) → (⟨S150000x1, .f32⟩ : BufTy).Contents (Elt F)),
    StableHlo.unary main_v28 main_v29 (broadcastInDim S150000x64 ![0, 1] bcast_S150000x1_S150000x64_0_1 : (⟨S150000x1, .f32⟩ : BufTy).Contents (Elt F) → (⟨S150000x64, .f32⟩ : BufTy).Contents (Elt F)),
    StableHlo.binary main_v22 main_v29 main_v30 (Host.divf : (⟨S150000x64, .f32⟩ : BufTy).Contents (Elt F) → (⟨S150000x64, .f32⟩ : BufTy).Contents (Elt F) → (⟨S150000x64, .f32⟩ : BufTy).Contents (Elt F)) ]

/-- Operations 44 … 85 of 157: layer 2, the same over `ego₁` with `W_gc₁, b_gc₁, W_bi₁, b_bi₁`:
    `ego₂` is `main_v52`, its normalized rows `main_v60`. -/
abbrev ops2 : List (HloOp τ sig (Elt F)) :=
  [ StableHlo.unary main_arg5 main_v31 (broadcastInDim S2400000x1 ![0] bcast_S2400000_S2400000x1_0 : (⟨S2400000, .f32⟩ : BufTy).Contents (Elt F) → (⟨S2400000x1, .f32⟩ : BufTy).Contents (Elt F)),
    StableHlo.nullary main_c_4 (constantI S_ 32 0#32),
    StableHlo.unary main_c_4 main_v32 (broadcastInDim S2400000 ![] bcast_S_S2400000 : (⟨S_, .i32⟩ : BufTy).Contents (Elt F) → (⟨S2400000, .i32⟩ : BufTy).Contents (Elt F)),
    StableHlo.binary main_arg4 main_v32 main_v33 (cmpi .slt : (⟨S2400000, .i32⟩ : BufTy).Contents (Elt F) → (⟨S2400000, .i32⟩ : BufTy).Contents (Elt F) → (⟨S2400000, .i1⟩ : BufTy).Contents (Elt F)),
    StableHlo.nullary main_c_5 (constantI S_ 32 150000#32),
    StableHlo.unary main_c_5 main_v34 (broadcastInDim S2400000 ![] bcast_S_S2400000 : (⟨S_, .i32⟩ : BufTy).Contents (Elt F) → (⟨S2400000, .i32⟩ : BufTy).Contents (Elt F)),
    StableHlo.binary main_arg4 main_v34 main_v35 (addi : (⟨S2400000, .i32⟩ : BufTy).Contents (Elt F) → (⟨S2400000, .i32⟩ : BufTy).Contents (Elt F) → (⟨S2400000, .i32⟩ : BufTy).Contents (Elt F)),
    StableHlo.ternary main_v33 main_v35 main_arg4 main_v36 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v36 main_v37 (broadcastInDim S2400000x1 ![0] bcast_S2400000_S2400000x1_0 : (⟨S2400000, .i32⟩ : BufTy).Contents (Elt F) → (⟨S2400000x1, .i32⟩ : BufTy).Contents (Elt F)),
    StableHlo.binary main_v22 main_v37 main_v38 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v31 main_v39 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v39 main_v38 main_v40 (mulf : (⟨S2400000x64, .f32⟩ : BufTy).Contents (Elt F) → (⟨S2400000x64, .f32⟩ : BufTy).Contents (Elt F) → (⟨S2400000x64, .f32⟩ : BufTy).Contents (Elt F)),
    StableHlo.nullary main_cst_6 (constant S_ .f32 0x00000000#32),
    StableHlo.unary main_cst_6 main_v41 (broadcastInDim S150000x64 ![] bcast_S_S150000x64 : (⟨S_, .f32⟩ : BufTy).Contents (Elt F) → (⟨S150000x64, .f32⟩ : BufTy).Contents (Elt F)),
    StableHlo.unary main_arg3 main_v42 (broadcastInDim S2400000x1 ![0] bcast_S2400000_S2400000x1_0 : (⟨S2400000, .i32⟩ : BufTy).Contents (Elt F) → (⟨S2400000x1, .i32⟩ : BufTy).Contents (Elt F)),
    StableHlo.ternary main_v41 main_v42 main_v40 main_v43 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.binary main_v43 main_arg9 main_v44 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg12 main_v45 (broadcastInDim S150000x64 ![0, 1] bcast_S1x64_S150000x64_0_1 : (⟨S1x64, .f32⟩ : BufTy).Contents (Elt F) → (⟨S150000x64, .f32⟩ : BufTy).Contents (Elt F)),
    StableHlo.binary main_v44 main_v45 main_v46 (addf : (⟨S150000x64, .f32⟩ : BufTy).Contents (Elt F) → (⟨S150000x64, .f32⟩ : BufTy).Contents (Elt F) → (⟨S150000x64, .f32⟩ : BufTy).Contents (Elt F)),
    StableHlo.binary main_v22 main_v43 main_v47 (mulf : (⟨S150000x64, .f32⟩ : BufTy).Contents (Elt F) → (⟨S150000x64, .f32⟩ : BufTy).Contents (Elt F) → (⟨S150000x64, .f32⟩ : BufTy).Contents (Elt F)),
    StableHlo.binary main_v47 main_arg15 main_v48 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg18 main_v49 (broadcastInDim S150000x64 ![0, 1] bcast_S1x64_S150000x64_0_1 : (⟨S1x64, .f32⟩ : BufTy).Contents (Elt F) → (⟨S150000x64, .f32⟩ : BufTy).Contents (Elt F)),
    StableHlo.binary main_v48 main_v49 main_v50 (addf : (⟨S150000x64, .f32⟩ : BufTy).Contents (Elt F) → (⟨S150000x64, .f32⟩ : BufTy).Contents (Elt F) → (⟨S150000x64, .f32⟩ : BufTy).Contents (Elt F)),
    StableHlo.binary main_v46 main_v50 main_v51 (addf : (⟨S150000x64, .f32⟩ : BufTy).Contents (Elt F) → (⟨S150000x64, .f32⟩ : BufTy).Contents (Elt F) → (⟨S150000x64, .f32⟩ : BufTy).Contents (Elt F)),
    StableHlo.nullary main_cst_7 (constant S_ .f32 0x3E4CCCCD#32),
    TRef.nullary main_call1.cst (constant S_ .f32 0x00000000#32),
    TRef.unary main_call1.cst main_call1.v0 (broadcastInDim S150000x64 ![] bcast_S_S150000x64),
    TRef.binary (.of main_v51 : TRef sig ⟨S150000x64, .f32⟩) main_call1.v0 main_call1.v1 (cmpf .oge),
    TRef.unary (.of main_cst_7 : TRef sig ⟨S_, .f32⟩) main_call1.v2 id,
    TRef.unary main_call1.v2 main_call1.v3 (broadcastInDim S150000x64 ![] bcast_S_S150000x64),
    TRef.binary main_call1.v3 (.of main_v51 : TRef sig ⟨S150000x64, .f32⟩) main_call1.v4 mulf,
    TRef.ternary main_call1.v1 (.of main_v51 : TRef sig ⟨S150000x64, .f32⟩) main_call1.v4 main_call1.call0.v0 select,
    StableHlo.binary main_v52 main_v52 main_v53 (mulf : (⟨S150000x64, .f32⟩ : BufTy).Contents (Elt F) → (⟨S150000x64, .f32⟩ : BufTy).Contents (Elt F) → (⟨S150000x64, .f32⟩ : BufTy).Contents (Elt F)),
    StableHlo.nullary main_cst_8 (constant S_ .f32 0x00000000#32),
    StableHlo.binary main_v53 main_cst_8 main_v54 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v54 main_v55 (broadcastInDim S150000x1 ![0] bcast_S150000_S150000x1_0 : (⟨S150000, .f32⟩ : BufTy).Contents (Elt F) → (⟨S150000x1, .f32⟩ : BufTy).Contents (Elt F)),
    StableHlo.unary main_v55 main_v56 (Host.sqrt : (⟨S150000x1, .f32⟩ : BufTy).Contents (Elt F) → (⟨S150000x1, .f32⟩ : BufTy).Contents (Elt F)),
    StableHlo.nullary main_cst_9 (constant S_ .f32 0x2B8CBCCC#32),
    StableHlo.unary main_cst_9 main_v57 (broadcastInDim S150000x1 ![] bcast_S_S150000x1 : (⟨S_, .f32⟩ : BufTy).Contents (Elt F) → (⟨S150000x1, .f32⟩ : BufTy).Contents (Elt F)),
    StableHlo.binary main_v56 main_v57 main_v58 (maximumf : (⟨S150000x1, .f32⟩ : BufTy).Contents (Elt F) → (⟨S150000x1, .f32⟩ : BufTy).Contents (Elt F) → (⟨S150000x1, .f32⟩ : BufTy).Contents (Elt F)),
    StableHlo.unary main_v58 main_v59 (broadcastInDim S150000x64 ![0, 1] bcast_S150000x1_S150000x64_0_1 : (⟨S150000x1, .f32⟩ : BufTy).Contents (Elt F) → (⟨S150000x64, .f32⟩ : BufTy).Contents (Elt F)),
    StableHlo.binary main_v52 main_v59 main_v60 (Host.divf : (⟨S150000x64, .f32⟩ : BufTy).Contents (Elt F) → (⟨S150000x64, .f32⟩ : BufTy).Contents (Elt F) → (⟨S150000x64, .f32⟩ : BufTy).Contents (Elt F)) ]

/-- Operations 86 … 127 of 157: layer 3, the same over `ego₂` with `W_gc₂, b_gc₂, W_bi₂, b_bi₂`:
    `ego₃` is `main_v82`, its normalized rows `main_v90`. -/
abbrev ops3 : List (HloOp τ sig (Elt F)) :=
  [ StableHlo.unary main_arg5 main_v61 (broadcastInDim S2400000x1 ![0] bcast_S2400000_S2400000x1_0 : (⟨S2400000, .f32⟩ : BufTy).Contents (Elt F) → (⟨S2400000x1, .f32⟩ : BufTy).Contents (Elt F)),
    StableHlo.nullary main_c_10 (constantI S_ 32 0#32),
    StableHlo.unary main_c_10 main_v62 (broadcastInDim S2400000 ![] bcast_S_S2400000 : (⟨S_, .i32⟩ : BufTy).Contents (Elt F) → (⟨S2400000, .i32⟩ : BufTy).Contents (Elt F)),
    StableHlo.binary main_arg4 main_v62 main_v63 (cmpi .slt : (⟨S2400000, .i32⟩ : BufTy).Contents (Elt F) → (⟨S2400000, .i32⟩ : BufTy).Contents (Elt F) → (⟨S2400000, .i1⟩ : BufTy).Contents (Elt F)),
    StableHlo.nullary main_c_11 (constantI S_ 32 150000#32),
    StableHlo.unary main_c_11 main_v64 (broadcastInDim S2400000 ![] bcast_S_S2400000 : (⟨S_, .i32⟩ : BufTy).Contents (Elt F) → (⟨S2400000, .i32⟩ : BufTy).Contents (Elt F)),
    StableHlo.binary main_arg4 main_v64 main_v65 (addi : (⟨S2400000, .i32⟩ : BufTy).Contents (Elt F) → (⟨S2400000, .i32⟩ : BufTy).Contents (Elt F) → (⟨S2400000, .i32⟩ : BufTy).Contents (Elt F)),
    StableHlo.ternary main_v63 main_v65 main_arg4 main_v66 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v66 main_v67 (broadcastInDim S2400000x1 ![0] bcast_S2400000_S2400000x1_0 : (⟨S2400000, .i32⟩ : BufTy).Contents (Elt F) → (⟨S2400000x1, .i32⟩ : BufTy).Contents (Elt F)),
    StableHlo.binary main_v52 main_v67 main_v68 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v61 main_v69 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v69 main_v68 main_v70 (mulf : (⟨S2400000x64, .f32⟩ : BufTy).Contents (Elt F) → (⟨S2400000x64, .f32⟩ : BufTy).Contents (Elt F) → (⟨S2400000x64, .f32⟩ : BufTy).Contents (Elt F)),
    StableHlo.nullary main_cst_12 (constant S_ .f32 0x00000000#32),
    StableHlo.unary main_cst_12 main_v71 (broadcastInDim S150000x64 ![] bcast_S_S150000x64 : (⟨S_, .f32⟩ : BufTy).Contents (Elt F) → (⟨S150000x64, .f32⟩ : BufTy).Contents (Elt F)),
    StableHlo.unary main_arg3 main_v72 (broadcastInDim S2400000x1 ![0] bcast_S2400000_S2400000x1_0 : (⟨S2400000, .i32⟩ : BufTy).Contents (Elt F) → (⟨S2400000x1, .i32⟩ : BufTy).Contents (Elt F)),
    StableHlo.ternary main_v71 main_v72 main_v70 main_v73 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.binary main_v73 main_arg10 main_v74 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg13 main_v75 (broadcastInDim S150000x64 ![0, 1] bcast_S1x64_S150000x64_0_1 : (⟨S1x64, .f32⟩ : BufTy).Contents (Elt F) → (⟨S150000x64, .f32⟩ : BufTy).Contents (Elt F)),
    StableHlo.binary main_v74 main_v75 main_v76 (addf : (⟨S150000x64, .f32⟩ : BufTy).Contents (Elt F) → (⟨S150000x64, .f32⟩ : BufTy).Contents (Elt F) → (⟨S150000x64, .f32⟩ : BufTy).Contents (Elt F)),
    StableHlo.binary main_v52 main_v73 main_v77 (mulf : (⟨S150000x64, .f32⟩ : BufTy).Contents (Elt F) → (⟨S150000x64, .f32⟩ : BufTy).Contents (Elt F) → (⟨S150000x64, .f32⟩ : BufTy).Contents (Elt F)),
    StableHlo.binary main_v77 main_arg16 main_v78 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg19 main_v79 (broadcastInDim S150000x64 ![0, 1] bcast_S1x64_S150000x64_0_1 : (⟨S1x64, .f32⟩ : BufTy).Contents (Elt F) → (⟨S150000x64, .f32⟩ : BufTy).Contents (Elt F)),
    StableHlo.binary main_v78 main_v79 main_v80 (addf : (⟨S150000x64, .f32⟩ : BufTy).Contents (Elt F) → (⟨S150000x64, .f32⟩ : BufTy).Contents (Elt F) → (⟨S150000x64, .f32⟩ : BufTy).Contents (Elt F)),
    StableHlo.binary main_v76 main_v80 main_v81 (addf : (⟨S150000x64, .f32⟩ : BufTy).Contents (Elt F) → (⟨S150000x64, .f32⟩ : BufTy).Contents (Elt F) → (⟨S150000x64, .f32⟩ : BufTy).Contents (Elt F)),
    StableHlo.nullary main_cst_13 (constant S_ .f32 0x3E4CCCCD#32),
    TRef.nullary main_call2.cst (constant S_ .f32 0x00000000#32),
    TRef.unary main_call2.cst main_call2.v0 (broadcastInDim S150000x64 ![] bcast_S_S150000x64),
    TRef.binary (.of main_v81 : TRef sig ⟨S150000x64, .f32⟩) main_call2.v0 main_call2.v1 (cmpf .oge),
    TRef.unary (.of main_cst_13 : TRef sig ⟨S_, .f32⟩) main_call2.v2 id,
    TRef.unary main_call2.v2 main_call2.v3 (broadcastInDim S150000x64 ![] bcast_S_S150000x64),
    TRef.binary main_call2.v3 (.of main_v81 : TRef sig ⟨S150000x64, .f32⟩) main_call2.v4 mulf,
    TRef.ternary main_call2.v1 (.of main_v81 : TRef sig ⟨S150000x64, .f32⟩) main_call2.v4 main_call2.call0.v0 select,
    StableHlo.binary main_v82 main_v82 main_v83 (mulf : (⟨S150000x64, .f32⟩ : BufTy).Contents (Elt F) → (⟨S150000x64, .f32⟩ : BufTy).Contents (Elt F) → (⟨S150000x64, .f32⟩ : BufTy).Contents (Elt F)),
    StableHlo.nullary main_cst_14 (constant S_ .f32 0x00000000#32),
    StableHlo.binary main_v83 main_cst_14 main_v84 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v84 main_v85 (broadcastInDim S150000x1 ![0] bcast_S150000_S150000x1_0 : (⟨S150000, .f32⟩ : BufTy).Contents (Elt F) → (⟨S150000x1, .f32⟩ : BufTy).Contents (Elt F)),
    StableHlo.unary main_v85 main_v86 (Host.sqrt : (⟨S150000x1, .f32⟩ : BufTy).Contents (Elt F) → (⟨S150000x1, .f32⟩ : BufTy).Contents (Elt F)),
    StableHlo.nullary main_cst_15 (constant S_ .f32 0x2B8CBCCC#32),
    StableHlo.unary main_cst_15 main_v87 (broadcastInDim S150000x1 ![] bcast_S_S150000x1 : (⟨S_, .f32⟩ : BufTy).Contents (Elt F) → (⟨S150000x1, .f32⟩ : BufTy).Contents (Elt F)),
    StableHlo.binary main_v86 main_v87 main_v88 (maximumf : (⟨S150000x1, .f32⟩ : BufTy).Contents (Elt F) → (⟨S150000x1, .f32⟩ : BufTy).Contents (Elt F) → (⟨S150000x1, .f32⟩ : BufTy).Contents (Elt F)),
    StableHlo.unary main_v88 main_v89 (broadcastInDim S150000x64 ![0, 1] bcast_S150000x1_S150000x64_0_1 : (⟨S150000x1, .f32⟩ : BufTy).Contents (Elt F) → (⟨S150000x64, .f32⟩ : BufTy).Contents (Elt F)),
    StableHlo.binary main_v82 main_v89 main_v90 (Host.divf : (⟨S150000x64, .f32⟩ : BufTy).Contents (Elt F) → (⟨S150000x64, .f32⟩ : BufTy).Contents (Elt F) → (⟨S150000x64, .f32⟩ : BufTy).Contents (Elt F)) ]

/-- Operations 128 … 157 of 157: the four tables side by side, 256 columns (`main_v91`); its first 100000 rows
    (`main_v92`) read at the rows `users` (`main_v99`), its last 50000 rows (`main_v100`) read at the rows
    `pos_items` (`main_v107`) and `neg_items` (`main_v114`); a negative index is first moved up by the table's
    height, as `jnp` indexing does. -/
abbrev ops4 : List (HloOp τ sig (Elt F)) :=
  [ StableHlo.nary ![main_v0, main_v30, main_v60, main_v90] main_v91 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    StableHlo.unary main_v91 main_v92 ((extractStridedSlice S100000x256 ![0, 0] · slices_S150000x256_S100000x256_0_0) : (⟨S150000x256, .f32⟩ : BufTy).Contents (Elt F) → (⟨S100000x256, .f32⟩ : BufTy).Contents (Elt F)),
    StableHlo.nullary main_c_16 (constantI S_ 32 0#32),
    StableHlo.unary main_c_16 main_v93 (broadcastInDim S4096 ![] bcast_S_S4096 : (⟨S_, .i32⟩ : BufTy).Contents (Elt F) → (⟨S4096, .i32⟩ : BufTy).Contents (Elt F)),
    StableHlo.binary main_arg0 main_v93 main_v94 (cmpi .slt : (⟨S4096, .i32⟩ : BufTy).Contents (Elt F) → (⟨S4096, .i32⟩ : BufTy).Contents (Elt F) → (⟨S4096, .i1⟩ : BufTy).Contents (Elt F)),
    StableHlo.nullary main_c_17 (constantI S_ 32 100000#32),
    StableHlo.unary main_c_17 main_v95 (broadcastInDim S4096 ![] bcast_S_S4096 : (⟨S_, .i32⟩ : BufTy).Contents (Elt F) → (⟨S4096, .i32⟩ : BufTy).Contents (Elt F)),
    StableHlo.binary main_arg0 main_v95 main_v96 (addi : (⟨S4096, .i32⟩ : BufTy).Contents (Elt F) → (⟨S4096, .i32⟩ : BufTy).Contents (Elt F) → (⟨S4096, .i32⟩ : BufTy).Contents (Elt F)),
    StableHlo.ternary main_v94 main_v96 main_arg0 main_v97 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v97 main_v98 (broadcastInDim S4096x1 ![0] bcast_S4096_S4096x1_0 : (⟨S4096, .i32⟩ : BufTy).Contents (Elt F) → (⟨S4096x1, .i32⟩ : BufTy).Contents (Elt F)),
    StableHlo.binary main_v92 main_v98 main_v99 ((fun x i => Host.gather gather_S100000x256_S4096x1_S4096x256_1_0_n_n_0_1_1256 x i) : (⟨S100000x256, .f32⟩ : BufTy).Contents (Elt F) → (⟨S4096x1, .i32⟩ : BufTy).Contents (Elt F) → (⟨S4096x256, .f32⟩ : BufTy).Contents (Elt F)),
    StableHlo.unary main_v91 main_v100 ((extractStridedSlice S50000x256 ![100000, 0] · slices_S150000x256_S50000x256_100000_0) : (⟨S150000x256, .f32⟩ : BufTy).Contents (Elt F) → (⟨S50000x256, .f32⟩ : BufTy).Contents (Elt F)),
    StableHlo.nullary main_c_18 (constantI S_ 32 0#32),
    StableHlo.unary main_c_18 main_v101 (broadcastInDim S4096 ![] bcast_S_S4096 : (⟨S_, .i32⟩ : BufTy).Contents (Elt F) → (⟨S4096, .i32⟩ : BufTy).Contents (Elt F)),
    StableHlo.binary main_arg1 main_v101 main_v102 (cmpi .slt : (⟨S4096, .i32⟩ : BufTy).Contents (Elt F) → (⟨S4096, .i32⟩ : BufTy).Contents (Elt F) → (⟨S4096, .i1⟩ : BufTy).Contents (Elt F)),
    StableHlo.nullary main_c_19 (constantI S_ 32 50000#32),
    StableHlo.unary main_c_19 main_v103 (broadcastInDim S4096 ![] bcast_S_S4096 : (⟨S_, .i32⟩ : BufTy).Contents (Elt F) → (⟨S4096, .i32⟩ : BufTy).Contents (Elt F)),
    StableHlo.binary main_arg1 main_v103 main_v104 (addi : (⟨S4096, .i32⟩ : BufTy).Contents (Elt F) → (⟨S4096, .i32⟩ : BufTy).Contents (Elt F) → (⟨S4096, .i32⟩ : BufTy).Contents (Elt F)),
    StableHlo.ternary main_v102 main_v104 main_arg1 main_v105 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v105 main_v106 (broadcastInDim S4096x1 ![0] bcast_S4096_S4096x1_0 : (⟨S4096, .i32⟩ : BufTy).Contents (Elt F) → (⟨S4096x1, .i32⟩ : BufTy).Contents (Elt F)),
    StableHlo.binary main_v100 main_v106 main_v107 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.nullary main_c_20 (constantI S_ 32 0#32),
    StableHlo.unary main_c_20 main_v108 (broadcastInDim S4096 ![] bcast_S_S4096 : (⟨S_, .i32⟩ : BufTy).Contents (Elt F) → (⟨S4096, .i32⟩ : BufTy).Contents (Elt F)),
    StableHlo.binary main_arg2 main_v108 main_v109 (cmpi .slt : (⟨S4096, .i32⟩ : BufTy).Contents (Elt F) → (⟨S4096, .i32⟩ : BufTy).Contents (Elt F) → (⟨S4096, .i1⟩ : BufTy).Contents (Elt F)),
    StableHlo.nullary main_c_21 (constantI S_ 32 50000#32),
    StableHlo.unary main_c_21 main_v110 (broadcastInDim S4096 ![] bcast_S_S4096 : (⟨S_, .i32⟩ : BufTy).Contents (Elt F) → (⟨S4096, .i32⟩ : BufTy).Contents (Elt F)),
    StableHlo.binary main_arg2 main_v110 main_v111 (addi : (⟨S4096, .i32⟩ : BufTy).Contents (Elt F) → (⟨S4096, .i32⟩ : BufTy).Contents (Elt F) → (⟨S4096, .i32⟩ : BufTy).Contents (Elt F)),
    StableHlo.ternary main_v109 main_v111 main_arg2 main_v112 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v112 main_v113 (broadcastInDim S4096x1 ![0] bcast_S4096_S4096x1_0 : (⟨S4096, .i32⟩ : BufTy).Contents (Elt F) → (⟨S4096x1, .i32⟩ : BufTy).Contents (Elt F)),
    StableHlo.binary main_v100 main_v113 main_v114 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)) ]

/-- The reference's 157 operations, in order: @main's own and, at each of its three calls of `leaky_relu`, the
    callee's seven over that call's buffers (the last of them the nested `_where`'s select). -/
abbrev ops : List (HloOp τ sig (Elt F)) := ops1 ++ (ops2 ++ (ops3 ++ ops4))

/-- The operations of @main's first window: 1 … 66 of 157. -/
abbrev win0 : List (HloOp τ sig (Elt F)) :=
  [ StableHlo.binary main_arg6 main_arg7 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    StableHlo.unary main_arg5 main_v1 (broadcastInDim S2400000x1 ![0] bcast_S2400000_S2400000x1_0 : (⟨S2400000, .f32⟩ : BufTy).Contents (Elt F) → (⟨S2400000x1, .f32⟩ : BufTy).Contents (Elt F)),
    StableHlo.nullary main_c (constantI S_ 32 0#32),
    StableHlo.unary main_c main_v2 (broadcastInDim S2400000 ![] bcast_S_S2400000 : (⟨S_, .i32⟩ : BufTy).Contents (Elt F) → (⟨S2400000, .i32⟩ : BufTy).Contents (Elt F)),
    StableHlo.binary main_arg4 main_v2 main_v3 (cmpi .slt : (⟨S2400000, .i32⟩ : BufTy).Contents (Elt F) → (⟨S2400000, .i32⟩ : BufTy).Contents (Elt F) → (⟨S2400000, .i1⟩ : BufTy).Contents (Elt F)),
    StableHlo.nullary main_c_0 (constantI S_ 32 150000#32),
    StableHlo.unary main_c_0 main_v4 (broadcastInDim S2400000 ![] bcast_S_S2400000 : (⟨S_, .i32⟩ : BufTy).Contents (Elt F) → (⟨S2400000, .i32⟩ : BufTy).Contents (Elt F)),
    StableHlo.binary main_arg4 main_v4 main_v5 (addi : (⟨S2400000, .i32⟩ : BufTy).Contents (Elt F) → (⟨S2400000, .i32⟩ : BufTy).Contents (Elt F) → (⟨S2400000, .i32⟩ : BufTy).Contents (Elt F)),
    StableHlo.ternary main_v3 main_v5 main_arg4 main_v6 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v6 main_v7 (broadcastInDim S2400000x1 ![0] bcast_S2400000_S2400000x1_0 : (⟨S2400000, .i32⟩ : BufTy).Contents (Elt F) → (⟨S2400000x1, .i32⟩ : BufTy).Contents (Elt F)),
    StableHlo.binary main_v0 main_v7 main_v8 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v1 main_v9 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v9 main_v8 main_v10 (mulf : (⟨S2400000x64, .f32⟩ : BufTy).Contents (Elt F) → (⟨S2400000x64, .f32⟩ : BufTy).Contents (Elt F) → (⟨S2400000x64, .f32⟩ : BufTy).Contents (Elt F)),
    StableHlo.nullary main_cst (constant S_ .f32 0x00000000#32),
    StableHlo.unary main_cst main_v11 (broadcastInDim S150000x64 ![] bcast_S_S150000x64 : (⟨S_, .f32⟩ : BufTy).Contents (Elt F) → (⟨S150000x64, .f32⟩ : BufTy).Contents (Elt F)),
    StableHlo.unary main_arg3 main_v12 (broadcastInDim S2400000x1 ![0] bcast_S2400000_S2400000x1_0 : (⟨S2400000, .i32⟩ : BufTy).Contents (Elt F) → (⟨S2400000x1, .i32⟩ : BufTy).Contents (Elt F)),
    StableHlo.ternary main_v11 main_v12 main_v10 main_v13 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.binary main_v13 main_arg8 main_v14 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg11 main_v15 (broadcastInDim S150000x64 ![0, 1] bcast_S1x64_S150000x64_0_1 : (⟨S1x64, .f32⟩ : BufTy).Contents (Elt F) → (⟨S150000x64, .f32⟩ : BufTy).Contents (Elt F)),
    StableHlo.binary main_v14 main_v15 main_v16 (addf : (⟨S150000x64, .f32⟩ : BufTy).Contents (Elt F) → (⟨S150000x64, .f32⟩ : BufTy).Contents (Elt F) → (⟨S150000x64, .f32⟩ : BufTy).Contents (Elt F)),
    StableHlo.binary main_v0 main_v13 main_v17 (mulf : (⟨S150000x64, .f32⟩ : BufTy).Contents (Elt F) → (⟨S150000x64, .f32⟩ : BufTy).Contents (Elt F) → (⟨S150000x64, .f32⟩ : BufTy).Contents (Elt F)),
    StableHlo.binary main_v17 main_arg14 main_v18 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg17 main_v19 (broadcastInDim S150000x64 ![0, 1] bcast_S1x64_S150000x64_0_1 : (⟨S1x64, .f32⟩ : BufTy).Contents (Elt F) → (⟨S150000x64, .f32⟩ : BufTy).Contents (Elt F)),
    StableHlo.binary main_v18 main_v19 main_v20 (addf : (⟨S150000x64, .f32⟩ : BufTy).Contents (Elt F) → (⟨S150000x64, .f32⟩ : BufTy).Contents (Elt F) → (⟨S150000x64, .f32⟩ : BufTy).Contents (Elt F)),
    StableHlo.binary main_v16 main_v20 main_v21 (addf : (⟨S150000x64, .f32⟩ : BufTy).Contents (Elt F) → (⟨S150000x64, .f32⟩ : BufTy).Contents (Elt F) → (⟨S150000x64, .f32⟩ : BufTy).Contents (Elt F)),
    StableHlo.nullary main_cst_1 (constant S_ .f32 0x3E4CCCCD#32),
    TRef.nullary main_call0.cst (constant S_ .f32 0x00000000#32),
    TRef.unary main_call0.cst main_call0.v0 (broadcastInDim S150000x64 ![] bcast_S_S150000x64),
    TRef.binary (.of main_v21 : TRef sig ⟨S150000x64, .f32⟩) main_call0.v0 main_call0.v1 (cmpf .oge),
    TRef.unary (.of main_cst_1 : TRef sig ⟨S_, .f32⟩) main_call0.v2 id,
    TRef.unary main_call0.v2 main_call0.v3 (broadcastInDim S150000x64 ![] bcast_S_S150000x64),
    TRef.binary main_call0.v3 (.of main_v21 : TRef sig ⟨S150000x64, .f32⟩) main_call0.v4 mulf,
    TRef.ternary main_call0.v1 (.of main_v21 : TRef sig ⟨S150000x64, .f32⟩) main_call0.v4 main_call0.call0.v0 select,
    StableHlo.binary main_v22 main_v22 main_v23 (mulf : (⟨S150000x64, .f32⟩ : BufTy).Contents (Elt F) → (⟨S150000x64, .f32⟩ : BufTy).Contents (Elt F) → (⟨S150000x64, .f32⟩ : BufTy).Contents (Elt F)),
    StableHlo.nullary main_cst_2 (constant S_ .f32 0x00000000#32),
    StableHlo.binary main_v23 main_cst_2 main_v24 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v24 main_v25 (broadcastInDim S150000x1 ![0] bcast_S150000_S150000x1_0 : (⟨S150000, .f32⟩ : BufTy).Contents (Elt F) → (⟨S150000x1, .f32⟩ : BufTy).Contents (Elt F)),
    StableHlo.unary main_v25 main_v26 (Host.sqrt : (⟨S150000x1, .f32⟩ : BufTy).Contents (Elt F) → (⟨S150000x1, .f32⟩ : BufTy).Contents (Elt F)),
    StableHlo.nullary main_cst_3 (constant S_ .f32 0x2B8CBCCC#32),
    StableHlo.unary main_cst_3 main_v27 (broadcastInDim S150000x1 ![] bcast_S_S150000x1 : (⟨S_, .f32⟩ : BufTy).Contents (Elt F) → (⟨S150000x1, .f32⟩ : BufTy).Contents (Elt F)),
    StableHlo.binary main_v26 main_v27 main_v28 (maximumf : (⟨S150000x1, .f32⟩ : BufTy).Contents (Elt F) → (⟨S150000x1, .f32⟩ : BufTy).Contents (Elt F) → (⟨S150000x1, .f32⟩ : BufTy).Contents (Elt F)),
    StableHlo.unary main_v28 main_v29 (broadcastInDim S150000x64 ![0, 1] bcast_S150000x1_S150000x64_0_1 : (⟨S150000x1, .f32⟩ : BufTy).Contents (Elt F) → (⟨S150000x64, .f32⟩ : BufTy).Contents (Elt F)),
    StableHlo.binary main_v22 main_v29 main_v30 (Host.divf : (⟨S150000x64, .f32⟩ : BufTy).Contents (Elt F) → (⟨S150000x64, .f32⟩ : BufTy).Contents (Elt F) → (⟨S150000x64, .f32⟩ : BufTy).Contents (Elt F)),
    StableHlo.unary main_arg5 main_v31 (broadcastInDim S2400000x1 ![0] bcast_S2400000_S2400000x1_0 : (⟨S2400000, .f32⟩ : BufTy).Contents (Elt F) → (⟨S2400000x1, .f32⟩ : BufTy).Contents (Elt F)),
    StableHlo.nullary main_c_4 (constantI S_ 32 0#32),
    StableHlo.unary main_c_4 main_v32 (broadcastInDim S2400000 ![] bcast_S_S2400000 : (⟨S_, .i32⟩ : BufTy).Contents (Elt F) → (⟨S2400000, .i32⟩ : BufTy).Contents (Elt F)),
    StableHlo.binary main_arg4 main_v32 main_v33 (cmpi .slt : (⟨S2400000, .i32⟩ : BufTy).Contents (Elt F) → (⟨S2400000, .i32⟩ : BufTy).Contents (Elt F) → (⟨S2400000, .i1⟩ : BufTy).Contents (Elt F)),
    StableHlo.nullary main_c_5 (constantI S_ 32 150000#32),
    StableHlo.unary main_c_5 main_v34 (broadcastInDim S2400000 ![] bcast_S_S2400000 : (⟨S_, .i32⟩ : BufTy).Contents (Elt F) → (⟨S2400000, .i32⟩ : BufTy).Contents (Elt F)),
    StableHlo.binary main_arg4 main_v34 main_v35 (addi : (⟨S2400000, .i32⟩ : BufTy).Contents (Elt F) → (⟨S2400000, .i32⟩ : BufTy).Contents (Elt F) → (⟨S2400000, .i32⟩ : BufTy).Contents (Elt F)),
    StableHlo.ternary main_v33 main_v35 main_arg4 main_v36 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v36 main_v37 (broadcastInDim S2400000x1 ![0] bcast_S2400000_S2400000x1_0 : (⟨S2400000, .i32⟩ : BufTy).Contents (Elt F) → (⟨S2400000x1, .i32⟩ : BufTy).Contents (Elt F)),
    StableHlo.binary main_v22 main_v37 main_v38 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v31 main_v39 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v39 main_v38 main_v40 (mulf : (⟨S2400000x64, .f32⟩ : BufTy).Contents (Elt F) → (⟨S2400000x64, .f32⟩ : BufTy).Contents (Elt F) → (⟨S2400000x64, .f32⟩ : BufTy).Contents (Elt F)),
    StableHlo.nullary main_cst_6 (constant S_ .f32 0x00000000#32),
    StableHlo.unary main_cst_6 main_v41 (broadcastInDim S150000x64 ![] bcast_S_S150000x64 : (⟨S_, .f32⟩ : BufTy).Contents (Elt F) → (⟨S150000x64, .f32⟩ : BufTy).Contents (Elt F)),
    StableHlo.unary main_arg3 main_v42 (broadcastInDim S2400000x1 ![0] bcast_S2400000_S2400000x1_0 : (⟨S2400000, .i32⟩ : BufTy).Contents (Elt F) → (⟨S2400000x1, .i32⟩ : BufTy).Contents (Elt F)),
    StableHlo.ternary main_v41 main_v42 main_v40 main_v43 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.binary main_v43 main_arg9 main_v44 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg12 main_v45 (broadcastInDim S150000x64 ![0, 1] bcast_S1x64_S150000x64_0_1 : (⟨S1x64, .f32⟩ : BufTy).Contents (Elt F) → (⟨S150000x64, .f32⟩ : BufTy).Contents (Elt F)),
    StableHlo.binary main_v44 main_v45 main_v46 (addf : (⟨S150000x64, .f32⟩ : BufTy).Contents (Elt F) → (⟨S150000x64, .f32⟩ : BufTy).Contents (Elt F) → (⟨S150000x64, .f32⟩ : BufTy).Contents (Elt F)),
    StableHlo.binary main_v22 main_v43 main_v47 (mulf : (⟨S150000x64, .f32⟩ : BufTy).Contents (Elt F) → (⟨S150000x64, .f32⟩ : BufTy).Contents (Elt F) → (⟨S150000x64, .f32⟩ : BufTy).Contents (Elt F)),
    StableHlo.binary main_v47 main_arg15 main_v48 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg18 main_v49 (broadcastInDim S150000x64 ![0, 1] bcast_S1x64_S150000x64_0_1 : (⟨S1x64, .f32⟩ : BufTy).Contents (Elt F) → (⟨S150000x64, .f32⟩ : BufTy).Contents (Elt F)),
    StableHlo.binary main_v48 main_v49 main_v50 (addf : (⟨S150000x64, .f32⟩ : BufTy).Contents (Elt F) → (⟨S150000x64, .f32⟩ : BufTy).Contents (Elt F) → (⟨S150000x64, .f32⟩ : BufTy).Contents (Elt F)) ]

/-- The operations of @main's second window: 67 … 138 of 157. -/
abbrev win1 : List (HloOp τ sig (Elt F)) :=
  [ StableHlo.binary main_v46 main_v50 main_v51 (addf : (⟨S150000x64, .f32⟩ : BufTy).Contents (Elt F) → (⟨S150000x64, .f32⟩ : BufTy).Contents (Elt F) → (⟨S150000x64, .f32⟩ : BufTy).Contents (Elt F)),
    StableHlo.nullary main_cst_7 (constant S_ .f32 0x3E4CCCCD#32),
    TRef.nullary main_call1.cst (constant S_ .f32 0x00000000#32),
    TRef.unary main_call1.cst main_call1.v0 (broadcastInDim S150000x64 ![] bcast_S_S150000x64),
    TRef.binary (.of main_v51 : TRef sig ⟨S150000x64, .f32⟩) main_call1.v0 main_call1.v1 (cmpf .oge),
    TRef.unary (.of main_cst_7 : TRef sig ⟨S_, .f32⟩) main_call1.v2 id,
    TRef.unary main_call1.v2 main_call1.v3 (broadcastInDim S150000x64 ![] bcast_S_S150000x64),
    TRef.binary main_call1.v3 (.of main_v51 : TRef sig ⟨S150000x64, .f32⟩) main_call1.v4 mulf,
    TRef.ternary main_call1.v1 (.of main_v51 : TRef sig ⟨S150000x64, .f32⟩) main_call1.v4 main_call1.call0.v0 select,
    StableHlo.binary main_v52 main_v52 main_v53 (mulf : (⟨S150000x64, .f32⟩ : BufTy).Contents (Elt F) → (⟨S150000x64, .f32⟩ : BufTy).Contents (Elt F) → (⟨S150000x64, .f32⟩ : BufTy).Contents (Elt F)),
    StableHlo.nullary main_cst_8 (constant S_ .f32 0x00000000#32),
    StableHlo.binary main_v53 main_cst_8 main_v54 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v54 main_v55 (broadcastInDim S150000x1 ![0] bcast_S150000_S150000x1_0 : (⟨S150000, .f32⟩ : BufTy).Contents (Elt F) → (⟨S150000x1, .f32⟩ : BufTy).Contents (Elt F)),
    StableHlo.unary main_v55 main_v56 (Host.sqrt : (⟨S150000x1, .f32⟩ : BufTy).Contents (Elt F) → (⟨S150000x1, .f32⟩ : BufTy).Contents (Elt F)),
    StableHlo.nullary main_cst_9 (constant S_ .f32 0x2B8CBCCC#32),
    StableHlo.unary main_cst_9 main_v57 (broadcastInDim S150000x1 ![] bcast_S_S150000x1 : (⟨S_, .f32⟩ : BufTy).Contents (Elt F) → (⟨S150000x1, .f32⟩ : BufTy).Contents (Elt F)),
    StableHlo.binary main_v56 main_v57 main_v58 (maximumf : (⟨S150000x1, .f32⟩ : BufTy).Contents (Elt F) → (⟨S150000x1, .f32⟩ : BufTy).Contents (Elt F) → (⟨S150000x1, .f32⟩ : BufTy).Contents (Elt F)),
    StableHlo.unary main_v58 main_v59 (broadcastInDim S150000x64 ![0, 1] bcast_S150000x1_S150000x64_0_1 : (⟨S150000x1, .f32⟩ : BufTy).Contents (Elt F) → (⟨S150000x64, .f32⟩ : BufTy).Contents (Elt F)),
    StableHlo.binary main_v52 main_v59 main_v60 (Host.divf : (⟨S150000x64, .f32⟩ : BufTy).Contents (Elt F) → (⟨S150000x64, .f32⟩ : BufTy).Contents (Elt F) → (⟨S150000x64, .f32⟩ : BufTy).Contents (Elt F)),
    StableHlo.unary main_arg5 main_v61 (broadcastInDim S2400000x1 ![0] bcast_S2400000_S2400000x1_0 : (⟨S2400000, .f32⟩ : BufTy).Contents (Elt F) → (⟨S2400000x1, .f32⟩ : BufTy).Contents (Elt F)),
    StableHlo.nullary main_c_10 (constantI S_ 32 0#32),
    StableHlo.unary main_c_10 main_v62 (broadcastInDim S2400000 ![] bcast_S_S2400000 : (⟨S_, .i32⟩ : BufTy).Contents (Elt F) → (⟨S2400000, .i32⟩ : BufTy).Contents (Elt F)),
    StableHlo.binary main_arg4 main_v62 main_v63 (cmpi .slt : (⟨S2400000, .i32⟩ : BufTy).Contents (Elt F) → (⟨S2400000, .i32⟩ : BufTy).Contents (Elt F) → (⟨S2400000, .i1⟩ : BufTy).Contents (Elt F)),
    StableHlo.nullary main_c_11 (constantI S_ 32 150000#32),
    StableHlo.unary main_c_11 main_v64 (broadcastInDim S2400000 ![] bcast_S_S2400000 : (⟨S_, .i32⟩ : BufTy).Contents (Elt F) → (⟨S2400000, .i32⟩ : BufTy).Contents (Elt F)),
    StableHlo.binary main_arg4 main_v64 main_v65 (addi : (⟨S2400000, .i32⟩ : BufTy).Contents (Elt F) → (⟨S2400000, .i32⟩ : BufTy).Contents (Elt F) → (⟨S2400000, .i32⟩ : BufTy).Contents (Elt F)),
    StableHlo.ternary main_v63 main_v65 main_arg4 main_v66 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v66 main_v67 (broadcastInDim S2400000x1 ![0] bcast_S2400000_S2400000x1_0 : (⟨S2400000, .i32⟩ : BufTy).Contents (Elt F) → (⟨S2400000x1, .i32⟩ : BufTy).Contents (Elt F)),
    StableHlo.binary main_v52 main_v67 main_v68 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v61 main_v69 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v69 main_v68 main_v70 (mulf : (⟨S2400000x64, .f32⟩ : BufTy).Contents (Elt F) → (⟨S2400000x64, .f32⟩ : BufTy).Contents (Elt F) → (⟨S2400000x64, .f32⟩ : BufTy).Contents (Elt F)),
    StableHlo.nullary main_cst_12 (constant S_ .f32 0x00000000#32),
    StableHlo.unary main_cst_12 main_v71 (broadcastInDim S150000x64 ![] bcast_S_S150000x64 : (⟨S_, .f32⟩ : BufTy).Contents (Elt F) → (⟨S150000x64, .f32⟩ : BufTy).Contents (Elt F)),
    StableHlo.unary main_arg3 main_v72 (broadcastInDim S2400000x1 ![0] bcast_S2400000_S2400000x1_0 : (⟨S2400000, .i32⟩ : BufTy).Contents (Elt F) → (⟨S2400000x1, .i32⟩ : BufTy).Contents (Elt F)),
    StableHlo.ternary main_v71 main_v72 main_v70 main_v73 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.binary main_v73 main_arg10 main_v74 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg13 main_v75 (broadcastInDim S150000x64 ![0, 1] bcast_S1x64_S150000x64_0_1 : (⟨S1x64, .f32⟩ : BufTy).Contents (Elt F) → (⟨S150000x64, .f32⟩ : BufTy).Contents (Elt F)),
    StableHlo.binary main_v74 main_v75 main_v76 (addf : (⟨S150000x64, .f32⟩ : BufTy).Contents (Elt F) → (⟨S150000x64, .f32⟩ : BufTy).Contents (Elt F) → (⟨S150000x64, .f32⟩ : BufTy).Contents (Elt F)),
    StableHlo.binary main_v52 main_v73 main_v77 (mulf : (⟨S150000x64, .f32⟩ : BufTy).Contents (Elt F) → (⟨S150000x64, .f32⟩ : BufTy).Contents (Elt F) → (⟨S150000x64, .f32⟩ : BufTy).Contents (Elt F)),
    StableHlo.binary main_v77 main_arg16 main_v78 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg19 main_v79 (broadcastInDim S150000x64 ![0, 1] bcast_S1x64_S150000x64_0_1 : (⟨S1x64, .f32⟩ : BufTy).Contents (Elt F) → (⟨S150000x64, .f32⟩ : BufTy).Contents (Elt F)),
    StableHlo.binary main_v78 main_v79 main_v80 (addf : (⟨S150000x64, .f32⟩ : BufTy).Contents (Elt F) → (⟨S150000x64, .f32⟩ : BufTy).Contents (Elt F) → (⟨S150000x64, .f32⟩ : BufTy).Contents (Elt F)),
    StableHlo.binary main_v76 main_v80 main_v81 (addf : (⟨S150000x64, .f32⟩ : BufTy).Contents (Elt F) → (⟨S150000x64, .f32⟩ : BufTy).Contents (Elt F) → (⟨S150000x64, .f32⟩ : BufTy).Contents (Elt F)),
    StableHlo.nullary main_cst_13 (constant S_ .f32 0x3E4CCCCD#32),
    TRef.nullary main_call2.cst (constant S_ .f32 0x00000000#32),
    TRef.unary main_call2.cst main_call2.v0 (broadcastInDim S150000x64 ![] bcast_S_S150000x64),
    TRef.binary (.of main_v81 : TRef sig ⟨S150000x64, .f32⟩) main_call2.v0 main_call2.v1 (cmpf .oge),
    TRef.unary (.of main_cst_13 : TRef sig ⟨S_, .f32⟩) main_call2.v2 id,
    TRef.unary main_call2.v2 main_call2.v3 (broadcastInDim S150000x64 ![] bcast_S_S150000x64),
    TRef.binary main_call2.v3 (.of main_v81 : TRef sig ⟨S150000x64, .f32⟩) main_call2.v4 mulf,
    TRef.ternary main_call2.v1 (.of main_v81 : TRef sig ⟨S150000x64, .f32⟩) main_call2.v4 main_call2.call0.v0 select,
    StableHlo.binary main_v82 main_v82 main_v83 (mulf : (⟨S150000x64, .f32⟩ : BufTy).Contents (Elt F) → (⟨S150000x64, .f32⟩ : BufTy).Contents (Elt F) → (⟨S150000x64, .f32⟩ : BufTy).Contents (Elt F)),
    StableHlo.nullary main_cst_14 (constant S_ .f32 0x00000000#32),
    StableHlo.binary main_v83 main_cst_14 main_v84 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v84 main_v85 (broadcastInDim S150000x1 ![0] bcast_S150000_S150000x1_0 : (⟨S150000, .f32⟩ : BufTy).Contents (Elt F) → (⟨S150000x1, .f32⟩ : BufTy).Contents (Elt F)),
    StableHlo.unary main_v85 main_v86 (Host.sqrt : (⟨S150000x1, .f32⟩ : BufTy).Contents (Elt F) → (⟨S150000x1, .f32⟩ : BufTy).Contents (Elt F)),
    StableHlo.nullary main_cst_15 (constant S_ .f32 0x2B8CBCCC#32),
    StableHlo.unary main_cst_15 main_v87 (broadcastInDim S150000x1 ![] bcast_S_S150000x1 : (⟨S_, .f32⟩ : BufTy).Contents (Elt F) → (⟨S150000x1, .f32⟩ : BufTy).Contents (Elt F)),
    StableHlo.binary main_v86 main_v87 main_v88 (maximumf : (⟨S150000x1, .f32⟩ : BufTy).Contents (Elt F) → (⟨S150000x1, .f32⟩ : BufTy).Contents (Elt F) → (⟨S150000x1, .f32⟩ : BufTy).Contents (Elt F)),
    StableHlo.unary main_v88 main_v89 (broadcastInDim S150000x64 ![0, 1] bcast_S150000x1_S150000x64_0_1 : (⟨S150000x1, .f32⟩ : BufTy).Contents (Elt F) → (⟨S150000x64, .f32⟩ : BufTy).Contents (Elt F)),
    StableHlo.binary main_v82 main_v89 main_v90 (Host.divf : (⟨S150000x64, .f32⟩ : BufTy).Contents (Elt F) → (⟨S150000x64, .f32⟩ : BufTy).Contents (Elt F) → (⟨S150000x64, .f32⟩ : BufTy).Contents (Elt F)),
    StableHlo.nary ![main_v0, main_v30, main_v60, main_v90] main_v91 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    StableHlo.unary main_v91 main_v92 ((extractStridedSlice S100000x256 ![0, 0] · slices_S150000x256_S100000x256_0_0) : (⟨S150000x256, .f32⟩ : BufTy).Contents (Elt F) → (⟨S100000x256, .f32⟩ : BufTy).Contents (Elt F)),
    StableHlo.nullary main_c_16 (constantI S_ 32 0#32),
    StableHlo.unary main_c_16 main_v93 (broadcastInDim S4096 ![] bcast_S_S4096 : (⟨S_, .i32⟩ : BufTy).Contents (Elt F) → (⟨S4096, .i32⟩ : BufTy).Contents (Elt F)),
    StableHlo.binary main_arg0 main_v93 main_v94 (cmpi .slt : (⟨S4096, .i32⟩ : BufTy).Contents (Elt F) → (⟨S4096, .i32⟩ : BufTy).Contents (Elt F) → (⟨S4096, .i1⟩ : BufTy).Contents (Elt F)),
    StableHlo.nullary main_c_17 (constantI S_ 32 100000#32),
    StableHlo.unary main_c_17 main_v95 (broadcastInDim S4096 ![] bcast_S_S4096 : (⟨S_, .i32⟩ : BufTy).Contents (Elt F) → (⟨S4096, .i32⟩ : BufTy).Contents (Elt F)),
    StableHlo.binary main_arg0 main_v95 main_v96 (addi : (⟨S4096, .i32⟩ : BufTy).Contents (Elt F) → (⟨S4096, .i32⟩ : BufTy).Contents (Elt F) → (⟨S4096, .i32⟩ : BufTy).Contents (Elt F)),
    StableHlo.ternary main_v94 main_v96 main_arg0 main_v97 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v97 main_v98 (broadcastInDim S4096x1 ![0] bcast_S4096_S4096x1_0 : (⟨S4096, .i32⟩ : BufTy).Contents (Elt F) → (⟨S4096x1, .i32⟩ : BufTy).Contents (Elt F)),
    StableHlo.binary main_v92 main_v98 main_v99 ((fun x i => Host.gather gather_S100000x256_S4096x1_S4096x256_1_0_n_n_0_1_1256 x i) : (⟨S100000x256, .f32⟩ : BufTy).Contents (Elt F) → (⟨S4096x1, .i32⟩ : BufTy).Contents (Elt F) → (⟨S4096x256, .f32⟩ : BufTy).Contents (Elt F)) ]

/-- The operations of @main's third window: 139 … 157 of 157. -/
abbrev win2 : List (HloOp τ sig (Elt F)) :=
  [ StableHlo.unary main_v91 main_v100 ((extractStridedSlice S50000x256 ![100000, 0] · slices_S150000x256_S50000x256_100000_0) : (⟨S150000x256, .f32⟩ : BufTy).Contents (Elt F) → (⟨S50000x256, .f32⟩ : BufTy).Contents (Elt F)),
    StableHlo.nullary main_c_18 (constantI S_ 32 0#32),
    StableHlo.unary main_c_18 main_v101 (broadcastInDim S4096 ![] bcast_S_S4096 : (⟨S_, .i32⟩ : BufTy).Contents (Elt F) → (⟨S4096, .i32⟩ : BufTy).Contents (Elt F)),
    StableHlo.binary main_arg1 main_v101 main_v102 (cmpi .slt : (⟨S4096, .i32⟩ : BufTy).Contents (Elt F) → (⟨S4096, .i32⟩ : BufTy).Contents (Elt F) → (⟨S4096, .i1⟩ : BufTy).Contents (Elt F)),
    StableHlo.nullary main_c_19 (constantI S_ 32 50000#32),
    StableHlo.unary main_c_19 main_v103 (broadcastInDim S4096 ![] bcast_S_S4096 : (⟨S_, .i32⟩ : BufTy).Contents (Elt F) → (⟨S4096, .i32⟩ : BufTy).Contents (Elt F)),
    StableHlo.binary main_arg1 main_v103 main_v104 (addi : (⟨S4096, .i32⟩ : BufTy).Contents (Elt F) → (⟨S4096, .i32⟩ : BufTy).Contents (Elt F) → (⟨S4096, .i32⟩ : BufTy).Contents (Elt F)),
    StableHlo.ternary main_v102 main_v104 main_arg1 main_v105 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v105 main_v106 (broadcastInDim S4096x1 ![0] bcast_S4096_S4096x1_0 : (⟨S4096, .i32⟩ : BufTy).Contents (Elt F) → (⟨S4096x1, .i32⟩ : BufTy).Contents (Elt F)),
    StableHlo.binary main_v100 main_v106 main_v107 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.nullary main_c_20 (constantI S_ 32 0#32),
    StableHlo.unary main_c_20 main_v108 (broadcastInDim S4096 ![] bcast_S_S4096 : (⟨S_, .i32⟩ : BufTy).Contents (Elt F) → (⟨S4096, .i32⟩ : BufTy).Contents (Elt F)),
    StableHlo.binary main_arg2 main_v108 main_v109 (cmpi .slt : (⟨S4096, .i32⟩ : BufTy).Contents (Elt F) → (⟨S4096, .i32⟩ : BufTy).Contents (Elt F) → (⟨S4096, .i1⟩ : BufTy).Contents (Elt F)),
    StableHlo.nullary main_c_21 (constantI S_ 32 50000#32),
    StableHlo.unary main_c_21 main_v110 (broadcastInDim S4096 ![] bcast_S_S4096 : (⟨S_, .i32⟩ : BufTy).Contents (Elt F) → (⟨S4096, .i32⟩ : BufTy).Contents (Elt F)),
    StableHlo.binary main_arg2 main_v110 main_v111 (addi : (⟨S4096, .i32⟩ : BufTy).Contents (Elt F) → (⟨S4096, .i32⟩ : BufTy).Contents (Elt F) → (⟨S4096, .i32⟩ : BufTy).Contents (Elt F)),
    StableHlo.ternary main_v109 main_v111 main_arg2 main_v112 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v112 main_v113 (broadcastInDim S4096x1 ![0] bcast_S4096_S4096x1_0 : (⟨S4096, .i32⟩ : BufTy).Contents (Elt F) → (⟨S4096x1, .i32⟩ : BufTy).Contents (Elt F)),
    StableHlo.binary main_v100 main_v113 main_v114 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)) ]

/-- The buffers `ops1` writes, in order. -/
abbrev W1 : List (Ref sig .tc) :=
  [main_v0, main_v1, main_c, main_v2, main_v3, main_c_0, main_v4, main_v5, main_v6, main_v7,
   main_v8, main_v9, main_v10, main_cst, main_v11, main_v12, main_v13, main_v14, main_v15, main_v16,
   main_v17, main_v18, main_v19, main_v20, main_v21, main_cst_1, main_call0_cst, main_call0_v0, main_call0_v1, main_call0_v2,
   main_call0_v3, main_call0_v4, main_v22, main_v23, main_cst_2, main_v24, main_v25, main_v26, main_cst_3, main_v27,
   main_v28, main_v29, main_v30]

/-- The buffers `ops2` writes, in order. -/
abbrev W2 : List (Ref sig .tc) :=
  [main_v31, main_c_4, main_v32, main_v33, main_c_5, main_v34, main_v35, main_v36, main_v37, main_v38,
   main_v39, main_v40, main_cst_6, main_v41, main_v42, main_v43, main_v44, main_v45, main_v46, main_v47,
   main_v48, main_v49, main_v50, main_v51, main_cst_7, main_call1_cst, main_call1_v0, main_call1_v1, main_call1_v2, main_call1_v3,
   main_call1_v4, main_v52, main_v53, main_cst_8, main_v54, main_v55, main_v56, main_cst_9, main_v57, main_v58,
   main_v59, main_v60]

/-- The buffers `ops3` writes, in order. -/
abbrev W3 : List (Ref sig .tc) :=
  [main_v61, main_c_10, main_v62, main_v63, main_c_11, main_v64, main_v65, main_v66, main_v67, main_v68,
   main_v69, main_v70, main_cst_12, main_v71, main_v72, main_v73, main_v74, main_v75, main_v76, main_v77,
   main_v78, main_v79, main_v80, main_v81, main_cst_13, main_call2_cst, main_call2_v0, main_call2_v1, main_call2_v2, main_call2_v3,
   main_call2_v4, main_v82, main_v83, main_cst_14, main_v84, main_v85, main_v86, main_cst_15, main_v87, main_v88,
   main_v89, main_v90]

/-- The buffers `ops4` writes, in order. -/
abbrev W4 : List (Ref sig .tc) :=
  [main_v91, main_v92, main_c_16, main_v93, main_v94, main_c_17, main_v95, main_v96, main_v97, main_v98,
   main_v99, main_v100, main_c_18, main_v101, main_v102, main_c_19, main_v103, main_v104, main_v105, main_v106,
   main_v107, main_c_20, main_v108, main_v109, main_c_21, main_v110, main_v111, main_v112, main_v113, main_v114]

end Cert.ReferenceIdeal.Hand

end
-- ==== Proof.RefRun.lean ====
import proofs.«404336_j13099650253234_2_alg».proof.Proof.RefRunOps
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem win_eq : (win0 ++ (win1 ++ win2) : List (HloOp τ sig (Elt F))) = ops := rfl

set_option maxRecDepth 8192 in
set_option maxHeartbeats 4000000 in
theorem main_part0_eq (c : Dev nD) : main_part0 (F := F) c = seq win0 := by
  simp only [main_part0, fn_leaky_relu.body, fn_where.body, seq, bind_assoc, pure_bind]
  rfl

set_option maxRecDepth 8192 in
set_option maxHeartbeats 4000000 in
theorem main_part1_eq (c : Dev nD) : main_part1 (F := F) c = seq win1 := by
  simp only [main_part1, fn_leaky_relu.body, fn_where.body, seq, bind_assoc, pure_bind]
  rfl

set_option maxRecDepth 8192 in
theorem main_part2_eq (c : Dev nD) : main_part2 (F := F) c = seq win2 := rfl

theorem main_eq (c : Dev nD) : main (F := F) c = seq ops := by
  rw [← win_eq, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops1_sub : (ops1 : List (HloOp τ sig (Elt F))).Forall fun op => op.bufs ⊆ tcRefs τ sig := by
  repeat' apply And.intro
  all_goals simp only [List.Forall, nullary_bufs_sub, unary_bufs_sub, binary_bufs_sub, ternary_bufs_sub, nary_bufs_sub]

set_option maxRecDepth 8192 in
theorem ops2_sub : (ops2 : List (HloOp τ sig (Elt F))).Forall fun op => op.bufs ⊆ tcRefs τ sig := by
  repeat' apply And.intro
  all_goals simp only [List.Forall, nullary_bufs_sub, unary_bufs_sub, binary_bufs_sub, ternary_bufs_sub, nary_bufs_sub]

set_option maxRecDepth 8192 in
theorem ops3_sub : (ops3 : List (HloOp τ sig (Elt F))).Forall fun op => op.bufs ⊆ tcRefs τ sig := by
  repeat' apply And.intro
  all_goals simp only [List.Forall, nullary_bufs_sub, unary_bufs_sub, binary_bufs_sub, ternary_bufs_sub, nary_bufs_sub]

set_option maxRecDepth 8192 in
theorem ops4_sub : (ops4 : List (HloOp τ sig (Elt F))).Forall fun op => op.bufs ⊆ tcRefs τ sig := by
  repeat' apply And.intro
  all_goals simp only [List.Forall, nullary_bufs_sub, unary_bufs_sub, binary_bufs_sub, ternary_bufs_sub, nary_bufs_sub]

set_option maxRecDepth 8192 in
theorem ops1_fresh : (ops1 : List (HloOp τ sig (Elt F))).Forall fun op => op.fresh = ∅ := by
  repeat' apply And.intro
  all_goals rfl

set_option maxRecDepth 8192 in
theorem ops2_fresh : (ops2 : List (HloOp τ sig (Elt F))).Forall fun op => op.fresh = ∅ := by
  repeat' apply And.intro
  all_goals rfl

set_option maxRecDepth 8192 in
theorem ops3_fresh : (ops3 : List (HloOp τ sig (Elt F))).Forall fun op => op.fresh = ∅ := by
  repeat' apply And.intro
  all_goals rfl

set_option maxRecDepth 8192 in
theorem ops4_fresh : (ops4 : List (HloOp τ sig (Elt F))).Forall fun op => op.fresh = ∅ := by
  repeat' apply And.intro
  all_goals rfl

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops1_sub op h, List.forall_iff_forall_mem.mp ops2_sub op h,
      List.forall_iff_forall_mem.mp ops3_sub op h, List.forall_iff_forall_mem.mp ops4_sub op h]

theorem ops_fresh : ∀ op ∈ (ops : List (HloOp τ sig (Elt F))), op.fresh = ∅ := fun op h => by
  simp only [ops, List.mem_append] at h
  rcases h with h | h | h | h
  exacts [List.forall_iff_forall_mem.mp ops1_fresh op h, List.forall_iff_forall_mem.mp ops2_fresh op h,
    List.forall_iff_forall_mem.mp ops3_fresh op h, List.forall_iff_forall_mem.mp ops4_fresh op h]

theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

set_option maxRecDepth 8192 in
theorem ops1_writes : (ops1 : List (HloOp τ sig (Elt F))).Forall fun op =>
    op.writes ⊆ (W1.map (Proc.devRef (τ := τ) .tc)).toFinset := by
  repeat' apply And.intro
  all_goals exact writes_sub_of_mem _ rfl (by decide)

set_option maxRecDepth 8192 in
theorem ops2_writes : (ops2 : List (HloOp τ sig (Elt F))).Forall fun op =>
    op.writes ⊆ (W2.map (Proc.devRef (τ := τ) .tc)).toFinset := by
  repeat' apply And.intro
  all_goals exact writes_sub_of_mem _ rfl (by decide)

set_option maxRecDepth 8192 in
theorem ops3_writes : (ops3 : List (HloOp τ sig (Elt F))).Forall fun op =>
    op.writes ⊆ (W3.map (Proc.devRef (τ := τ) .tc)).toFinset := by
  repeat' apply And.intro
  all_goals exact writes_sub_of_mem _ rfl (by decide)

set_option maxRecDepth 8192 in
theorem ops4_writes : (ops4 : List (HloOp τ sig (Elt F))).Forall fun op =>
    op.writes ⊆ (W4.map (Proc.devRef (τ := τ) .tc)).toFinset := by
  repeat' apply And.intro
  all_goals exact writes_sub_of_mem _ rfl (by decide)

theorem ops1_keep (V : Valuation τ sig (Elt F)) {r : Ref sig .tc} (hr : r ∉ W1) :
    after ops1 V (Proc.devRef .tc r) = V (Proc.devRef .tc r) :=
  after_of_writes_sub ops1 V ops1_writes hr

theorem ops2_keep (V : Valuation τ sig (Elt F)) {r : Ref sig .tc} (hr : r ∉ W2) :
    after ops2 V (Proc.devRef .tc r) = V (Proc.devRef .tc r) :=
  after_of_writes_sub ops2 V ops2_writes hr

theorem ops3_keep (V : Valuation τ sig (Elt F)) {r : Ref sig .tc} (hr : r ∉ W3) :
    after ops3 V (Proc.devRef .tc r) = V (Proc.devRef .tc r) :=
  after_of_writes_sub ops3 V ops3_writes hr

theorem ops4_keep (V : Valuation τ sig (Elt F)) {r : Ref sig .tc} (hr : r ∉ W4) :
    after ops4 V (Proc.devRef .tc r) = V (Proc.devRef .tc r) :=
  after_of_writes_sub ops4 V ops4_writes hr

theorem ops_keep (V : Valuation τ sig (Elt F)) {r : Ref sig .tc} (h1 : r ∉ W1) (h2 : r ∉ W2) (h3 : r ∉ W3) (h4 : r ∉ W4) :
    after ops V (Proc.devRef .tc r) = V (Proc.devRef .tc r) := by
  rw [show (ops : List (HloOp τ sig (Elt F))) = ops1 ++ (ops2 ++ (ops3 ++ ops4)) from rfl,
    StableHlo.after_append, StableHlo.after_append, StableHlo.after_append,
    ops4_keep _ h4, ops3_keep _ h3, ops2_keep _ h2, ops1_keep _ h1]

theorem arg_keep (V : Valuation τ sig (Elt F)) {r : Ref sig .tc}
    (h1 : r ∉ W1 := by decide) (h2 : r ∉ W2 := by decide) (h3 : r ∉ W3 := by decide) (h4 : r ∉ W4 := by decide) :
    after ops V (Proc.devRef .tc r) = V (Proc.devRef .tc r) :=
  ops_keep V h1 h2 h3 h4

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v99) = StableHlo.after ops (fun b => m (c, b)) (Proc.devRef .tc main_v99)
      ∧ r.2.mem ((c.tc : Thread nD τ).loc main_v107) = StableHlo.after ops (fun b => m (c, b)) (Proc.devRef .tc main_v107)
      ∧ r.2.mem ((c.tc : Thread nD τ).loc main_v114) = StableHlo.after ops (fun b => m (c, b)) (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨h c main_v99, h c main_v107, h c main_v114,
      (h c main_arg0).trans (arg_keep _), (h c main_arg1).trans (arg_keep _), (h c main_arg2).trans (arg_keep _),
      (h c main_arg3).trans (arg_keep _), (h c main_arg4).trans (arg_keep _), (h c main_arg5).trans (arg_keep _),
      (h c main_arg6).trans (arg_keep _), (h c main_arg7).trans (arg_keep _), (h c main_arg8).trans (arg_keep _),
      (h c main_arg9).trans (arg_keep _), (h c main_arg10).trans (arg_keep _), (h c main_arg11).trans (arg_keep _),
      (h c main_arg12).trans (arg_keep _), (h c main_arg13).trans (arg_keep _), (h c main_arg14).trans (arg_keep _),
      (h c main_arg15).trans (arg_keep _), (h c main_arg16).trans (arg_keep _), (h c main_arg17).trans (arg_keep _),
      (h c main_arg18).trans (arg_keep _), (h c main_arg19).trans (arg_keep _)⟩)
    (run_seq scopedRefs_eq scopedSems_eq defs main (fun _ => ops) main_eq (fun _ => ops_sub) m ρ (fun _ => ops_fresh))

end Cert.ReferenceIdeal.Hand

end
-- ==== Proof.RefRead1.lean ====
import proofs.«404336_j13099650253234_2_alg».proof.Proof.RefRunOps
import proofs.«404336_j13099650253234_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

private theorem ofBuf_toBuf {T : BufTy} {Val : EltTy → Type} (x : TRef sig T) (v : T.Contents Val) :
    x.ofBuf (x.toBuf v) = v := by
  obtain ⟨r, h, hd, hu⟩ := x
  subst h
  rfl

private theorem ofBuf_pre (v : (main_v21 : Ref sig .tc).ty.Contents (Elt Ideal)) :
    TRef.ofBuf (Val := Elt Ideal) (.of main_v21 : TRef sig ⟨S150000x64, .f32⟩) v = v := rfl

private theorem ofBuf_slope (v : (main_cst_1 : Ref sig .tc).ty.Contents (Elt Ideal)) :
    TRef.ofBuf (Val := Elt Ideal) (.of main_cst_1 : TRef sig ⟨S_, .f32⟩) v = v := rfl

private theorem toBuf_new (v : FVec Ideal S150000x64 .f32) :
    TRef.toBuf (Val := Elt Ideal) (.of main_v22 : TRef sig ⟨S150000x64, .f32⟩) v = v := rfl

theorem ops1_v0 (W : Valuation τ sig (Elt Ideal)) :
    after (ops1 (F := Ideal)) W (Proc.devRef .tc main_v0)
      = Cert.Spec.ego (W (Proc.devRef .tc main_arg6)) (W (Proc.devRef .tc main_arg7)) := by
  after_results_simp
  rfl

theorem ops1_v22 (W : Valuation τ sig (Elt Ideal)) :
    after (ops1 (F := Ideal)) W (Proc.devRef .tc main_v22)
      = Cert.Spec.new0 (W (Proc.devRef .tc main_arg3)) (W (Proc.devRef .tc main_arg4)) (W (Proc.devRef .tc main_arg5))
          (W (Proc.devRef .tc main_arg6)) (W (Proc.devRef .tc main_arg7)) (W (Proc.devRef .tc main_arg8))
          (W (Proc.devRef .tc main_arg11)) (W (Proc.devRef .tc main_arg14)) (W (Proc.devRef .tc main_arg17)) := by
  after_results_simp
  simp only [ofBuf_toBuf, ofBuf_pre, ofBuf_slope, toBuf_new]
  rfl

theorem ops1_v30 (W : Valuation τ sig (Elt Ideal)) :
    after (ops1 (F := Ideal)) W (Proc.devRef .tc main_v30)
      = Cert.Spec.nrm0 (W (Proc.devRef .tc main_arg3)) (W (Proc.devRef .tc main_arg4)) (W (Proc.devRef .tc main_arg5))
          (W (Proc.devRef .tc main_arg6)) (W (Proc.devRef .tc main_arg7)) (W (Proc.devRef .tc main_arg8))
          (W (Proc.devRef .tc main_arg11)) (W (Proc.devRef .tc main_arg14)) (W (Proc.devRef .tc main_arg17)) := by
  after_results_simp
  simp only [ofBuf_toBuf, ofBuf_pre, ofBuf_slope, toBuf_new]
  rfl

end Cert.ReferenceIdeal.Hand

end
-- ==== Proof.RefRead2.lean ====
import proofs.«404336_j13099650253234_2_alg».proof.Proof.RefRunOps
import proofs.«404336_j13099650253234_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

private theorem ofBuf_toBuf {T : BufTy} {Val : EltTy → Type} (x : TRef sig T) (v : T.Contents Val) :
    x.ofBuf (x.toBuf v) = v := by
  obtain ⟨r, h, hd, hu⟩ := x
  subst h
  rfl

private theorem ofBuf_pre (v : (main_v51 : Ref sig .tc).ty.Contents (Elt Ideal)) :
    TRef.ofBuf (Val := Elt Ideal) (.of main_v51 : TRef sig ⟨S150000x64, .f32⟩) v = v := rfl

private theorem ofBuf_slope (v : (main_cst_7 : Ref sig .tc).ty.Contents (Elt Ideal)) :
    TRef.ofBuf (Val := Elt Ideal) (.of main_cst_7 : TRef sig ⟨S_, .f32⟩) v = v := rfl

private theorem toBuf_new (v : FVec Ideal S150000x64 .f32) :
    TRef.toBuf (Val := Elt Ideal) (.of main_v52 : TRef sig ⟨S150000x64, .f32⟩) v = v := rfl

theorem ops2_v52 (W : Valuation τ sig (Elt Ideal)) :
    after (ops2 (F := Ideal)) W (Proc.devRef .tc main_v52)
      = Cert.Spec.layer (W (Proc.devRef .tc main_arg3)) (W (Proc.devRef .tc main_arg4)) (W (Proc.devRef .tc main_arg5))
          (W (Proc.devRef .tc main_v22)) (W (Proc.devRef .tc main_arg9)) (W (Proc.devRef .tc main_arg12))
          (W (Proc.devRef .tc main_arg15)) (W (Proc.devRef .tc main_arg18)) := by
  after_results_simp
  simp only [ofBuf_toBuf, ofBuf_pre, ofBuf_slope, toBuf_new]
  rfl

theorem ops2_v60 (W : Valuation τ sig (Elt Ideal)) :
    after (ops2 (F := Ideal)) W (Proc.devRef .tc main_v60)
      = Cert.DenseMath.refNormed
          (Cert.Spec.layer (W (Proc.devRef .tc main_arg3)) (W (Proc.devRef .tc main_arg4)) (W (Proc.devRef .tc main_arg5))
            (W (Proc.devRef .tc main_v22)) (W (Proc.devRef .tc main_arg9)) (W (Proc.devRef .tc main_arg12))
            (W (Proc.devRef .tc main_arg15)) (W (Proc.devRef .tc main_arg18))) := by
  after_results_simp
  simp only [ofBuf_toBuf, ofBuf_pre, ofBuf_slope, toBuf_new]
  rfl

end Cert.ReferenceIdeal.Hand

end
-- ==== Proof.RefRead3.lean ====
import proofs.«404336_j13099650253234_2_alg».proof.Proof.RefRunOps
import proofs.«404336_j13099650253234_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

private theorem ofBuf_toBuf {T : BufTy} {Val : EltTy → Type} (x : TRef sig T) (v : T.Contents Val) :
    x.ofBuf (x.toBuf v) = v := by
  obtain ⟨r, h, hd, hu⟩ := x
  subst h
  rfl

private theorem ofBuf_pre (v : (main_v81 : Ref sig .tc).ty.Contents (Elt Ideal)) :
    TRef.ofBuf (Val := Elt Ideal) (.of main_v81 : TRef sig ⟨S150000x64, .f32⟩) v = v := rfl

private theorem ofBuf_slope (v : (main_cst_13 : Ref sig .tc).ty.Contents (Elt Ideal)) :
    TRef.ofBuf (Val := Elt Ideal) (.of main_cst_13 : TRef sig ⟨S_, .f32⟩) v = v := rfl

private theorem toBuf_new (v : FVec Ideal S150000x64 .f32) :
    TRef.toBuf (Val := Elt Ideal) (.of main_v82 : TRef sig ⟨S150000x64, .f32⟩) v = v := rfl

theorem ops3_v90 (W : Valuation τ sig (Elt Ideal)) :
    after (ops3 (F := Ideal)) W (Proc.devRef .tc main_v90)
      = Cert.DenseMath.refNormed
          (Cert.Spec.layer (W (Proc.devRef .tc main_arg3)) (W (Proc.devRef .tc main_arg4)) (W (Proc.devRef .tc main_arg5))
            (W (Proc.devRef .tc main_v52)) (W (Proc.devRef .tc main_arg10)) (W (Proc.devRef .tc main_arg13))
            (W (Proc.devRef .tc main_arg16)) (W (Proc.devRef .tc main_arg19))) := by
  after_results_simp
  simp only [ofBuf_toBuf, ofBuf_pre, ofBuf_slope, toBuf_new]
  rfl

end Cert.ReferenceIdeal.Hand

end
-- ==== Proof.RefRead4.lean ====
import proofs.«404336_j13099650253234_2_alg».proof.Proof.RefRunOps
import proofs.«404336_j13099650253234_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

theorem ops4_v99 (W : Valuation τ sig (Elt Ideal)) :
    after (ops4 (F := Ideal)) W (Proc.devRef .tc main_v99)
      = Cert.GatherMath.refGatherU
          (Cert.Spec.uRows
            (Cert.Spec.tableOf (W (Proc.devRef .tc main_v0)) (W (Proc.devRef .tc main_v30))
            (W (Proc.devRef .tc main_v60)) (W (Proc.devRef .tc main_v90))))
          (W (Proc.devRef .tc main_arg0)) := by
  after_results_simp
  rfl

theorem ops4_v107 (W : Valuation τ sig (Elt Ideal)) :
    after (ops4 (F := Ideal)) W (Proc.devRef .tc main_v107)
      = Cert.GatherMath.refGatherI
          (Cert.Spec.iRows
            (Cert.Spec.tableOf (W (Proc.devRef .tc main_v0)) (W (Proc.devRef .tc main_v30))
            (W (Proc.devRef .tc main_v60)) (W (Proc.devRef .tc main_v90))))
          (W (Proc.devRef .tc main_arg1)) := by
  after_results_simp
  rfl

theorem ops4_v114 (W : Valuation τ sig (Elt Ideal)) :
    after (ops4 (F := Ideal)) W (Proc.devRef .tc main_v114)
      = Cert.GatherMath.refGatherI
          (Cert.Spec.iRows
            (Cert.Spec.tableOf (W (Proc.devRef .tc main_v0)) (W (Proc.devRef .tc main_v30))
            (W (Proc.devRef .tc main_v60)) (W (Proc.devRef .tc main_v90))))
          (W (Proc.devRef .tc main_arg2)) := by
  after_results_simp
  rfl

end Cert.ReferenceIdeal.Hand

end
-- ==== Proof.RefRead.lean ====
import proofs.«404336_j13099650253234_2_alg».proof.Proof.RefRead1
import proofs.«404336_j13099650253234_2_alg».proof.Proof.RefRead2
import proofs.«404336_j13099650253234_2_alg».proof.Proof.RefRead3
import proofs.«404336_j13099650253234_2_alg».proof.Proof.RefRead4
import proofs.«404336_j13099650253234_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

theorem keep12 (V : Valuation τ sig (Elt Ideal)) {r : Ref sig .tc} (h1 : r ∉ W1) (h2 : r ∉ W2) :
    after (ops2 (F := Ideal)) (after ops1 V) (Proc.devRef .tc r) = V (Proc.devRef .tc r) := by
  rw [ops2_keep _ h2, ops1_keep _ h1]

theorem keep123 (V : Valuation τ sig (Elt Ideal)) {r : Ref sig .tc} (h1 : r ∉ W1) (h2 : r ∉ W2) (h3 : r ∉ W3) :
    after (ops3 (F := Ideal)) (after ops2 (after ops1 V)) (Proc.devRef .tc r) = V (Proc.devRef .tc r) := by
  rw [ops3_keep _ h3, ops2_keep _ h2, ops1_keep _ h1]

theorem at_v0 (V : Valuation τ sig (Elt Ideal)) :
    after (ops3 (F := Ideal)) (after ops2 (after ops1 V)) (Proc.devRef .tc main_v0) = Cert.Spec.ego (V (Proc.devRef .tc main_arg6)) (V (Proc.devRef .tc main_arg7)) := by
  rw [ops3_keep _ (r := main_v0) (by decide), ops2_keep _ (r := main_v0) (by decide), ops1_v0]

theorem at_v30 (V : Valuation τ sig (Elt Ideal)) :
    after (ops3 (F := Ideal)) (after ops2 (after ops1 V)) (Proc.devRef .tc main_v30)
      = Cert.Spec.nrm0 (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg11)) (V (Proc.devRef .tc main_arg14)) (V (Proc.devRef .tc main_arg17)) := by
  rw [ops3_keep _ (r := main_v30) (by decide), ops2_keep _ (r := main_v30) (by decide), ops1_v30]

theorem at_v52 (V : Valuation τ sig (Elt Ideal)) :
    after (ops2 (F := Ideal)) (after ops1 V) (Proc.devRef .tc main_v52)
      = Cert.Spec.new1 (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg11)) (V (Proc.devRef .tc main_arg12))
          (V (Proc.devRef .tc main_arg14)) (V (Proc.devRef .tc main_arg15)) (V (Proc.devRef .tc main_arg17))
          (V (Proc.devRef .tc main_arg18)) := by
  rw [ops2_v52, ops1_v22,
    ops1_keep (F := Ideal) V (r := main_arg3) (by decide),
    ops1_keep (F := Ideal) V (r := main_arg4) (by decide),
    ops1_keep (F := Ideal) V (r := main_arg5) (by decide),
    ops1_keep (F := Ideal) V (r := main_arg9) (by decide),
    ops1_keep (F := Ideal) V (r := main_arg12) (by decide),
    ops1_keep (F := Ideal) V (r := main_arg15) (by decide),
    ops1_keep (F := Ideal) V (r := main_arg18) (by decide)]
  rfl

theorem at_v60 (V : Valuation τ sig (Elt Ideal)) :
    after (ops3 (F := Ideal)) (after ops2 (after ops1 V)) (Proc.devRef .tc main_v60)
      = Cert.Spec.nrm1 (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg11)) (V (Proc.devRef .tc main_arg12))
          (V (Proc.devRef .tc main_arg14)) (V (Proc.devRef .tc main_arg15)) (V (Proc.devRef .tc main_arg17))
          (V (Proc.devRef .tc main_arg18)) := by
  rw [ops3_keep _ (r := main_v60) (by decide), ops2_v60, ops1_v22,
    ops1_keep (F := Ideal) V (r := main_arg3) (by decide),
    ops1_keep (F := Ideal) V (r := main_arg4) (by decide),
    ops1_keep (F := Ideal) V (r := main_arg5) (by decide),
    ops1_keep (F := Ideal) V (r := main_arg9) (by decide),
    ops1_keep (F := Ideal) V (r := main_arg12) (by decide),
    ops1_keep (F := Ideal) V (r := main_arg15) (by decide),
    ops1_keep (F := Ideal) V (r := main_arg18) (by decide)]
  rfl

theorem at_v90 (V : Valuation τ sig (Elt Ideal)) :
    after (ops3 (F := Ideal)) (after ops2 (after ops1 V)) (Proc.devRef .tc main_v90)
      = Cert.Spec.nrm2 (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14))
          (V (Proc.devRef .tc main_arg15)) (V (Proc.devRef .tc main_arg16)) (V (Proc.devRef .tc main_arg17))
          (V (Proc.devRef .tc main_arg18)) (V (Proc.devRef .tc main_arg19)) := by
  rw [ops3_v90, at_v52,
    keep12 V (r := main_arg3) (by decide) (by decide),
    keep12 V (r := main_arg4) (by decide) (by decide),
    keep12 V (r := main_arg5) (by decide) (by decide),
    keep12 V (r := main_arg10) (by decide) (by decide),
    keep12 V (r := main_arg13) (by decide) (by decide),
    keep12 V (r := main_arg16) (by decide) (by decide),
    keep12 V (r := main_arg19) (by decide) (by decide)]
  rfl

theorem ref_v99 (V : Valuation τ sig (Elt Ideal)) :
    after (ops (F := Ideal)) V (Proc.devRef .tc main_v99)
      = Cert.Spec.resU (V (Proc.devRef .tc main_arg0)) (V (Proc.devRef .tc main_arg3)) (V (Proc.devRef .tc main_arg4))
          (V (Proc.devRef .tc main_arg5)) (V (Proc.devRef .tc main_arg6)) (V (Proc.devRef .tc main_arg7))
          (V (Proc.devRef .tc main_arg8)) (V (Proc.devRef .tc main_arg9)) (V (Proc.devRef .tc main_arg10))
          (V (Proc.devRef .tc main_arg11)) (V (Proc.devRef .tc main_arg12)) (V (Proc.devRef .tc main_arg13))
          (V (Proc.devRef .tc main_arg14)) (V (Proc.devRef .tc main_arg15)) (V (Proc.devRef .tc main_arg16))
          (V (Proc.devRef .tc main_arg17)) (V (Proc.devRef .tc main_arg18)) (V (Proc.devRef .tc main_arg19)) := by
  rw [show (ops : List (HloOp τ sig (Elt Ideal))) = ops1 ++ (ops2 ++ (ops3 ++ ops4)) from rfl,
    StableHlo.after_append, StableHlo.after_append, StableHlo.after_append,
    ops4_v99, at_v0, at_v30, at_v60, at_v90, keep123 V (r := main_arg0) (by decide) (by decide) (by decide)]
  rfl

theorem ref_v107 (V : Valuation τ sig (Elt Ideal)) :
    after (ops (F := Ideal)) V (Proc.devRef .tc main_v107)
      = Cert.Spec.resP (V (Proc.devRef .tc main_arg1)) (V (Proc.devRef .tc main_arg3)) (V (Proc.devRef .tc main_arg4))
          (V (Proc.devRef .tc main_arg5)) (V (Proc.devRef .tc main_arg6)) (V (Proc.devRef .tc main_arg7))
          (V (Proc.devRef .tc main_arg8)) (V (Proc.devRef .tc main_arg9)) (V (Proc.devRef .tc main_arg10))
          (V (Proc.devRef .tc main_arg11)) (V (Proc.devRef .tc main_arg12)) (V (Proc.devRef .tc main_arg13))
          (V (Proc.devRef .tc main_arg14)) (V (Proc.devRef .tc main_arg15)) (V (Proc.devRef .tc main_arg16))
          (V (Proc.devRef .tc main_arg17)) (V (Proc.devRef .tc main_arg18)) (V (Proc.devRef .tc main_arg19)) := by
  rw [show (ops : List (HloOp τ sig (Elt Ideal))) = ops1 ++ (ops2 ++ (ops3 ++ ops4)) from rfl,
    StableHlo.after_append, StableHlo.after_append, StableHlo.after_append,
    ops4_v107, at_v0, at_v30, at_v60, at_v90, keep123 V (r := main_arg1) (by decide) (by decide) (by decide)]
  rfl

theorem ref_v114 (V : Valuation τ sig (Elt Ideal)) :
    after (ops (F := Ideal)) V (Proc.devRef .tc main_v114)
      = Cert.Spec.resN (V (Proc.devRef .tc main_arg2)) (V (Proc.devRef .tc main_arg3)) (V (Proc.devRef .tc main_arg4))
          (V (Proc.devRef .tc main_arg5)) (V (Proc.devRef .tc main_arg6)) (V (Proc.devRef .tc main_arg7))
          (V (Proc.devRef .tc main_arg8)) (V (Proc.devRef .tc main_arg9)) (V (Proc.devRef .tc main_arg10))
          (V (Proc.devRef .tc main_arg11)) (V (Proc.devRef .tc main_arg12)) (V (Proc.devRef .tc main_arg13))
          (V (Proc.devRef .tc main_arg14)) (V (Proc.devRef .tc main_arg15)) (V (Proc.devRef .tc main_arg16))
          (V (Proc.devRef .tc main_arg17)) (V (Proc.devRef .tc main_arg18)) (V (Proc.devRef .tc main_arg19)) := by
  rw [show (ops : List (HloOp τ sig (Elt Ideal))) = ops1 ++ (ops2 ++ (ops3 ++ ops4)) from rfl,
    StableHlo.after_append, StableHlo.after_append, StableHlo.after_append,
    ops4_v114, at_v0, at_v30, at_v60, at_v90, keep123 V (r := main_arg2) (by decide) (by decide) (by decide)]
  rfl

end Cert.ReferenceIdeal.Hand

end
-- ==== Proof.lean ====
import proofs.«404336_j13099650253234_2_alg».proof.Defs
import proofs.«404336_j13099650253234_2_alg».proof.Proof.Gen.Kernel
import proofs.«404336_j13099650253234_2_alg».proof.Proof.Gen.KernelIdeal
import proofs.«404336_j13099650253234_2_alg».proof.Proof.Gen.ReferenceIdeal
import proofs.«404336_j13099650253234_2_alg».proof.Proof.Gen.Pre_finite_inputs
import proofs.«404336_j13099650253234_2_alg».proof.Proof.PreRange
import proofs.«404336_j13099650253234_2_alg».proof.Proof.KIFrame3
import proofs.«404336_j13099650253234_2_alg».proof.Proof.KITables
import proofs.«404336_j13099650253234_2_alg».proof.Proof.KIValue
import proofs.«404336_j13099650253234_2_alg».proof.Proof.RefRun
import proofs.«404336_j13099650253234_2_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem

open Lean Elab Tactic in
/-- Closes the goal with a term whose type is the goal once definitions are unfolded; the unfolding is left to the check of the finished proof. -/
elab "exact_by_kernel " t:term : tactic => do
  (← getMainGoal).assign (← elabTerm t none)
  replaceMainGoal []

open Cert.KernelIdeal in
/-- The location of buffer `a` on core `c`'s TensorCore. -/
abbrev at' (c : Dev nD) (a : Ref sig .tc) : Loc nD τ sig := (c.tc : Thread nD τ).loc a

open Cert.KernelIdeal in
/-- The idealized program read at ANY float instance: under the precondition the three index vectors are in range, so
    they are admissible tables for the row gather, and the run leaves every argument as launched. -/
theorem frame_any {F : FTy → Type} [FloatOps F] (m : (ℓ : Loc nD τ sig) → Buf (Elt F) ℓ) (ρ : Dev nD → PrngReg)
    (hpre : ∀ c : Dev nD, Cert.Pre_finite_inputs.fn (F := F) (m (at' c main_arg0)) (m (at' c main_arg1)) (m (at' c main_arg2)) (m (at' c main_arg3)) (m (at' c main_arg4)) (m (at' c main_arg5)) (m (at' c main_arg6)) (m (at' c main_arg7)) (m (at' c main_arg8)) (m (at' c main_arg9)) (m (at' c main_arg10)) (m (at' c main_arg11)) (m (at' c main_arg12)) (m (at' c main_arg13)) (m (at' c main_arg14)) (m (at' c main_arg15)) (m (at' c main_arg16)) (m (at' c main_arg17)) (m (at' c main_arg18)) (m (at' c main_arg19)) = fun _ => 1#1) :
    θ_run (defs (F := F)) (onTc (τ := τ) (main (F := F))) ⟨m, fun _ => 0, ρ⟩ fun r => ∀ c : Dev nD,
      r.2.mem (at' c main_arg0) = m (at' c main_arg0)
      ∧ r.2.mem (at' c main_arg1) = m (at' c main_arg1)
      ∧ r.2.mem (at' c main_arg2) = m (at' c main_arg2)
      ∧ r.2.mem (at' c main_arg3) = m (at' c main_arg3)
      ∧ r.2.mem (at' c main_arg4) = m (at' c main_arg4)
      ∧ r.2.mem (at' c main_arg5) = m (at' c main_arg5)
      ∧ r.2.mem (at' c main_arg6) = m (at' c main_arg6)
      ∧ r.2.mem (at' c main_arg7) = m (at' c main_arg7)
      ∧ r.2.mem (at' c main_arg8) = m (at' c main_arg8)
      ∧ r.2.mem (at' c main_arg9) = m (at' c main_arg9)
      ∧ r.2.mem (at' c main_arg10) = m (at' c main_arg10)
      ∧ r.2.mem (at' c main_arg11) = m (at' c main_arg11)
      ∧ r.2.mem (at' c main_arg12) = m (at' c main_arg12)
      ∧ r.2.mem (at' c main_arg13) = m (at' c main_arg13)
      ∧ r.2.mem (at' c main_arg14) = m (at' c main_arg14)
      ∧ r.2.mem (at' c main_arg15) = m (at' c main_arg15)
      ∧ r.2.mem (at' c main_arg16) = m (at' c main_arg16)
      ∧ r.2.mem (at' c main_arg17) = m (at' c main_arg17)
      ∧ r.2.mem (at' c main_arg18) = m (at' c main_arg18)
      ∧ r.2.mem (at' c main_arg19) = m (at' c main_arg19) := by
  obtain ⟨h0, h1, h2⟩ := Cert.PreRange.idx_ranges (F := F) _ _ _ _ _ _ _ _ _ _ _ _ _ _ _ _ _ _ _ _ (hpre 0)
  exact (θ_run (defs (F := F)) _ _).mono (fun _ h c => (h c).2.2.2)
    (Hand.run_val m (Hand.adm3 m h0 h1 h2) ρ (fun c k => Hand.adm3_tbl m h0 h1 h2 (Hand.outsC m) c k))

theorem frame_ki : Cert.frame_KernelIdeal := fun m ρ hpre => frame_any m ρ hpre

/-- The word-level program and the idealized program are one text under two names, so this statement is `frame_any`
    at machine words once both are unfolded. -/
theorem frame_k : Cert.frame_Kernel := by exact_by_kernel @frame_any Bits _

theorem frame_ri : Cert.frame_ReferenceIdeal := fun m ρ _ =>
  (θ_run (Cert.ReferenceIdeal.defs (F := Ideal)) _ _).mono (fun _ h c => (h c).2.2.2)
    (Cert.ReferenceIdeal.Hand.run (F := Ideal) m ρ)

theorem preserves : Cert.preserves_Kernel_KernelIdeal := trivial

private theorem eq18 {α0 α1 α2 α3 α4 α5 α6 α7 α8 α9 α10 α11 α12 α13 α14 α15 α16 α17 β : Type}
    (f : α0 → α1 → α2 → α3 → α4 → α5 → α6 → α7 → α8 → α9 → α10 → α11 → α12 → α13 → α14 → α15 → α16 → α17 → β)
    {x0 y0 : α0} {x1 y1 : α1} {x2 y2 : α2} {x3 y3 : α3} {x4 y4 : α4} {x5 y5 : α5} {x6 y6 : α6} {x7 y7 : α7} {x8 y8 : α8} {x9 y9 : α9} {x10 y10 : α10} {x11 y11 : α11} {x12 y12 : α12} {x13 y13 : α13} {x14 y14 : α14} {x15 y15 : α15} {x16 y16 : α16} {x17 y17 : α17}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) :
    f x0 x1 x2 x3 x4 x5 x6 x7 x8 x9 x10 x11 x12 x13 x14 x15 x16 x17 = f y0 y1 y2 y3 y4 y5 y6 y7 y8 y9 y10 y11 y12 y13 y14 y15 y16 y17 := by
  subst h0 h1 h2 h3 h4 h5 h6 h7 h8 h9 h10 h11 h12 h13 h14 h15 h16 h17
  rfl

theorem algebraic : Cert.algebraic_KernelIdeal_ReferenceIdeal := by
  intro m ρ m' ρ' hpre hagree
  obtain ⟨h0, h1, h2⟩ := Cert.PreRange.idx_ranges (F := Ideal) _ _ _ _ _ _ _ _ _ _ _ _ _ _ _ _ _ _ _ _ (hpre 0)
  refine ⟨fun c => Cert.KernelIdeal.Gen.V9 m (Cert.KernelIdeal.Hand.outs m (Cert.KernelIdeal.Hand.adm3 m h0 h1 h2)) c Cert.KernelIdeal.main_v49,
    fun c => Cert.KernelIdeal.Gen.V9 m (Cert.KernelIdeal.Hand.outs m (Cert.KernelIdeal.Hand.adm3 m h0 h1 h2)) c Cert.KernelIdeal.main_v50,
    fun c => Cert.KernelIdeal.Gen.V9 m (Cert.KernelIdeal.Hand.outs m (Cert.KernelIdeal.Hand.adm3 m h0 h1 h2)) c Cert.KernelIdeal.main_v51,
    Cert.KernelIdeal.Hand.run_val m (Cert.KernelIdeal.Hand.adm3 m h0 h1 h2) ρ (fun c k => Cert.KernelIdeal.Hand.adm3_tbl m h0 h1 h2 (Cert.KernelIdeal.Hand.outsC m) c k), ?_⟩
  refine (θ_run (Cert.ReferenceIdeal.defs (F := Ideal)) _ _).mono (fun r h c => ?_) (Cert.ReferenceIdeal.Hand.run (F := Ideal) m' ρ')
  obtain rfl : c = (0 : Dev Cert.ReferenceIdeal.nD) := Subsingleton.elim _ _
  obtain ⟨e0, e1, e2, e3, e4, e5, e6, e7, e8, e9, e10, e11, e12, e13, e14, e15, e16, e17, e18, e19⟩ := hagree 0
  refine ⟨(h 0).1.trans ?_, (h 0).2.1.trans ?_, (h 0).2.2.1.trans ?_, (h 0).2.2.2⟩
  · exact (Cert.ReferenceIdeal.Hand.ref_v99 _).trans ((eq18 Cert.Spec.resU e0 e3 e4 e5 e6 e7 e8 e9 e10 e11 e12 e13 e14 e15 e16 e17 e18 e19).trans
      (Cert.KernelIdeal.Hand.value_v49 m (Cert.KernelIdeal.Hand.adm3 m h0 h1 h2) 0 (Cert.KernelIdeal.Hand.adm3_0 m h0 h1 h2 0) h0).symm)
  · exact (Cert.ReferenceIdeal.Hand.ref_v107 _).trans ((eq18 Cert.Spec.resP e1 e3 e4 e5 e6 e7 e8 e9 e10 e11 e12 e13 e14 e15 e16 e17 e18 e19).trans
      (Cert.KernelIdeal.Hand.value_v50 m (Cert.KernelIdeal.Hand.adm3 m h0 h1 h2) 0 (Cert.KernelIdeal.Hand.adm3_1 m h0 h1 h2 0) h1).symm)
  · exact (Cert.ReferenceIdeal.Hand.ref_v114 _).trans ((eq18 Cert.Spec.resN e2 e3 e4 e5 e6 e7 e8 e9 e10 e11 e12 e13 e14 e15 e16 e17 e18 e19).trans
      (Cert.KernelIdeal.Hand.value_v51 m (Cert.KernelIdeal.Hand.adm3 m h0 h1 h2) 0 (Cert.KernelIdeal.Hand.adm3_2 m h0 h1 h2 0) h2).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
